-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S512x512 : Shape := ⟨2, ![512, 512]⟩
abbrev S2x8x32x512 : Shape := ⟨4, ![2, 8, 32, 512]⟩
abbrev S2x7 : Shape := ⟨2, ![2, 7]⟩
abbrev S2x8 : Shape := ⟨2, ![2, 8]⟩
abbrev S_ : Shape := ⟨0, ![]⟩
abbrev S1x1 : Shape := ⟨2, ![1, 1]⟩
abbrev S1x1x32x512 : Shape := ⟨4, ![1, 1, 32, 512]⟩
abbrev S32x512 : Shape := ⟨2, ![32, 512]⟩
abbrev S64x512 : Shape := ⟨2, ![64, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S2x8x32x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.addi v2 c1_i32_0
  let c8_i32_1 : BitVec 32 := 8#32
  let v6 : BitVec 32 := Scalar.remsi v5 c8_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.addi v2 c2_i32
  let c8_i32_4 : BitVec 32 := 8#32
  let v10 : BitVec 32 := Scalar.remsi v9 c8_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.addi v2 c3_i32
  let c8_i32_8 : BitVec 32 := 8#32
  let v14 : BitVec 32 := Scalar.remsi v13 c8_i32_8
  let c1_i32_10 : BitVec 32 := 1#32
  let v15 : BitVec 32 := Scalar.muli v14 c1_i32_10
  let v16 : BitVec 32 := Scalar.addi c0_i32_11 v15
  v16.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.addi v2 c4_i32
  let c8_i32_12 : BitVec 32 := 8#32
  let v18 : BitVec 32 := Scalar.remsi v17 c8_i32_12
  let c1_i32_14 : BitVec 32 := 1#32
  let v19 : BitVec 32 := Scalar.muli v18 c1_i32_14
  let v20 : BitVec 32 := Scalar.addi c0_i32_15 v19
  v20.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v21 : BitVec 32 := Scalar.addi v2 c5_i32
  let c8_i32_16 : BitVec 32 := 8#32
  let v22 : BitVec 32 := Scalar.remsi v21 c8_i32_16
  let c1_i32_18 : BitVec 32 := 1#32
  let v23 : BitVec 32 := Scalar.muli v22 c1_i32_18
  let v24 : BitVec 32 := Scalar.addi c0_i32_19 v23
  v24.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v25 : BitVec 32 := Scalar.addi v2 c6_i32
  let c8_i32_20 : BitVec 32 := 8#32
  let v26 : BitVec 32 := Scalar.remsi v25 c8_i32_20
  let c1_i32_22 : BitVec 32 := 1#32
  let v27 : BitVec 32 := Scalar.muli v26 c1_i32_22
  let v28 : BitVec 32 := Scalar.addi c0_i32_23 v27
  v28.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v29 : BitVec 32 := Scalar.addi v2 c7_i32
  let c8_i32_24 : BitVec 32 := 8#32
  let v30 : BitVec 32 := Scalar.remsi v29 c8_i32_24
  let c1_i32_26 : BitVec 32 := 1#32
  let v31 : BitVec 32 := Scalar.muli v30 c1_i32_26
  let v32 : BitVec 32 := Scalar.addi c0_i32_27 v31
  v32.toNat
def k0_off1 (d0 : Dev nD) (c1_i32_29 : BitVec 32) (c0_i32_32 : BitVec 32) : Fin 2 → Nat :=
  let c64_i32_31 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v33 : BitVec 32 := Scalar.addi v2 c1_i32_29
  let c8_i32_30 : BitVec 32 := 8#32
  let v34 : BitVec 32 := Scalar.remsi v33 c8_i32_30
  let v35 : BitVec 32 := Scalar.muli c64_i32_31 v34
  let v36 : BitVec 32 := Scalar.addi v35 c0_i32_32
  let c0_i32_43 : BitVec 32 := 0#32
  ![v36.toNat, 0]
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v33 : BitVec 32 := Scalar.addi v2 c1_i32_29
  let c8_i32_30 : BitVec 32 := 8#32
  let v34 : BitVec 32 := Scalar.remsi v33 c8_i32_30
  let c1_i32_39 : BitVec 32 := 1#32
  let v37 : BitVec 32 := Scalar.muli v34 c1_i32_39
  let v38 : BitVec 32 := Scalar.addi c0_i32_40 v37
  v38.toNat
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v46 : BitVec 32 := Scalar.addi v2 c2_i32_44
  let c8_i32_45 : BitVec 32 := 8#32
  let v47 : BitVec 32 := Scalar.remsi v46 c8_i32_45
  let c1_i32_54 : BitVec 32 := 1#32
  let v50 : BitVec 32 := Scalar.muli v47 c1_i32_54
  let v51 : BitVec 32 := Scalar.addi c0_i32_55 v50
  v51.toNat
def k0_dev10 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_59 : BitVec 32 := 3#32
  let v59 : BitVec 32 := Scalar.addi v2 c3_i32_59
  let c8_i32_60 : BitVec 32 := 8#32
  let v60 : BitVec 32 := Scalar.remsi v59 c8_i32_60
  let c1_i32_69 : BitVec 32 := 1#32
  let v63 : BitVec 32 := Scalar.muli v60 c1_i32_69
  let v64 : BitVec 32 := Scalar.addi c0_i32_70 v63
  v64.toNat
def k0_dev11 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v72 : BitVec 32 := Scalar.addi v2 c4_i32_74
  let c8_i32_75 : BitVec 32 := 8#32
  let v73 : BitVec 32 := Scalar.remsi v72 c8_i32_75
  let c1_i32_84 : BitVec 32 := 1#32
  let v76 : BitVec 32 := Scalar.muli v73 c1_i32_84
  let v77 : BitVec 32 := Scalar.addi c0_i32_85 v76
  v77.toNat
def k0_dev12 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_89 : BitVec 32 := 5#32
  let v85 : BitVec 32 := Scalar.addi v2 c5_i32_89
  let c8_i32_90 : BitVec 32 := 8#32
  let v86 : BitVec 32 := Scalar.remsi v85 c8_i32_90
  let c1_i32_99 : BitVec 32 := 1#32
  let v89 : BitVec 32 := Scalar.muli v86 c1_i32_99
  let v90 : BitVec 32 := Scalar.addi c0_i32_100 v89
  v90.toNat
def k0_dev13 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_104 : BitVec 32 := 6#32
  let v98 : BitVec 32 := Scalar.addi v2 c6_i32_104
  let c8_i32_105 : BitVec 32 := 8#32
  let v99 : BitVec 32 := Scalar.remsi v98 c8_i32_105
  let c1_i32_114 : BitVec 32 := 1#32
  let v102 : BitVec 32 := Scalar.muli v99 c1_i32_114
  let v103 : BitVec 32 := Scalar.addi c0_i32_115 v102
  v103.toNat
def k0_dev14 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_119 : BitVec 32 := 7#32
  let v111 : BitVec 32 := Scalar.addi v2 c7_i32_119
  let c8_i32_120 : BitVec 32 := 8#32
  let v112 : BitVec 32 := Scalar.remsi v111 c8_i32_120
  let c1_i32_129 : BitVec 32 := 1#32
  let v115 : BitVec 32 := Scalar.muli v112 c1_i32_129
  let v116 : BitVec 32 := Scalar.addi c0_i32_130 v115
  v116.toNat
def k0_dev15 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_134 : BitVec 32 := 1#32
  let v124 : BitVec 32 := Scalar.addi v2 c1_i32_134
  let c8_i32_135 : BitVec 32 := 8#32
  let v125 : BitVec 32 := Scalar.remsi v124 c8_i32_135
  let c1_i32_143 : BitVec 32 := 1#32
  let v128 : BitVec 32 := Scalar.muli v125 c1_i32_143
  let v129 : BitVec 32 := Scalar.addi c0_i32_144 v128
  v129.toNat
def k0_dev16 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_148 : BitVec 32 := 2#32
  let v137 : BitVec 32 := Scalar.addi v2 c2_i32_148
  let c8_i32_149 : BitVec 32 := 8#32
  let v138 : BitVec 32 := Scalar.remsi v137 c8_i32_149
  let c1_i32_158 : BitVec 32 := 1#32
  let v141 : BitVec 32 := Scalar.muli v138 c1_i32_158
  let v142 : BitVec 32 := Scalar.addi c0_i32_159 v141
  v142.toNat
def k0_dev17 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_163 : BitVec 32 := 3#32
  let v150 : BitVec 32 := Scalar.addi v2 c3_i32_163
  let c8_i32_164 : BitVec 32 := 8#32
  let v151 : BitVec 32 := Scalar.remsi v150 c8_i32_164
  let c1_i32_173 : BitVec 32 := 1#32
  let v154 : BitVec 32 := Scalar.muli v151 c1_i32_173
  let v155 : BitVec 32 := Scalar.addi c0_i32_174 v154
  v155.toNat
def k0_dev18 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_178 : BitVec 32 := 4#32
  let v163 : BitVec 32 := Scalar.addi v2 c4_i32_178
  let c8_i32_179 : BitVec 32 := 8#32
  let v164 : BitVec 32 := Scalar.remsi v163 c8_i32_179
  let c1_i32_188 : BitVec 32 := 1#32
  let v167 : BitVec 32 := Scalar.muli v164 c1_i32_188
  let v168 : BitVec 32 := Scalar.addi c0_i32_189 v167
  v168.toNat
def k0_dev19 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_193 : BitVec 32 := 5#32
  let v176 : BitVec 32 := Scalar.addi v2 c5_i32_193
  let c8_i32_194 : BitVec 32 := 8#32
  let v177 : BitVec 32 := Scalar.remsi v176 c8_i32_194
  let c1_i32_203 : BitVec 32 := 1#32
  let v180 : BitVec 32 := Scalar.muli v177 c1_i32_203
  let v181 : BitVec 32 := Scalar.addi c0_i32_204 v180
  v181.toNat
def k0_dev20 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_208 : BitVec 32 := 6#32
  let v189 : BitVec 32 := Scalar.addi v2 c6_i32_208
  let c8_i32_209 : BitVec 32 := 8#32
  let v190 : BitVec 32 := Scalar.remsi v189 c8_i32_209
  let c1_i32_218 : BitVec 32 := 1#32
  let v193 : BitVec 32 := Scalar.muli v190 c1_i32_218
  let v194 : BitVec 32 := Scalar.addi c0_i32_219 v193
  v194.toNat
def k0_dev21 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_223 : BitVec 32 := 7#32
  let v202 : BitVec 32 := Scalar.addi v2 c7_i32_223
  let c8_i32_224 : BitVec 32 := 8#32
  let v203 : BitVec 32 := Scalar.remsi v202 c8_i32_224
  let c1_i32_233 : BitVec 32 := 1#32
  let v206 : BitVec 32 := Scalar.muli v203 c1_i32_233
  let v207 : BitVec 32 := Scalar.addi c0_i32_234 v206
  v207.toNat
def k0_off2 (d0 : Dev nD) : Fin 2 → Nat :=
  let c64_i32 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.muli c64_i32 v2
  let v215 : Index := Scalar.indexCast v3
  let c0 : Index := 0#32
  ![v215.toNat, 0]
def k0_off3 (d0 : Dev nD) (c0_i32_239 : BitVec 32) : Fin 2 → Nat :=
  let c64_i32 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.muli c64_i32 v2
  let v220 : BitVec 32 := Scalar.addi v3 c0_i32_239
  let v228 : Index := Scalar.indexCast v220
  let c0_251 : Index := 0#32
  ![v228.toNat, 0]
def k0_off4 (d0 : Dev nD) (c0_i32_239 : BitVec 32) : Fin 2 → Nat :=
  let c64_i32 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.muli c64_i32 v2
  let v220 : BitVec 32 := Scalar.addi v3 c0_i32_239
  let c0_i32_360 : BitVec 32 := 0#32
  ![v220.toNat, 0]
def k0_dev22 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_352 : BitVec 32 := 1#32
  let v326 : BitVec 32 := Scalar.addi v2 c1_i32_352
  let c8_i32_353 : BitVec 32 := 8#32
  let v327 : BitVec 32 := Scalar.remsi v326 c8_i32_353
  let c1_i32_358 : BitVec 32 := 1#32
  let v328 : BitVec 32 := Scalar.muli v327 c1_i32_358
  let v329 : BitVec 32 := Scalar.addi c0_i32_359 v328
  v329.toNat
def k0_dev23 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_362 : BitVec 32 := 2#32
  let v336 : BitVec 32 := Scalar.addi v2 c2_i32_362
  let c8_i32_363 : BitVec 32 := 8#32
  let v337 : BitVec 32 := Scalar.remsi v336 c8_i32_363
  let c1_i32_368 : BitVec 32 := 1#32
  let v338 : BitVec 32 := Scalar.muli v337 c1_i32_368
  let v339 : BitVec 32 := Scalar.addi c0_i32_369 v338
  v339.toNat
def k0_dev24 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_372 : BitVec 32 := 3#32
  let v346 : BitVec 32 := Scalar.addi v2 c3_i32_372
  let c8_i32_373 : BitVec 32 := 8#32
  let v347 : BitVec 32 := Scalar.remsi v346 c8_i32_373
  let c1_i32_378 : BitVec 32 := 1#32
  let v348 : BitVec 32 := Scalar.muli v347 c1_i32_378
  let v349 : BitVec 32 := Scalar.addi c0_i32_379 v348
  v349.toNat
def k0_dev25 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_382 : BitVec 32 := 4#32
  let v356 : BitVec 32 := Scalar.addi v2 c4_i32_382
  let c8_i32_383 : BitVec 32 := 8#32
  let v357 : BitVec 32 := Scalar.remsi v356 c8_i32_383
  let c1_i32_388 : BitVec 32 := 1#32
  let v358 : BitVec 32 := Scalar.muli v357 c1_i32_388
  let v359 : BitVec 32 := Scalar.addi c0_i32_389 v358
  v359.toNat
def k0_dev26 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_392 : BitVec 32 := 5#32
  let v366 : BitVec 32 := Scalar.addi v2 c5_i32_392
  let c8_i32_393 : BitVec 32 := 8#32
  let v367 : BitVec 32 := Scalar.remsi v366 c8_i32_393
  let c1_i32_398 : BitVec 32 := 1#32
  let v368 : BitVec 32 := Scalar.muli v367 c1_i32_398
  let v369 : BitVec 32 := Scalar.addi c0_i32_399 v368
  v369.toNat
def k0_dev27 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_402 : BitVec 32 := 6#32
  let v376 : BitVec 32 := Scalar.addi v2 c6_i32_402
  let c8_i32_403 : BitVec 32 := 8#32
  let v377 : BitVec 32 := Scalar.remsi v376 c8_i32_403
  let c1_i32_408 : BitVec 32 := 1#32
  let v378 : BitVec 32 := Scalar.muli v377 c1_i32_408
  let v379 : BitVec 32 := Scalar.addi c0_i32_409 v378
  v379.toNat
def k0_dev28 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_412 : BitVec 32 := 7#32
  let v386 : BitVec 32 := Scalar.addi v2 c7_i32_412
  let c8_i32_413 : BitVec 32 := 8#32
  let v387 : BitVec 32 := Scalar.remsi v386 c8_i32_413
  let c1_i32_418 : BitVec 32 := 1#32
  let v388 : BitVec 32 := Scalar.muli v387 c1_i32_418
  let v389 : BitVec 32 := Scalar.addi c0_i32_419 v388
  v389.toNat
def k0_dev29 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_542 : BitVec 32 := 1#32
  let v502 : BitVec 32 := Scalar.addi v2 c1_i32_542
  let c8_i32_543 : BitVec 32 := 8#32
  let v503 : BitVec 32 := Scalar.remsi v502 c8_i32_543
  let c1_i32_548 : BitVec 32 := 1#32
  let v504 : BitVec 32 := Scalar.muli v503 c1_i32_548
  let v505 : BitVec 32 := Scalar.addi c0_i32_549 v504
  v505.toNat
def k0_dev30 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_552 : BitVec 32 := 2#32
  let v512 : BitVec 32 := Scalar.addi v2 c2_i32_552
  let c8_i32_553 : BitVec 32 := 8#32
  let v513 : BitVec 32 := Scalar.remsi v512 c8_i32_553
  let c1_i32_558 : BitVec 32 := 1#32
  let v514 : BitVec 32 := Scalar.muli v513 c1_i32_558
  let v515 : BitVec 32 := Scalar.addi c0_i32_559 v514
  v515.toNat
def k0_dev31 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_562 : BitVec 32 := 3#32
  let v522 : BitVec 32 := Scalar.addi v2 c3_i32_562
  let c8_i32_563 : BitVec 32 := 8#32
  let v523 : BitVec 32 := Scalar.remsi v522 c8_i32_563
  let c1_i32_568 : BitVec 32 := 1#32
  let v524 : BitVec 32 := Scalar.muli v523 c1_i32_568
  let v525 : BitVec 32 := Scalar.addi c0_i32_569 v524
  v525.toNat
def k0_dev32 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_572 : BitVec 32 := 4#32
  let v532 : BitVec 32 := Scalar.addi v2 c4_i32_572
  let c8_i32_573 : BitVec 32 := 8#32
  let v533 : BitVec 32 := Scalar.remsi v532 c8_i32_573
  let c1_i32_578 : BitVec 32 := 1#32
  let v534 : BitVec 32 := Scalar.muli v533 c1_i32_578
  let v535 : BitVec 32 := Scalar.addi c0_i32_579 v534
  v535.toNat
def k0_dev33 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_582 : BitVec 32 := 5#32
  let v542 : BitVec 32 := Scalar.addi v2 c5_i32_582
  let c8_i32_583 : BitVec 32 := 8#32
  let v543 : BitVec 32 := Scalar.remsi v542 c8_i32_583
  let c1_i32_588 : BitVec 32 := 1#32
  let v544 : BitVec 32 := Scalar.muli v543 c1_i32_588
  let v545 : BitVec 32 := Scalar.addi c0_i32_589 v544
  v545.toNat
def k0_dev34 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_592 : BitVec 32 := 6#32
  let v552 : BitVec 32 := Scalar.addi v2 c6_i32_592
  let c8_i32_593 : BitVec 32 := 8#32
  let v553 : BitVec 32 := Scalar.remsi v552 c8_i32_593
  let c1_i32_598 : BitVec 32 := 1#32
  let v554 : BitVec 32 := Scalar.muli v553 c1_i32_598
  let v555 : BitVec 32 := Scalar.addi c0_i32_599 v554
  v555.toNat
def k0_dev35 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_602 : BitVec 32 := 7#32
  let v562 : BitVec 32 := Scalar.addi v2 c7_i32_602
  let c8_i32_603 : BitVec 32 := 8#32
  let v563 : BitVec 32 := Scalar.remsi v562 c8_i32_603
  let c1_i32_608 : BitVec 32 := 1#32
  let v564 : BitVec 32 := Scalar.muli v563 c1_i32_608
  let v565 : BitVec 32 := Scalar.addi c0_i32_609 v564
  v565.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_7 : (7#32 : BitVec 32).msb = false
  inb_S2x7_S1x1_0_0 : ∀ a, (![0, 0] : Fin 2 → Nat) a + S1x1.size a ≤ S2x7.size a
  squeezes_S1x1_S_ : S1x1.Squeezes S_
  inb_S2x8_S1x1_0_7 : ∀ a, (![0, 7] : Fin 2 → Nat) a + S1x1.size a ≤ S2x8.size a
  inb_S2x8x32x512_S1x1x32x512_0_7_0_0 : ∀ a, (![0, 7, 0, 0] : Fin 4 → Nat) a + S1x1x32x512.size a ≤ S2x8x32x512.size a
  squeezes_S1x1x32x512_S32x512 : S1x1x32x512.Squeezes S32x512
  inb_S2x7_S1x1_0_1 : ∀ a, (![0, 1] : Fin 2 → Nat) a + S1x1.size a ≤ S2x7.size a
  inb_S2x8_S1x1_0_6 : ∀ a, (![0, 6] : Fin 2 → Nat) a + S1x1.size a ≤ S2x8.size a
  inb_S2x8x32x512_S1x1x32x512_0_6_0_0 : ∀ a, (![0, 6, 0, 0] : Fin 4 → Nat) a + S1x1x32x512.size a ≤ S2x8x32x512.size a
  inb_S2x7_S1x1_0_2 : ∀ a, (![0, 2] : Fin 2 → Nat) a + S1x1.size a ≤ S2x7.size a
  inb_S2x8_S1x1_0_5 : ∀ a, (![0, 5] : Fin 2 → Nat) a + S1x1.size a ≤ S2x8.size a
  inb_S2x8x32x512_S1x1x32x512_0_5_0_0 : ∀ a, (![0, 5, 0, 0] : Fin 4 → Nat) a + S1x1x32x512.size a ≤ S2x8x32x512.size a
  inb_S2x7_S1x1_0_3 : ∀ a, (![0, 3] : Fin 2 → Nat) a + S1x1.size a ≤ S2x7.size a
  inb_S2x8_S1x1_0_4 : ∀ a, (![0, 4] : Fin 2 → Nat) a + S1x1.size a ≤ S2x8.size a
  inb_S2x8x32x512_S1x1x32x512_0_4_0_0 : ∀ a, (![0, 4, 0, 0] : Fin 4 → Nat) a + S1x1x32x512.size a ≤ S2x8x32x512.size a
  inb_S2x7_S1x1_0_4 : ∀ a, (![0, 4] : Fin 2 → Nat) a + S1x1.size a ≤ S2x7.size a
  inb_S2x8_S1x1_0_3 : ∀ a, (![0, 3] : Fin 2 → Nat) a + S1x1.size a ≤ S2x8.size a
  inb_S2x8x32x512_S1x1x32x512_0_3_0_0 : ∀ a, (![0, 3, 0, 0] : Fin 4 → Nat) a + S1x1x32x512.size a ≤ S2x8x32x512.size a
  inb_S2x7_S1x1_0_5 : ∀ a, (![0, 5] : Fin 2 → Nat) a + S1x1.size a ≤ S2x7.size a
  inb_S2x8_S1x1_0_2 : ∀ a, (![0, 2] : Fin 2 → Nat) a + S1x1.size a ≤ S2x8.size a
  inb_S2x8x32x512_S1x1x32x512_0_2_0_0 : ∀ a, (![0, 2, 0, 0] : Fin 4 → Nat) a + S1x1x32x512.size a ≤ S2x8x32x512.size a
  inb_S2x7_S1x1_0_6 : ∀ a, (![0, 6] : Fin 2 → Nat) a + S1x1.size a ≤ S2x7.size a
  inb_S2x8_S1x1_0_1 : ∀ a, (![0, 1] : Fin 2 → Nat) a + S1x1.size a ≤ S2x8.size a
  inb_S2x8x32x512_S1x1x32x512_0_1_0_0 : ∀ a, (![0, 1, 0, 0] : Fin 4 → Nat) a + S1x1x32x512.size a ≤ S2x8x32x512.size a
  inb_S2x7_S1x1_1_0 : ∀ a, (![1, 0] : Fin 2 → Nat) a + S1x1.size a ≤ S2x7.size a
  inb_S2x8_S1x1_1_7 : ∀ a, (![1, 7] : Fin 2 → Nat) a + S1x1.size a ≤ S2x8.size a
  inb_S2x8x32x512_S1x1x32x512_1_7_0_0 : ∀ a, (![1, 7, 0, 0] : Fin 4 → Nat) a + S1x1x32x512.size a ≤ S2x8x32x512.size a
  inb_S2x7_S1x1_1_1 : ∀ a, (![1, 1] : Fin 2 → Nat) a + S1x1.size a ≤ S2x7.size a
  inb_S2x8_S1x1_1_6 : ∀ a, (![1, 6] : Fin 2 → Nat) a + S1x1.size a ≤ S2x8.size a
  inb_S2x8x32x512_S1x1x32x512_1_6_0_0 : ∀ a, (![1, 6, 0, 0] : Fin 4 → Nat) a + S1x1x32x512.size a ≤ S2x8x32x512.size a
  inb_S2x7_S1x1_1_2 : ∀ a, (![1, 2] : Fin 2 → Nat) a + S1x1.size a ≤ S2x7.size a
  inb_S2x8_S1x1_1_5 : ∀ a, (![1, 5] : Fin 2 → Nat) a + S1x1.size a ≤ S2x8.size a
  inb_S2x8x32x512_S1x1x32x512_1_5_0_0 : ∀ a, (![1, 5, 0, 0] : Fin 4 → Nat) a + S1x1x32x512.size a ≤ S2x8x32x512.size a
  inb_S2x7_S1x1_1_3 : ∀ a, (![1, 3] : Fin 2 → Nat) a + S1x1.size a ≤ S2x7.size a
  inb_S2x8_S1x1_1_4 : ∀ a, (![1, 4] : Fin 2 → Nat) a + S1x1.size a ≤ S2x8.size a
  inb_S2x8x32x512_S1x1x32x512_1_4_0_0 : ∀ a, (![1, 4, 0, 0] : Fin 4 → Nat) a + S1x1x32x512.size a ≤ S2x8x32x512.size a
  inb_S2x7_S1x1_1_4 : ∀ a, (![1, 4] : Fin 2 → Nat) a + S1x1.size a ≤ S2x7.size a
  inb_S2x8_S1x1_1_3 : ∀ a, (![1, 3] : Fin 2 → Nat) a + S1x1.size a ≤ S2x8.size a
  inb_S2x8x32x512_S1x1x32x512_1_3_0_0 : ∀ a, (![1, 3, 0, 0] : Fin 4 → Nat) a + S1x1x32x512.size a ≤ S2x8x32x512.size a
  inb_S2x7_S1x1_1_5 : ∀ a, (![1, 5] : Fin 2 → Nat) a + S1x1.size a ≤ S2x7.size a
  inb_S2x8_S1x1_1_2 : ∀ a, (![1, 2] : Fin 2 → Nat) a + S1x1.size a ≤ S2x8.size a
  inb_S2x8x32x512_S1x1x32x512_1_2_0_0 : ∀ a, (![1, 2, 0, 0] : Fin 4 → Nat) a + S1x1x32x512.size a ≤ S2x8x32x512.size a
  inb_S2x7_S1x1_1_6 : ∀ a, (![1, 6] : Fin 2 → Nat) a + S1x1.size a ≤ S2x7.size a
  inb_S2x8_S1x1_1_1 : ∀ a, (![1, 1] : Fin 2 → Nat) a + S1x1.size a ≤ S2x8.size a
  inb_S2x8x32x512_S1x1x32x512_1_1_0_0 : ∀ a, (![1, 1, 0, 0] : Fin 4 → Nat) a + S1x1x32x512.size a ≤ S2x8x32x512.size a
  h_S64x512 : 0 < S64x512.numel
  shapeCasts_S64x512_S64x512 : S64x512.ShapeCasts S64x512
  h_S32x512 : 0 < S32x512.numel
  shapeCasts_S32x512_S32x512 : S32x512.ShapeCasts S32x512
  h_S1x1x32x512 : 0 < S1x1x32x512.numel
  shapeCasts_S1x1x32x512_S32x512 : S1x1x32x512.ShapeCasts S32x512
  hcc0_scratch1 : 2 + S2x7.numel ≤ 62
  hcc0_scratch2 : 16 + S2x8.numel ≤ 62
  hcc0_scratch3 : 32 + S2x7.numel ≤ 62
  hcc0_scratch4 : 46 + S2x8.numel ≤ 62
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r₁ : Fin 7) (r₂ : Fin 2), ∀ a, (k0_off1 d0 (BitVec.ofNat 32 (1 + r₁.val)) (BitVec.ofNat 32 (32 * r₂.val))) a + S32x512.size a ≤ S512x512.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off2_inb : ∀ d0 : Dev nD, ∀ a, (k0_off2 d0) a + S64x512.size a ≤ S512x512.size a
  k0_off3_inb : ∀ d0 : Dev nD, ∀ (r : Fin 2), ∀ a, (k0_off3 d0 (BitVec.ofNat 32 (32 * r.val))) a + S32x512.size a ≤ S512x512.size a
  k0_off4_inb : ∀ d0 : Dev nD, ∀ (r : Fin 2), ∀ a, (k0_off4 d0 (BitVec.ofNat 32 (32 * r.val))) a + S32x512.size a ≤ S512x512.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  hstage0_0 : ∀ j, (stage0_0 j).IsWhole
  hstage0_1 : ∀ j, (stage0_1 j).IsWhole

variable [Facts₀]

abbrev cc0_scratch1 : DmaSems sig S2x7 := SemArray.consecutive 2 S2x7 hcc0_scratch1
abbrev cc0_scratch2 : DmaSems sig S2x8 := SemArray.consecutive 16 S2x8 hcc0_scratch2
abbrev cc0_scratch3 : DmaSems sig S2x7 := SemArray.consecutive 32 S2x7 hcc0_scratch3
abbrev cc0_scratch4 : DmaSems sig S2x8 := SemArray.consecutive 46 S2x8 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S8x512x512 : Shape := ⟨3, ![8, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8x512x512, .f32⟩
  | .hbm, ⟨2, _⟩ => ⟨S_, .f32⟩
  | .hbm, ⟨3, _⟩ => ⟨S512x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S8x512x512 : S4096x512.ShapeCasts S8x512x512
  reducesTo_S8x512x512_S512x512_d0 : S8x512x512.ReducesTo [0] S512x512
  h_S_ : 0 < S_.numel

variable [Facts₀]

class Facts : Prop extends Facts₀ where

variable [Facts]
-- ==== Proof.RefValue.lean ====
import proofs.«900587_g7700000000000588_dist_rs_then_ag_i_m512_n512_v7x_i8_f32_1_alg».proof.Defs
import proofs.«900587_g7700000000000588_dist_rs_then_ag_i_m512_n512_v7x_i8_f32_1_alg».proof.Proof.Gen.ReferenceIdeal
import proofs.«900587_g7700000000000588_dist_rs_then_ag_i_m512_n512_v7x_i8_f32_1_alg».proof.Proof.Gen.ReferenceIdeal.Run
import proofs.«900587_g7700000000000588_dist_rs_then_ag_i_m512_n512_v7x_i8_f32_1_alg».proof.Proof.Gen.ReferenceIdeal.Read
import proofs.«900587_g7700000000000588_dist_rs_then_ag_i_m512_n512_v7x_i8_f32_1_alg».proof.Proof.Gen.Pre_finite_inputs_ReferenceIdeal
import Idealize.ShloMosaic.Lib.Layout
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem
open Idealize.ShloMosaic.ValueIdx

def blockIdx (p : Fin 8) (i : Cert.ReferenceIdeal.S512x512.Idx) : Cert.ReferenceIdeal.S4096x512.Idx :=
  ix2 (n0 := 4096) (n1 := 512)
    ⟨512 * p.val + (i 0).val, by have h0 := idx2_lt0 i; have hp := p.isLt; omega⟩
    ⟨(i 1).val, idx2_lt1 i⟩

def total (X : (⟨Cert.ReferenceIdeal.S4096x512, .f32⟩ : BufTy).Contents (Elt Ideal)) :
    (⟨Cert.ReferenceIdeal.S512x512, .f32⟩ : BufTy).Contents (Elt Ideal) :=
  fun i => ∑ p : Fin 8, X (blockIdx p i)

theorem ref_is_total (X : (⟨Cert.ReferenceIdeal.S4096x512, .f32⟩ : BufTy).Contents (Elt Ideal)) :
    Cert.ReferenceIdeal.Read.val_main_v1 (F := Ideal) X = total X := by
  funext i
  rw [Cert.ReferenceIdeal.Read.val_main_v1_apply, Cert.ReferenceIdeal.Read.val_main_cst_apply, Ideal.ofBits_def,
    Ideal.ofBits_zero_f32, zero_add]
  unfold total
  refine Finset.sum_congr rfl fun k _ => ?_
  rw [Cert.ReferenceIdeal.Read.val_main_v0_apply]
  refine congrArg X (funext fun a => Fin.ext ?_)
  have h0 := idx2_lt0 i
  have h1 := idx2_lt1 i
  have hk := k.isLt
  match a with
  | ⟨0, _⟩ =>
    show ((k.val * 512 + (i 0).val) * 512 + (i 1).val) / 512 = 512 * k.val + (i 0).val
    omega
  | ⟨1, _⟩ =>
    show ((k.val * 512 + (i 0).val) * 512 + (i 1).val) % 512 = (i 1).val
    omega

theorem frame_ri : Cert.frame_ReferenceIdeal := fun m ρ _ =>
  (θ_run Cert.ReferenceIdeal.defs _ _).mono (fun _ h c => (h c).2) (Cert.ReferenceIdeal.Value.run (F := Ideal) m ρ)

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v1)
            = total (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨((h 0).1.trans (Cert.ReferenceIdeal.Read.val_main_v1_eq _)).trans (ref_is_total _), (h 0).2⟩)
    (Cert.ReferenceIdeal.Value.run (F := Ideal) m' ρ')

theorem block_apply (c : Fin 8) (X : (⟨Cert.ReferenceIdeal.S4096x512, .f32⟩ : BufTy).Contents (Elt Ideal))
    (i : Cert.ReferenceIdeal.S512x512.Idx) :
    (Layout.block ⟨2, ![512, 512]⟩ ⟨2, ![4096, 512]⟩ 0 8 c X) i = X (blockIdx c i) := by
  rw [Layout.block_apply]
  refine congrArg X (funext fun a => Fin.ext ?_)
  match a with
  | ⟨0, _⟩ =>
    show c.val * 512 + (i 0).val = 512 * c.val + (i 0).val
    omega
  | ⟨1, _⟩ => rfl

def sh (c : Fin 8) (d : ℕ) : Fin 8 := ⟨(c.val + d) % 8, Nat.mod_lt _ (by decide)⟩

theorem kernel_order (c : Fin 8) (x : Fin 8 → EReal) :
    ((((((x c + x (sh c 7)) + x (sh c 6)) + x (sh c 5)) + x (sh c 4)) + x (sh c 3)) + x (sh c 2)) + x (sh c 1)
      = ∑ p : Fin 8, x p := by
  calc ((((((x c + x (sh c 7)) + x (sh c 6)) + x (sh c 5)) + x (sh c 4)) + x (sh c 3)) + x (sh c 2)) + x (sh c 1)
      = x (c + 0) + x (c + 1) + x (c + 2) + x (c + 3) + x (c + 4) + x (c + 5) + x (c + 6) + x (c + 7) := by
        rw [add_zero c]
        show ((((((x c + x (c + 7)) + x (c + 6)) + x (c + 5)) + x (c + 4)) + x (c + 3)) + x (c + 2)) + x (c + 1) = _
        ac_rfl
    _ = ∑ d : Fin 8, x (c + d) := (Fin.sum_univ_eight (fun d : Fin 8 => x (c + d))).symm
    _ = ∑ p : Fin 8, x p := Fintype.sum_equiv (Equiv.addLeft c) _ _ (fun _ => rfl)

end Cert.ReferenceIdeal.RefValue

end
-- ==== Proof.Proto.lean ====
import proofs.«900587_g7700000000000588_dist_rs_then_ag_i_m512_n512_v7x_i8_f32_1_alg».proof.Proof.Gen.KernelIdeal
import proofs.«900587_g7700000000000588_dist_rs_then_ag_i_m512_n512_v7x_i8_f32_1_alg».proof.Proof.Gen.KernelIdeal.Skeleton
import proofs.«900587_g7700000000000588_dist_rs_then_ag_i_m512_n512_v7x_i8_f32_1_alg».proof.Proof.Gen.KernelIdeal.Launch
import proofs.«900587_g7700000000000588_dist_rs_then_ag_i_m512_n512_v7x_i8_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Dn : Type := Fin 8
abbrev UB : Type := URounds (GSem nD τ sig) Dn
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def st₀ : MemSt nD τ sig (Elt F) := ⟨m, fun _ => 0, ρ⟩

def sh (c : Dev nD) (d : ℕ) : Dev nD := ⟨(c.val + d) % 8, Nat.mod_lt _ (by decide)⟩

theorem sh_val (c : Dev nD) (d : ℕ) : (sh c d).val = (c.val + d) % 8 := rfl

theorem sh_sh (c : Dev nD) (a b : ℕ) (h : (a + b) % 8 = 0) : sh (sh c a) b = c := by
  apply Fin.ext
  have hc : c.val < 8 := c.isLt
  simp only [sh_val]
  omega

theorem sh_zero (c : Dev nD) : sh c 0 = c := by
  apply Fin.ext
  have hc : c.val < 8 := c.isLt
  simp only [sh_val]
  omega

abbrev xM : Memref sig .tc .vmem S512x512 .f32 := Memref.whole cc0_stg0_0
abbrev oM : Memref sig .tc .vmem S512x512 .f32 := Memref.whole cc0_stg1_0
abbrev rM : Memref sig .tc .vmem S2x8x32x512 .f32 := Memref.whole cc0_scratch0

abbrev xSrc (c : Dev nD) (k : Fin 2) (j : Fin 7) : Memref sig .tc .vmem S32x512 .f32 :=
  xM.slice (Rect.unit (s := S512x512) (k0_off1 c (BitVec.ofNat 32 (1 + j.val)) (BitVec.ofNat 32 (32 * k.val))) S32x512.size (k0_off1_inb c j k)) (fun _ => rfl)

abbrev oRows (c : Dev nD) (k : Fin 2) : Memref sig .tc .vmem S32x512 .f32 :=
  oM.slice (Rect.unit (s := S512x512) (k0_off4 c (BitVec.ofNat 32 (32 * k.val))) S32x512.size (k0_off4_inb c k)) (fun _ => rfl)

theorem inb_slot (k : Fin 2) (s : Fin 8) : ∀ a, (![k.val, s.val, 0, 0] : Fin 4 → Nat) a + S1x1x32x512.size a ≤ S2x8x32x512.size a := by
  revert k s; decide

abbrev rSlot (k : Fin 2) (s : Fin 8) : Memref sig .tc .vmem S32x512 .f32 :=
  (rM.slice (Rect.unit (s := S2x8x32x512) ![k.val, s.val, 0, 0] S1x1x32x512.size (inb_slot k s)) (fun _ => rfl)).squeeze S32x512 squeezes_S1x1x32x512_S32x512

def slotOf (j : Fin 7) : Fin 8 := ⟨7 - j.val, by have := j.isLt; omega⟩

abbrev barS : Sem sig := (SemArray.scalar (sig.barrier 0 rfl) : Sems sig S_).sem

def semNo (kd : Fin 4) (k : Fin 2) (j : Fin 7) : ℕ :=
  match kd with
  | 0 => 2 + 7 * k.val + j.val
  | 1 => 16 + 8 * k.val + (7 - j.val)
  | 2 => 32 + 7 * k.val + j.val
  | 3 => 46 + 8 * k.val + (7 - j.val)

theorem semNo_lt (kd : Fin 4) (k : Fin 2) (j : Fin 7) : semNo kd k j < 62 := by revert kd k j; decide

abbrev OwnK : Type := Fin 4 × Fin 2 × Fin 7

def dsem (kd : Fin 4) (k : Fin 2) (j : Fin 7) : DmaSem sig := ⟨semNo kd k j, semNo_lt kd k j⟩

abbrev osem (x : OwnK) : SemLoc sig := .dma (dsem x.1 x.2.1 x.2.2)

theorem osem_injective : Function.Injective osem := by
  intro x y h
  have : semNo x.1 x.2.1 x.2.2 = semNo y.1 y.2.1 y.2.2 := by
    have := SemLoc.dma.inj h
    exact congrArg Fin.val this
  revert x y; decide

abbrev barCell (c : Dev nD) : GSem nD τ sig := ((c : Thread nD τ), .reg barS)
abbrev ownCell (c : Dev nD) (x : OwnK) : GSem nD τ sig := ((c : Thread nD τ), osem x)
abbrev rsS (c : Dev nD) (k : Fin 2) (j : Fin 7) : GSem nD τ sig := ownCell c (0, k, j)
abbrev rsR (c : Dev nD) (k : Fin 2) (j : Fin 7) : GSem nD τ sig := ownCell c (1, k, j)
abbrev agS (c : Dev nD) (k : Fin 2) (j : Fin 7) : GSem nD τ sig := ownCell c (2, k, j)
abbrev agR (c : Dev nD) (k : Fin 2) (j : Fin 7) : GSem nD τ sig := ownCell c (3, k, j)

def peer (c : Dev nD) (j : Fin 7) : Dev nD := sh c (j.val + 1)
def sender (c : Dev nD) (j : Fin 7) : Dev nD := sh c (7 - j.val)

theorem peer_sender (c : Dev nD) (j : Fin 7) : peer (sender c j) j = c := sh_sh c _ _ (by have := j.isLt; omega)
theorem sender_peer (c : Dev nD) (j : Fin 7) : sender (peer c j) j = c := sh_sh c _ _ (by have := j.isLt; omega)

def peerE (j : Fin 7) : Dev nD ≃ Dev nD := ⟨fun c => peer c j, fun c => sender c j, fun c => sender_peer c j, fun c => peer_sender c j⟩

def rev (j : Fin 7) : Fin 7 := ⟨6 - j.val, by have := j.isLt; omega⟩
theorem sender_rev (c : Dev nD) (j : Fin 7) : sender c (rev j) = peer c j := by
  apply Fin.ext
  have hc : c.val < 8 := c.isLt
  have hj := j.isLt
  simp only [sender, peer, rev, sh_val]
  omega
theorem rev_rev (j : Fin 7) : rev (rev j) = j := by apply Fin.ext; have := j.isLt; simp only [rev]; omega

def dOf (j : Fin 7) : Dn := ⟨j.val + 1, by have := j.isLt; omega⟩
def jOf (d : Dn) : Fin 7 := ⟨(d.val - 1) % 7, Nat.mod_lt _ (by decide)⟩
theorem jOf_dOf (j : Fin 7) : jOf (dOf j) = j := by apply Fin.ext; have := j.isLt; simp only [jOf, dOf]; omega
theorem dOf_ne_zero (j : Fin 7) : dOf j ≠ 0 := by intro h; have := congrArg Fin.val h; simp only [dOf] at this; omega

def slotB (j : Fin 7) : Fin 8 := ⟨j.val + 1, by have := j.isLt; omega⟩
theorem slotOf_rev (j : Fin 7) : slotOf (rev j) = slotB j := by apply Fin.ext; have := j.isLt; simp only [slotOf, rev, slotB]; omega

def xst (c : Dev nD) : (cc0_stg0_0 : Ref sig .tc).ty.Contents (Elt F) :=
  (win0_0.blk (0 : Fin 1)).view.read (Elt F) (m ((c : Thread nD τ).loc main_arg0))

abbrev r64 (c : Dev nD) : Rect S512x512 := Rect.unit (s := S512x512) (k0_off2 c) S64x512.size (k0_off2_inb c)
abbrev r32 (c : Dev nD) (k : Fin 2) : Rect S512x512 := Rect.unit (s := S512x512) (k0_off3 c (BitVec.ofNat 32 (32 * k.val))) S32x512.size (k0_off3_inb c k)
abbrev rSl (k : Fin 2) (s : Fin 8) : Rect S2x8x32x512 := Rect.unit (s := S2x8x32x512) ![k.val, s.val, 0, 0] S1x1x32x512.size (inb_slot k s)

def xpart (c : Dev nD) (k : Fin 2) (j : Fin 7) : Vec F S32x512 .f32 := (xSrc c k j).view.read (Elt F) (xst m c)

def recvd (c : Dev nD) (k : Fin 2) (j : Fin 7) : Vec F S32x512 .f32 := xpart m (sender c j) k j

def own32 (c : Dev nD) (k : Fin 2) : Vec F S32x512 .f32 :=
  (xM : Memref sig .tc .vmem S512x512 .f32).view.readAt (Elt F) (r32 c k).toLoadRect (xst m c)

def addB (a : Vec F S32x512 .f32) (w : Vec F S32x512 .f32) : Vec F S32x512 .f32 :=
  addf (shapeCast S32x512 a shapeCasts_S32x512_S32x512) w

def redN (c : Dev nD) (k : Fin 2) : ℕ → Vec F S32x512 .f32
  | 0 => own32 m c k
  | n + 1 => if h : n < 7 then addB (redN c k n) (recvd m c k ⟨n, h⟩) else redN c k n

def redV (c : Dev nD) (k : Fin 2) : Vec F S32x512 .f32 := redN m c k 7

def outFin : (cc0_stg1_0 : Ref sig .tc).ty.Contents (Elt F) := fun i =>
  redV m ⟨(i 0).val / 64, by have h : (i 0).val < 512 := (i 0).isLt; show (i 0).val / 64 < 8; omega⟩ ⟨((i 0).val / 32) % 2, Nat.mod_lt _ (by decide)⟩
    (fun a => match a with
      | ⟨0, _⟩ => ⟨(i 0).val % 32, Nat.mod_lt _ (by decide)⟩
      | ⟨1, _⟩ => ⟨(i 1).val, (i 1).isLt⟩)

def agQ (j : Fin 7) : PosShare TreeShare :=
  match j with
  | 0 => fullShare.left
  | 1 => fullShare.right.left
  | 2 => fullShare.right.right.left
  | 3 => fullShare.right.right.right.left
  | 4 => fullShare.right.right.right.right.left
  | 5 => fullShare.right.right.right.right.right.left
  | 6 => fullShare.right.right.right.right.right.right

abbrev NW : ℕ := (rSlot 0 0 : Memref sig .tc .vmem S32x512 .f32).view.dmaCredit

def barPayJ (c : Dev nD) (j : Fin 7) : sProp 𝕄 :=
  iprop((∃ f, (rSlot 0 (slotB j)).view.loc (sender c j : Thread nD τ) ↦[(rSlot 0 (slotB j)).view.set]{fullShare} f)
    ∗ (∃ f, (rSlot 1 (slotB j)).view.loc (sender c j : Thread nD τ) ↦[(rSlot 1 (slotB j)).view.set]{fullShare} f)
    ∗ (∃ f, (oRows c 0).view.loc (sender c j : Thread nD τ) ↦[(oRows c 0).view.set]{fullShare} f)
    ∗ (∃ f, (oRows c 1).view.loc (sender c j : Thread nD τ) ↦[(oRows c 1).view.set]{fullShare} f))

def barPay (c : Dev nD) (d : Dn) : sProp 𝕄 := barPayJ (F := F) c (jOf d)

omit [FloatOps F] in
theorem barPay_dOf (c : Dev nD) (j : Fin 7) : (barPay (F := F) c (dOf j) : sProp 𝕄) = barPayJ c j := by unfold barPay; rw [jOf_dOf]

def ownPay (c : Dev nD) (x : OwnK) : sProp 𝕄 :=
  match x with
  | (0, k, j) => iprop((xSrc c k j).view.loc (c : Thread nD τ) ↦[(xSrc c k j).view.set]{fullShare} xst m c)
  | (1, k, j) => iprop(∃ fd, (rSlot k (slotOf j)).view.loc (c : Thread nD τ) ↦[(rSlot k (slotOf j)).view.set]{fullShare}
      ((rSlot k (slotOf j)).view.write (Elt F) fd (recvd m c k j) Finset.univ))
  | (2, k, j) => iprop(∃ fd, (oRows c k).view.loc (c : Thread nD τ) ↦[(oRows c k).view.set]{agQ j}
      ((oRows c k).view.write (Elt F) fd (redV m c k) Finset.univ))
  | (_, k, j) => iprop(∃ fd, (oRows (sender c j) k).view.loc (c : Thread nD τ) ↦[(oRows (sender c j) k).view.set]{fullShare}
      ((oRows (sender c j) k).view.write (Elt F) fd (redV m (sender c j) k) Finset.univ))

open Classical in
def decode (s : SemLoc sig) : Option OwnK := if h : ∃ x, osem x = s then some h.choose else none

theorem decode_osem (x : OwnK) : decode (osem x) = some x := by
  unfold decode
  have h : ∃ y, osem y = osem x := ⟨x, rfl⟩
  rw [dif_pos h]
  exact congrArg some (osem_injective h.choose_spec)

def Rd : Rounds.Schedule (GSem nD τ sig) Dn 𝕄 where
  duties g r := if r = 0 ∧ g.1.2 = .tc then (if g.2 = .reg barS then Finset.univ.erase 0 else if (decode g.2).isSome then {0} else ∅) else ∅
  unitless _ := False
  amount g _ _ := if g.2 = .reg barS then 1 else NW
  payload g _ d := if g.2 = .reg barS then barPay g.1.1 d else (match decode g.2 with | some x => ownPay m g.1.1 x | none => iprop(emp))
  amount_pos g _ _ _ := by
    by_cases h : g.2 = .reg barS
    · rw [if_pos h]; exact Nat.one_pos
    · rw [if_neg h]; exact View.dmaCredit_pos _ (by decide)

end Cert.KernelIdeal.Proto

end
-- ==== Proof.Tables.lean ====
import proofs.«900587_g7700000000000588_dist_rs_then_ag_i_m512_n512_v7x_i8_f32_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem own_ne_bar (x : OwnK) : osem x ≠ .reg barS := fun h => by cases h

section Tables
variable (c : Dev nD)

theorem duties_bar : (Rd (F := F) m).duties (barCell c) 0 = Finset.univ.erase 0 := by
  dsimp only [Rd]; exact (if_pos ⟨rfl, rfl⟩).trans (if_pos rfl)
theorem duties_own (x : OwnK) : (Rd (F := F) m).duties (ownCell c x) 0 = {0} := by
  dsimp only [Rd]
  refine (if_pos ⟨rfl, rfl⟩).trans ((if_neg (own_ne_bar x)).trans ?_)
  rw [decode_osem]; rfl
theorem duties_later (g : GSem nD τ sig) : ∀ r, 1 ≤ r → (Rd (F := F) m).duties g r = ∅ := fun r hr => by
  dsimp only [Rd]; exact if_neg fun h => by omega
theorem mem_duties_bar (d : Dn) (hd : d ≠ 0) : d ∈ (Rd (F := F) m).duties (barCell c) 0 := by
  rw [duties_bar]; exact Finset.mem_erase.mpr ⟨hd, Finset.mem_univ _⟩
theorem mem_duties_own (x : OwnK) : (0 : Dn) ∈ (Rd (F := F) m).duties (ownCell c x) 0 := by
  rw [duties_own]; exact Finset.mem_singleton_self _
theorem mem_duties_bar_dOf (j : Fin 7) : dOf j ∈ (Rd (F := F) m).duties (barCell c) 0 := mem_duties_bar m c (dOf j) (dOf_ne_zero j)

theorem amount_bar (d : Dn) : (Rd (F := F) m).amount (barCell c) 0 d = 1 := by dsimp only [Rd]; exact if_pos rfl
theorem amount_own (x : OwnK) (d : Dn) : (Rd (F := F) m).amount (ownCell c x) 0 d = NW := by dsimp only [Rd]; exact if_neg (own_ne_bar x)

theorem expect_bar : (Rd (F := F) m).expect (barCell c) 0 = 7 := by
  unfold Schedule.expect Schedule.amountOf
  rw [duties_bar, Finset.sum_congr rfl fun d _ => amount_bar m c d, Finset.sum_const, smul_eq_mul, mul_one]
  decide
theorem expect_own (x : OwnK) : (Rd (F := F) m).expect (ownCell c x) 0 = NW := by
  unfold Schedule.expect Schedule.amountOf; rw [duties_own, Finset.sum_singleton, amount_own]

theorem payload_bar (d : Dn) : (Rd (F := F) m).payload (barCell c) 0 d = barPay c d := by dsimp only [Rd]; exact if_pos rfl
theorem payload_own (x : OwnK) (d : Dn) : (Rd (F := F) m).payload (ownCell c x) 0 d = ownPay m c x := by
  dsimp only [Rd]
  refine (if_neg (own_ne_bar x)).trans ?_
  rw [decode_osem]

theorem payload_bar_dOf (j : Fin 7) : (Rd (F := F) m).payload (barCell c) 0 (dOf j) = barPayJ c j := by rw [payload_bar, barPay_dOf]

theorem rest_bar : bigSep ((Rd (F := F) m).duties (barCell c) 0 \ ∅) (fun d => (Rd (F := F) m).payload (barCell c) 0 d)
    = iprop(barPayJ c 0 ∗ barPayJ c 1 ∗ barPayJ c 2 ∗ barPayJ c 3 ∗ barPayJ c 4 ∗ barPayJ c 5 ∗ barPayJ c 6) := by
  rw [Finset.sdiff_empty, duties_bar, bigSep_eq_bigSepL_of_eq ([1, 2, 3, 4, 5, 6, 7] : List Dn) (by decide) (by decide)]
  simp only [bigSepL_cons_cons, bigSepL_singleton, payload_bar]
  rfl
theorem rest_own (x : OwnK) : bigSep ((Rd (F := F) m).duties (ownCell c x) 0 \ ∅) (fun d => (Rd (F := F) m).payload (ownCell c x) 0 d) = ownPay m c x := by
  rw [Finset.sdiff_empty, duties_own, bigSep_singleton, payload_own]

end Tables

set_option synthInstance.maxHeartbeats 400000 in
instance Rd_payload_storable (g : GSem nD τ sig) (r : ℕ) (d : Dn) : BI.Storable (upEmb : UEmb _ 𝕄) ((Rd (F := F) m).payload g r d) := by
  show BI.Storable upEmb (if g.2 = .reg barS then barPay g.1.1 d else (match decode g.2 with | some x => ownPay m g.1.1 x | none => iprop(emp)))
  unfold barPay barPayJ
  split
  · infer_instance
  · split
    · unfold ownPay; split <;> infer_instance
    · infer_instance

theorem amount_rSlot (k : Fin 2) (s : Fin 8) (q : DmaSem sig) : (rSlot k s : Memref sig .tc .vmem S32x512 .f32).view.amount (.dma q) = NW := rfl
theorem amount_oRows (c : Dev nD) (k : Fin 2) (q : DmaSem sig) : (oRows c k : Memref sig .tc .vmem S32x512 .f32).view.amount (.dma q) = NW := rfl

def L (g : GSem nD τ sig) : Finset Unit := if g.1.2 = .tc then {()} else ∅

def lv (g : GSem nD τ sig) (_ : Unit) : ℕ :=
  if g.2 = .reg barS then 1 else
    match decode g.2 with
    | some (1, _, _) => 2
    | some (3, _, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_rsR (c : Dev nD) (k : Fin 2) (j : Fin 7) : lv (rsR c k j) () = 2 := by
  dsimp only [lv]; refine (if_neg (own_ne_bar _)).trans ?_; rw [decode_osem]; rfl
theorem lv_agR (c : Dev nD) (k : Fin 2) (j : Fin 7) : lv (agR c k j) () = 3 := by
  dsimp only [lv]; refine (if_neg (own_ne_bar _)).trans ?_; rw [decode_osem]; rfl

def owedL (l : List (GSem nD τ sig × ℕ)) : CellTallies nD τ sig Unit := l.foldr (fun x acc => acc + tallyAt x.1 () x.2) 0

theorem owedL_cons (x : GSem nD τ sig × ℕ) (l : List (GSem nD τ sig × ℕ)) : owedL (x :: l) = owedL l + tallyAt x.1 () x.2 := rfl
theorem owedL_nil : owedL ([] : List (GSem nD τ sig × ℕ)) = 0 := rfl

def allJ : List (Fin 7) := [0, 1, 2, 3, 4, 5, 6]
def allKJ : List (Fin 2 × Fin 7) := [(0,0),(0,1),(0,2),(0,3),(0,4),(0,5),(0,6),(1,0),(1,1),(1,2),(1,3),(1,4),(1,5),(1,6)]

def payList (c : Dev nD) : List (GSem nD τ sig × ℕ) :=
  allJ.map (fun j => (barCell (peer c j), 1))
    ++ allKJ.map (fun kj => (rsR (peer c kj.2) kj.1 kj.2, NW))
    ++ allKJ.map (fun kj => (agR (peer c kj.2) kj.1 kj.2, NW))

def O₀ (c : Dev nD) : CellTallies nD τ sig Unit := owedL (payList c)

theorem owedL_pos {l : List (GSem nD τ sig × ℕ)} {g : GSem nD τ sig} {u : Unit} (h : 0 < owedL l g u) : ∃ x ∈ l, g = x.1 := by
  induction l with
  | nil => rw [owedL_nil, Pi.zero_apply, Finsupp.zero_apply] at h; exact absurd h (Nat.lt_irrefl 0)
  | cons x l ih =>
    rw [owedL_cons, Pi.add_apply, Finsupp.add_apply, tallyAt_apply] at h
    by_cases hg : g = x.1 ∧ u = ()
    · exact ⟨x, List.mem_cons_self, hg.1⟩
    · rw [if_neg hg, add_zero] at h
      obtain ⟨y, hy, e⟩ := ih h
      exact ⟨y, List.mem_cons_of_mem _ hy, e⟩

theorem mayWait_owedL (c : Dev nD) (sm : SemLoc sig) (l : List (GSem nD τ sig × ℕ))
    (h : ∀ x ∈ l, x.1.1.2 = .tc ∧ lv ((c : Thread nD τ), sm) () < lv x.1 ()) :
    (levAts L lv : sProp 𝕄) ⊢ MayWait (c : Thread nD τ) sm () (owedL l) :=
  MayOwe.of_cut (L := L) (lev := lv) (lv ((c : Thread nD τ), sm) ())
    (fun p hp => by rw [Finset.mem_singleton.mp hp, L_tc]; exact Finset.mem_singleton_self _)
    (fun g u hg => by
      obtain ⟨x, hx, rfl⟩ := owedL_pos hg
      unfold L; rw [if_pos (h x hx).1]; exact Finset.mem_singleton_self _)
    (fun p hp => by obtain rfl := Finset.mem_singleton.mp hp; exact le_refl _)
    (fun g u hg => by
      obtain ⟨x, hx, rfl⟩ := owedL_pos hg
      exact (h x hx).2)

theorem mayWait_zero' (c : Dev nD) (sm : SemLoc sig) : (levAts L lv : sProp 𝕄) ⊢ MayWait (c : Thread nD τ) sm () 0 := by
  rw [MayWait_zero]; iintro -; iempintro

end Cert.KernelIdeal.Proto

end
-- ==== Proof.State.lean ====
import proofs.«900587_g7700000000000588_dist_rs_then_ag_i_m512_n512_v7x_i8_f32_1_alg».proof.Proof.Tables

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

abbrev CK : Type := Option OwnK
def csem : CK → SemLoc sig
  | none => .reg barS
  | some x => osem x
abbrev kcell (ck : Dev nD × CK) : GSem nD τ sig := ((ck.1 : Thread nD τ), csem ck.2)

theorem csem_injective : Function.Injective csem := by
  intro a b h
  cases a with
  | none => cases b with
    | none => rfl
    | some y => exact absurd h.symm (own_ne_bar y)
  | some x => cases b with
    | none => exact absurd h (own_ne_bar x)
    | some y => exact congrArg some (osem_injective h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def scrPts (c : Dev nD) (f : Buf (Elt F) ((c : Thread nD τ).loc cc0_scratch0)) : sProp 𝕄 := ((c : Thread nD τ).loc cc0_scratch0) ↦{fullShare} f

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

def payToks (c : Dev nD) : sProp 𝕄 :=
  iprop((bigSepL allJ fun j => dutyTok ER (barCell (peer c j)) 0 (dOf j))
    ∗ (bigSepL allKJ fun kj => iprop(dutyTok ER (rsS c kj.1 kj.2) 0 (0 : Dn) ∗ dutyTok ER (rsR (peer c kj.2) kj.1 kj.2) 0 (0 : Dn)))
    ∗ (bigSepL allKJ fun kj => iprop(dutyTok ER (agS c kj.1 kj.2) 0 (0 : Dn) ∗ dutyTok ER (agR (peer c kj.2) kj.1 kj.2) 0 (0 : Dn))))

def positions (c : Dev nD) : sProp 𝕄 := bigSep Finset.univ fun k : CK => atPos ER (kcell (c, k)) 0 ∅ 0

def ghost (K : Dev nD × CK → ℕ) (c : Dev nD) : sProp 𝕄 := iprop(records m K ∗ positions c ∗ payToks c)

def creds (c : Dev nD) : sProp 𝕄 :=
  iprop(cred (tallyAt (barCell c) () 7)
    ∗ (bigSepL allKJ fun kj => cred (tallyAt (rsR c kj.1 kj.2) () NW))
    ∗ (bigSepL allKJ fun kj => cred (tallyAt (agR c kj.1 kj.2) () NW)))

def start (c : Dev nD) : sProp 𝕄 := iprop((∃ K, ghost m K c) ∗ creds c ∗ levAts L lv)

def Φ₀ (c : Dev nD) : sProp 𝕄 := iprop(start m c ∗ ∃ f, scrPts c f)
def Φ₁ (c : Dev nD) : sProp 𝕄 := iprop((∃ f, scrPts c f) ∗ bigSep Finset.univ fun x : OwnK => semVal (ownCell c x) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xst m c
    | ⟨1, _⟩ => outFin m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

def bodyPre (K : Dev nD × CK → ℕ) (c : Dev nD) : sProp 𝕄 :=
  iprop((ghost m K c ∗ creds c ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xst m c) ∗ stg c cc0_stg1_0 (outFin m))

end Cert.KernelIdeal.Proto

end
-- ==== Proof.Pieces.lean ====
import proofs.«900587_g7700000000000588_dist_rs_then_ag_i_m512_n512_v7x_i8_f32_1_alg».proof.Proof.Tables

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem mem_rows (o h : ℕ) (i : S512x512.Idx) :
    (∀ a : Fin 2, (![o, 0] : Fin 2 → ℕ) a ≤ (i a).val ∧ (i a).val < (![o, 0] : Fin 2 → ℕ) a + (![h, 512] : Fin 2 → ℕ) a)
      ↔ (o ≤ (i 0).val ∧ (i 0).val < o + h) := by
  have h1 : (i 1).val < 512 := (i 1).isLt
  rw [Fin.forall_fin_two]
  show (o ≤ (i 0).val ∧ (i 0).val < o + h) ∧ (0 ≤ (i 1).val ∧ (i 1).val < 0 + 512) ↔ _
  omega

theorem mem_oRows (q : Dev nD) (k : Fin 2) (i : S512x512.Idx) :
    i ∈ (oRows q k).view.set ↔ (i 0).val / 32 = 2 * q.val + k.val := by
  have hk := k.isLt
  rw [View.set_slice_whole, Rect.mem_set_unit, Gen.k0_off4_eq]
  refine (mem_rows (64 * q.val + 32 * k.val) 32 i).trans ?_
  omega

theorem mem_xSrc (c : Dev nD) (k : Fin 2) (j : Fin 7) (i : S512x512.Idx) :
    i ∈ (xSrc c k j).view.set ↔ (i 0).val / 32 = 2 * ((c.val + j.val + 1) % 8) + k.val := by
  have hk := k.isLt
  rw [View.set_slice_whole, Rect.mem_set_unit, Gen.k0_off1_eq]
  refine (mem_rows (64 * ((c.val + j.val + 1) % 8) + 32 * k.val) 32 i).trans ?_
  omega

theorem mem_r64 (c : Dev nD) (i : S512x512.Idx) : i ∈ (r64 c).set ↔ (i 0).val / 64 = c.val := by
  rw [Rect.mem_set_unit, Gen.k0_off2_eq]
  refine (mem_rows (64 * c.val) 64 i).trans ?_
  omega

theorem mem_r32 (c : Dev nD) (k : Fin 2) (i : S512x512.Idx) : i ∈ (r32 c k).set ↔ (i 0).val / 32 = 2 * c.val + k.val := by
  have hk := k.isLt
  rw [Rect.mem_set_unit, Gen.k0_off3_eq]
  refine (mem_rows (64 * c.val + 32 * k.val) 32 i).trans ?_
  omega

theorem mem_rSl (k : Fin 2) (s : Fin 8) (i : S2x8x32x512.Idx) : i ∈ (rSl k s).set ↔ (i 0).val = k.val ∧ (i 1).val = s.val := by
  have h2 : (i 2).val < 32 := (i 2).isLt
  have h3 : (i 3).val < 512 := (i 3).isLt
  rw [Rect.mem_set_unit, Fin.forall_fin_succ, Fin.forall_fin_succ, Fin.forall_fin_two]
  show (k.val ≤ (i 0).val ∧ (i 0).val < k.val + 1) ∧ (s.val ≤ (i 1).val ∧ (i 1).val < s.val + 1) ∧ (0 ≤ (i 2).val ∧ (i 2).val < 0 + 32) ∧ (0 ≤ (i 3).val ∧ (i 3).val < 0 + 512) ↔ _
  omega

theorem set_rSlot (k : Fin 2) (s : Fin 8) : (rSlot k s).view.set = (rSl k s).set := by
  rw [View.set_reshape, View.set_slice_whole]

theorem mem_rSlot (k : Fin 2) (s : Fin 8) (i : S2x8x32x512.Idx) : i ∈ (rSlot k s).view.set ↔ (i 0).val = k.val ∧ (i 1).val = s.val := by
  rw [set_rSlot]; exact mem_rSl k s i

theorem setOn_whole (b : Ref sig .tc) (M : Finset b.ty.shape.Idx) : (View.whole b : View sig .tc _ _ _).setOn M = M := Finset.map_refl

theorem eq_of_bi {P Q : sProp 𝕄} (h : P ⊣⊢ Q) : P = Q := BI.equiv_iff.mp ⟨h.1, h.2⟩

theorem bigSepL_map {I J : Type} (g : J → I) (l : List J) (Φ : I → sProp 𝕄) :
    bigSepL (l.map g) Φ = bigSepL l (fun x => Φ (g x)) := by
  induction l with
  | nil => rfl
  | cons x l ih => rw [List.map_cons, bigSepL_cons, bigSepL_cons, ih]

theorem pts_cover {ℓ : Loc nD τ sig} {T : Type} (S : Finset T) (K : T → Finset (Idx ℓ)) (q : PosShare TreeShare) (f : Buf (Elt F) ℓ)
    (hc : ∀ i, ∃ t ∈ S, i ∈ K t) (hd : ∀ t ∈ S, ∀ t' ∈ S, t ≠ t' → Disjoint (K t) (K t')) :
    (ℓ ↦{q} f : sProp 𝕄) = bigSep S fun t => ℓ ↦[K t]{q} f := by
  have hu : (Finset.univ : Finset (Idx ℓ)) = S.biUnion K :=
    Finset.ext fun i => ⟨fun _ => Finset.mem_biUnion.mpr (hc i), fun _ => Finset.mem_univ _⟩
  rw [hu]; exact pointsTo_biUnion S K hd

def L16 (g : Fin 7 → Fin 8) : List (Fin 2 × Fin 8) := (0, 0) :: (1, 0) :: allKJ.map (fun kj => (kj.1, g kj.2))

abbrev pts {s : Shape} (V : Memref sig .tc .vmem s .f32) (c' : Dev nD) (q : PosShare TreeShare) (f : Buf (Elt F) (V.view.loc (c' : Thread nD τ))) : sProp 𝕄 :=
  (V.view.loc (c' : Thread nD τ)) ↦[V.view.set]{q} f

abbrev xOwn (c : Dev nD) (f : Buf (Elt F) ((c : Thread nD τ).loc cc0_stg0_0)) : sProp 𝕄 :=
  ((c : Thread nD τ).loc cc0_stg0_0) ↦[((xM : Memref sig .tc .vmem S512x512 .f32).access (r64 c)).set]{fullShare} f

def bandO (q : Dev nD) (k : Fin 2) : Finset S512x512.Idx := (oRows q k).view.set
def slotR (k : Fin 2) (s : Fin 8) : Finset S2x8x32x512.Idx := (rSlot k s).view.set
def pieceX (c : Dev nD) : Option (Fin 2 × Fin 7) → Finset S512x512.Idx
  | none => ((xM : Memref sig .tc .vmem S512x512 .f32).access (r64 c)).set
  | some kj => (xSrc c kj.1 kj.2).view.set

theorem bandO_zero (c : Dev nD) (k : Fin 2) : bandO (sh c (0 : Fin 8).val) k = bandO c k := congrArg (fun q => bandO q k) (sh_zero c)

theorem slotR_cover (i : S2x8x32x512.Idx) : ∃ t ∈ (Finset.univ : Finset (Fin 2 × Fin 8)), i ∈ slotR t.1 t.2 :=
  ⟨((i 0 : Fin 2), (i 1 : Fin 8)), Finset.mem_univ _, (mem_rSlot _ _ i).mpr ⟨rfl, rfl⟩⟩

theorem slotR_disj : ∀ t ∈ (Finset.univ : Finset (Fin 2 × Fin 8)), ∀ t' ∈ (Finset.univ : Finset (Fin 2 × Fin 8)), t ≠ t' →
    Disjoint (slotR t.1 t.2) (slotR t'.1 t'.2) :=
  fun t _ t' _ hne => Finset.disjoint_left.mpr fun i hi hi' => hne (by
    have e1 := (mem_rSlot _ _ i).mp hi
    have e2 := (mem_rSlot _ _ i).mp hi'
    exact Prod.ext (Fin.ext (e1.1.symm.trans e2.1)) (Fin.ext (e1.2.symm.trans e2.2)))

theorem slots_list (Φ : Fin 2 × Fin 8 → sProp 𝕄) :
    bigSep Finset.univ Φ ⊣⊢ iprop((Φ (0, 0) ∗ Φ (1, 0)) ∗ bigSepL allKJ fun kj => Φ (kj.1, slotB kj.2)) := by
  rw [bigSep_univ_eq_bigSepL (L16 slotB) (by decide) (by decide) Φ, L16, bigSepL_cons, bigSepL_cons, bigSepL_map]
  exact sep_assoc.symm

theorem scr_split (c : Dev nD) (f : Buf (Elt F) ((c : Thread nD τ).loc cc0_scratch0)) :
    ((((c : Thread nD τ).loc cc0_scratch0) ↦{fullShare} f : sProp 𝕄))
      ⊣⊢ iprop((pts (rSlot 0 0) c fullShare f ∗ pts (rSlot 1 0) c fullShare f)
          ∗ bigSepL allKJ fun kj => pts (rSlot kj.1 (slotB kj.2)) c fullShare f) := by
  rw [pts_cover (F := F) (ℓ := (c : Thread nD τ).loc cc0_scratch0) Finset.univ (fun t : Fin 2 × Fin 8 => slotR t.1 t.2) fullShare f
    slotR_cover slotR_disj]
  exact slots_list _

theorem out_split (c : Dev nD) (f : Buf (Elt F) ((c : Thread nD τ).loc cc0_stg1_0)) :
    ((((c : Thread nD τ).loc cc0_stg1_0) ↦{fullShare} f : sProp 𝕄))
      ⊣⊢ iprop((pts (oRows c 0) c fullShare f ∗ pts (oRows c 1) c fullShare f)
          ∗ bigSepL allKJ fun kj => pts (oRows (peer c kj.2) kj.1) c fullShare f) := by
  have hc : c.val < 8 := c.isLt
  have hK := pts_cover (F := F) (ℓ := (c : Thread nD τ).loc cc0_stg1_0) (Finset.univ : Finset (Fin 2 × Fin 8))
    (fun t => bandO (sh c t.2.val) t.1) fullShare f
    (fun i => by
      have h0 : (i 0).val < 512 := (i 0).isLt
      refine ⟨(⟨(i 0).val / 32 % 2, by omega⟩, ⟨((i 0).val / 64 + 8 - c.val) % 8, by omega⟩), Finset.mem_univ _, ?_⟩
      refine (mem_oRows _ _ i).mpr ?_
      show (i 0).val / 32 = 2 * ((c.val + ((i 0).val / 64 + 8 - c.val) % 8) % 8) + (i 0).val / 32 % 2
      omega)
    (fun t _ t' _ hne => Finset.disjoint_left.mpr fun i hi hi' => hne (by
      have e1 : (i 0).val / 32 = 2 * ((c.val + t.2.val) % 8) + t.1.val := (mem_oRows _ _ i).mp hi
      have e2 : (i 0).val / 32 = 2 * ((c.val + t'.2.val) % 8) + t'.1.val := (mem_oRows _ _ i).mp hi'
      have := t.1.isLt; have := t.2.isLt; have := t'.1.isLt; have := t'.2.isLt
      refine Prod.ext (Fin.ext ?_) (Fin.ext ?_) <;> omega))
  have hL := bigSep_univ_eq_bigSepL (L16 dOf) (by decide) (by decide)
    (fun t : Fin 2 × Fin 8 => (((c : Thread nD τ).loc cc0_stg1_0) ↦[bandO (sh c t.2.val) t.1]{fullShare} f : sProp 𝕄))
  have e0 : ∀ k : Fin 2, ((((c : Thread nD τ).loc cc0_stg1_0) ↦[bandO (sh c (0 : Fin 8).val) k]{fullShare} f : sProp 𝕄)) = pts (oRows c k) c fullShare f :=
    fun k => by rw [bandO_zero]; rfl
  rw [hK, hL, L16, bigSepL_cons, bigSepL_cons, bigSepL_map]
  refine BiEntails.trans (BiEntails.of_eq ?_) sep_assoc.symm
  exact congrArg₂ (fun a b : sProp 𝕄 => iprop(a ∗ b)) (e0 0) (congrArg₂ (fun a b : sProp 𝕄 => iprop(a ∗ b)) (e0 1) rfl)

theorem x_split (c : Dev nD) (f : Buf (Elt F) ((c : Thread nD τ).loc cc0_stg0_0)) :
    ((((c : Thread nD τ).loc cc0_stg0_0) ↦{fullShare} f : sProp 𝕄))
      ⊣⊢ iprop(xOwn c f ∗ bigSepL allKJ fun kj => pts (xSrc c kj.1 kj.2) c fullShare f) := by
  have hc : c.val < 8 := c.isLt
  have mem_own : ∀ i : S512x512.Idx, i ∈ pieceX c none ↔ (i 0).val / 64 = c.val := fun i => by
    show i ∈ ((View.whole cc0_stg0_0 : View sig .tc _ _ _).slice (r64 c)).set ↔ _
    rw [View.set_slice_whole]; exact mem_r64 c i
  have mem_some : ∀ (kj : Fin 2 × Fin 7) (i : S512x512.Idx), i ∈ pieceX c (some kj) ↔ (i 0).val / 32 = 2 * ((c.val + kj.2.val + 1) % 8) + kj.1.val :=
    fun kj i => mem_xSrc c kj.1 kj.2 i
  have hK := pts_cover (F := F) (ℓ := (c : Thread nD τ).loc cc0_stg0_0) (Finset.univ : Finset (Option (Fin 2 × Fin 7)))
    (pieceX c) fullShare f
    (fun i => by
      have h0 : (i 0).val < 512 := (i 0).isLt
      by_cases hq : (i 0).val / 64 = c.val
      · exact ⟨none, Finset.mem_univ _, (mem_own i).mpr hq⟩
      · refine ⟨some (⟨(i 0).val / 32 % 2, by omega⟩, ⟨((i 0).val / 64 + 7 - c.val) % 8, by omega⟩), Finset.mem_univ _, (mem_some _ i).mpr ?_⟩
        show (i 0).val / 32 = 2 * ((c.val + ((i 0).val / 64 + 7 - c.val) % 8 + 1) % 8) + (i 0).val / 32 % 2
        omega)
    (fun t _ t' _ hne => Finset.disjoint_left.mpr fun i hi hi' => hne (by
      rcases t with _ | t <;> rcases t' with _ | t'
      · rfl
      · have e1 := (mem_own i).mp hi; have e2 := (mem_some t' i).mp hi'
        have := t'.1.isLt; have := t'.2.isLt
        exfalso; omega
      · have e1 := (mem_some t i).mp hi; have e2 := (mem_own i).mp hi'
        have := t.1.isLt; have := t.2.isLt
        exfalso; omega
      · have e1 := (mem_some t i).mp hi; have e2 := (mem_some t' i).mp hi'
        have := t.1.isLt; have := t.2.isLt; have := t'.1.isLt; have := t'.2.isLt
        refine congrArg some (Prod.ext (Fin.ext ?_) (Fin.ext ?_)) <;> omega))
  have hL := bigSep_univ_eq_bigSepL (none :: allKJ.map some) (by decide) (by decide)
    (fun t : Option (Fin 2 × Fin 7) => (((c : Thread nD τ).loc cc0_stg0_0) ↦[pieceX c t]{fullShare} f : sProp 𝕄))
  rw [hK, hL, bigSepL_cons, bigSepL_map]
  exact BiEntails.of_eq rfl

theorem share_split {s : Shape} (V : Memref sig .tc .vmem s .f32) (c' : Dev nD) (f : Buf (Elt F) (V.view.loc (c' : Thread nD τ))) :
    (pts V c' fullShare f : sProp 𝕄) ⊣⊢ bigSepL allJ fun j => pts V c' (agQ j) f := by
  have e : ∀ q : PosShare TreeShare, (pts V c' q f : sProp 𝕄) = iprop(pts V c' q.left f ∗ pts V c' q.right f) :=
    fun q => eq_of_bi (pointsTo_share (PosShare.mem_left_op_right q))
  refine BiEntails.of_eq ?_
  show (pts V c' fullShare f : sProp 𝕄) = iprop(pts V c' fullShare.left f ∗ pts V c' fullShare.right.left f ∗ pts V c' fullShare.right.right.left f
    ∗ pts V c' fullShare.right.right.right.left f ∗ pts V c' fullShare.right.right.right.right.left f
    ∗ pts V c' fullShare.right.right.right.right.right.left f ∗ pts V c' fullShare.right.right.right.right.right.right f)
  rw [e fullShare, e fullShare.right, e fullShare.right.right, e fullShare.right.right.right, e fullShare.right.right.right.right,
    e fullShare.right.right.right.right.right]

theorem pts_congr {s : Shape} (V : Memref sig .tc .vmem s .f32) (c' : Dev nD) (q : PosShare TreeShare)
    (f g : Buf (Elt F) (V.view.loc (c' : Thread nD τ))) (h : ∀ i ∈ V.view.set, f i = g i) :
    (pts V c' q f : sProp 𝕄) = pts V c' q g := pointsTo_congr h

theorem x_load64_sub (c : Dev nD) : (xM : Memref sig .tc .vmem S512x512 .f32).view.setOn (r64 c).toLoadRect.set ⊆ ((xM : Memref sig .tc .vmem S512x512 .f32).access (r64 c)).set := by
  show (View.whole cc0_stg0_0 : View sig .tc _ _ _).setOn (r64 c).set ⊆ ((View.whole cc0_stg0_0 : View sig .tc _ _ _).slice (r64 c)).set
  rw [setOn_whole, View.set_slice_whole]
theorem out_own64 (c : Dev nD) : ((oM : Memref sig .tc .vmem S512x512 .f32).access (r64 c)).set = (oRows c 0).view.set ∪ (oRows c 1).view.set := by
  have hc : c.val < 8 := c.isLt
  show ((View.whole cc0_stg1_0 : View sig .tc _ _ _).slice (r64 c)).set = _
  rw [View.set_slice_whole]
  ext i
  rw [Finset.mem_union]
  refine (mem_r64 c i).trans (Iff.trans ?_ (or_congr (mem_oRows c 0 i) (mem_oRows c 1 i)).symm)
  show (i 0).val / 64 = c.val ↔ (i 0).val / 32 = 2 * c.val + 0 ∨ (i 0).val / 32 = 2 * c.val + 1
  omega
theorem out_own_disj (c : Dev nD) : Disjoint (oRows c 0).view.set (oRows c 1).view.set :=
  Finset.disjoint_left.mpr fun i h0 h1 => by
    have e0 : (i 0).val / 32 = 2 * c.val + 0 := (mem_oRows c 0 i).mp h0
    have e1 : (i 0).val / 32 = 2 * c.val + 1 := (mem_oRows c 1 i).mp h1
    omega
theorem out_acc32 (c : Dev nD) (k : Fin 2) : ((oM : Memref sig .tc .vmem S512x512 .f32).access (r32 c k)).set = (oRows c k).view.set := by
  show ((View.whole cc0_stg1_0 : View sig .tc _ _ _).slice (r32 c k)).set = _
  rw [View.set_slice_whole]
  ext i
  exact (mem_r32 c k i).trans (mem_oRows c k i).symm
theorem out_load32_sub (c : Dev nD) (k : Fin 2) : (oM : Memref sig .tc .vmem S512x512 .f32).view.setOn (r32 c k).toLoadRect.set ⊆ (oRows c k).view.set := by
  show (View.whole cc0_stg1_0 : View sig .tc _ _ _).setOn (r32 c k).set ⊆ _
  rw [setOn_whole]
  intro i hi
  exact (mem_oRows c k i).mpr ((mem_r32 c k i).mp hi)
theorem scr_load_sub (k : Fin 2) (s : Fin 8) : (rM : Memref sig .tc .vmem S2x8x32x512 .f32).view.setOn (rSl k s).toLoadRect.set ⊆ (rSlot k s).view.set := by
  show (View.whole cc0_scratch0 : View sig .tc _ _ _).setOn (rSl k s).set ⊆ _
  rw [setOn_whole, set_rSlot]

end Cert.KernelIdeal.Proto

end
-- ==== Proof.Local.lean ====
import proofs.«900587_g7700000000000588_dist_rs_then_ag_i_m512_n512_v7x_i8_f32_1_alg».proof.Proof.Proto
import Idealize.ShloMosaic.Lib.Pipeline.Value
import Idealize.ShloMosaic.Lib.ValueIdx

noncomputable section

namespace Cert.KernelIdeal.Proto

open Cert.KernelIdeal Cert.KernelIdeal.Gen

open Idealize.ShloMosaic
open Idealize.ShloMosaic.TcCoe
open Idealize.SL.Sem
open Idealize.ShloMosaic.ValueIdx

section Access

theorem read_slice_apply {Val : EltTy → Type} {κ : Kind} (b : Ref sig κ) (r : Rect b.ty.shape) (hr : ∀ a, r.stride a = 1)
    (f : b.ty.Contents Val) (y : r.shape.Idx) :
    ((Memref.whole b).slice r hr).view.read Val f y = f (r.emb y) := rfl

theorem readAt_whole_apply {Val : EltTy → Type} {κ : Kind} (b : Ref sig κ) (r : Rect b.ty.shape) (f : b.ty.Contents Val)
    (y : r.shape.Idx) :
    (Memref.whole b : Memref sig κ _ _ _).view.readAt Val r.toLoadRect f y = f (r.emb y) := rfl

theorem write_access_emb {Val : EltTy → Type} {κ : Kind} (b : Ref sig κ) (r : Rect b.ty.shape) (f : b.ty.Contents Val)
    (w : r.shape.Idx → Val b.ty.elt) (y : r.shape.Idx) :
    ((Memref.whole b).access r : View sig κ _ _ _).write Val f w Finset.univ (r.emb y) = w y := by
  have h := View.write_emb_of_mem (v := ((Memref.whole b).access r : View sig κ _ _ _)) (Val := Val) f w
    (M := Finset.univ) (x := y) (Finset.mem_univ _)
  exact h

theorem readAt_write_slice_unit {Val : EltTy → Type} {κ : Kind} (b : Ref sig κ) (off off' size : Fin b.ty.shape.rank → ℕ)
    (h : off = off') (inb : ∀ a, off a + size a ≤ b.ty.shape.size a) (inb' : ∀ a, off' a + size a ≤ b.ty.shape.size a)
    (hs : ∀ a, (Rect.unit off' size inb').stride a = 1)
    (f : b.ty.Contents Val) (w : (⟨b.ty.shape.rank, size⟩ : Shape).Idx → Val b.ty.elt) :
    (Memref.whole b : Memref sig κ _ _ _).view.readAt Val (Rect.unit off size inb).toLoadRect
      (((Memref.whole b).slice (Rect.unit off' size inb') hs).view.write Val f w Finset.univ) = w := by
  subst h
  exact View.read_write_univ (v := ((Memref.whole b).slice (Rect.unit off size inb') hs).view) f w

theorem write_access_eq_slice_unit {Val : EltTy → Type} {κ : Kind} (b : Ref sig κ) (off off' size : Fin b.ty.shape.rank → ℕ)
    (h : off = off') (inb : ∀ a, off a + size a ≤ b.ty.shape.size a) (inb' : ∀ a, off' a + size a ≤ b.ty.shape.size a)
    (hs : ∀ a, (Rect.unit off' size inb').stride a = 1)
    (f : b.ty.Contents Val) (w : (⟨b.ty.shape.rank, size⟩ : Shape).Idx → Val b.ty.elt) :
    ((Memref.whole b).access (Rect.unit off size inb) : View sig κ _ _ _).write Val f w Finset.univ
      = ((Memref.whole b).slice (Rect.unit off' size inb') hs).view.write Val f w Finset.univ := by
  subst h
  rfl

end Access

section Rows

def gIdx (p : Dev nD) (k : Fin 2) (y : S32x512.Idx) : S512x512.Idx :=
  ix2 (n0 := 512) (n1 := 512)
    ⟨64 * p.val + 32 * k.val + (y 0).val, by
      have hp : p.val < 8 := p.isLt
      have hk : k.val < 2 := k.isLt
      have hy : (y 0).val < 32 := idx2_lt0 (n0 := 32) (n1 := 512) y
      omega⟩
    ⟨(y 1).val, idx2_lt1 y⟩

theorem emb_band (p : Dev nD) (k : Fin 2) (off : Fin 2 → ℕ) (h0 : off 0 = 64 * p.val + 32 * k.val) (h1 : off 1 = 0)
    (inb : ∀ a, off a + S32x512.size a ≤ S512x512.size a) (y : S32x512.Idx) :
    (Rect.unit (s := S512x512) off S32x512.size inb).emb y = gIdx p k y := by
  funext a
  apply Fin.ext
  match a with
  | ⟨0, _⟩ =>
    show off 0 + 1 * (y 0).val = 64 * p.val + 32 * k.val + (y 0).val
    rw [h0]; omega
  | ⟨1, _⟩ =>
    show off 1 + 1 * (y 1).val = (y 1).val
    rw [h1]; omega

theorem off2_row (c : Dev nD) : k0_off2 c 0 = 64 * c.val := by rw [k0_off2_eq]; rfl
theorem off2_col (c : Dev nD) : k0_off2 c 1 = 0 := by rw [k0_off2_eq]; rfl
theorem off3_row (c : Dev nD) (k : Fin 2) : k0_off3 c (BitVec.ofNat 32 (32 * k.val)) 0 = 64 * c.val + 32 * k.val := by
  rw [k0_off3_eq]; rfl
theorem off3_col (c : Dev nD) (k : Fin 2) : k0_off3 c (BitVec.ofNat 32 (32 * k.val)) 1 = 0 := by rw [k0_off3_eq]; rfl
theorem off4_row (c : Dev nD) (k : Fin 2) : k0_off4 c (BitVec.ofNat 32 (32 * k.val)) 0 = 64 * c.val + 32 * k.val := by
  rw [k0_off4_eq]; rfl
theorem off4_col (c : Dev nD) (k : Fin 2) : k0_off4 c (BitVec.ofNat 32 (32 * k.val)) 1 = 0 := by rw [k0_off4_eq]; rfl
theorem off1_row (c : Dev nD) (k : Fin 2) (j : Fin 7) :
    k0_off1 c (BitVec.ofNat 32 (1 + j.val)) (BitVec.ofNat 32 (32 * k.val)) 0 = 64 * ((c.val + j.val + 1) % 8) + 32 * k.val := by
  rw [k0_off1_eq]; rfl
theorem off1_col (c : Dev nD) (k : Fin 2) (j : Fin 7) :
    k0_off1 c (BitVec.ofNat 32 (1 + j.val)) (BitVec.ofNat 32 (32 * k.val)) 1 = 0 := by rw [k0_off1_eq]; rfl

theorem off3_eq_off4 (c : Dev nD) (k : Fin 2) :
    k0_off3 c (BitVec.ofNat 32 (32 * k.val)) = k0_off4 c (BitVec.ofNat 32 (32 * k.val)) :=
  (k0_off3_eq c k).trans (k0_off4_eq c k).symm

theorem r32_emb (c : Dev nD) (k : Fin 2) (y : S32x512.Idx) : (r32 c k).emb y = gIdx c k y :=
  emb_band c k _ (off3_row c k) (off3_col c k) _ y

end Rows

section Local

theorem load32_of_band {F : FTy → Type} [FloatOps F] (c : Dev nD) (k : Fin 2)
    (f : (cc0_stg1_0 : Ref sig .tc).ty.Contents (Elt F)) (w : Vec F S32x512 .f32) :
    (oM : Memref sig .tc .vmem S512x512 .f32).view.readAt (Elt F) (r32 c k).toLoadRect
      ((oRows c k).view.write (Elt F) f w Finset.univ) = w :=
  readAt_write_slice_unit (cc0_stg1_0 : Ref sig .tc) _ _ S32x512.size (off3_eq_off4 c k) _ _ _ f w

theorem store32_band {F : FTy → Type} [FloatOps F] (c : Dev nD) (k : Fin 2)
    (f : (cc0_stg1_0 : Ref sig .tc).ty.Contents (Elt F)) (w : Vec F S32x512 .f32) :
    ((oM : Memref sig .tc .vmem S512x512 .f32).access (r32 c k) : View sig .tc _ _ _).write (Elt F) f w Finset.univ
      = (oRows c k).view.write (Elt F) f w Finset.univ :=
  write_access_eq_slice_unit (cc0_stg1_0 : Ref sig .tc) _ _ S32x512.size (off3_eq_off4 c k) _ _ _ f w

theorem slot_load {F : FTy → Type} [FloatOps F] (k : Fin 2) (s : Fin 8)
    (fd : (cc0_scratch0 : Ref sig .tc).ty.Contents (Elt F)) (w : Vec F S32x512 .f32) :
    shapeCast S32x512 ((rM : Memref sig .tc .vmem S2x8x32x512 .f32).view.readAt (Elt F) (rSl k s).toLoadRect
      ((rSlot k s).view.write (Elt F) fd w Finset.univ)) shapeCasts_S1x1x32x512_S32x512 = w :=
  View.read_write_univ (v := (rSlot k s).view) fd w

theorem copy64_load32 {F : FTy → Type} [FloatOps F] (c : Dev nD) (k : Fin 2)
    (f0 : (cc0_stg1_0 : Ref sig .tc).ty.Contents (Elt F)) (X : (cc0_stg0_0 : Ref sig .tc).ty.Contents (Elt F)) :
    (oM : Memref sig .tc .vmem S512x512 .f32).view.readAt (Elt F) (r32 c k).toLoadRect
      (((oM : Memref sig .tc .vmem S512x512 .f32).access (r64 c) : View sig .tc _ _ _).write (Elt F) f0
        (k0_pay1 ((xM : Memref sig .tc .vmem S512x512 .f32).view.readAt (Elt F) (r64 c).toLoadRect X)) Finset.univ)
      = (xM : Memref sig .tc .vmem S512x512 .f32).view.readAt (Elt F) (r32 c k).toLoadRect X := by
  funext y
  have hk : k.val < 2 := k.isLt
  have hy : (y 0).val < 32 := idx2_lt0 (n0 := 32) (n1 := 512) y
  have e : (r64 c).emb (ix2 (n0 := 64) (n1 := 512) ⟨32 * k.val + (y 0).val, by omega⟩ ⟨(y 1).val, idx2_lt1 y⟩)
      = (r32 c k).emb y := by
    funext a
    apply Fin.ext
    match a with
    | ⟨0, _⟩ =>
      show k0_off2 c 0 + 1 * (32 * k.val + (y 0).val) = k0_off3 c (BitVec.ofNat 32 (32 * k.val)) 0 + 1 * (y 0).val
      rw [off2_row, off3_row]; omega
    | ⟨1, _⟩ =>
      show k0_off2 c 1 + 1 * (y 1).val = k0_off3 c (BitVec.ofNat 32 (32 * k.val)) 1 + 1 * (y 1).val
      rw [off2_col, off3_col]
  rw [readAt_whole_apply (cc0_stg1_0 : Ref sig .tc) (r32 c k), readAt_whole_apply (cc0_stg0_0 : Ref sig .tc) (r32 c k), ← e,
    write_access_emb (cc0_stg1_0 : Ref sig .tc) (r64 c)]
  unfold k0_pay1
  rw [shapeCast_self]
  rfl

end Local

section Final

theorem redV_congr {F : FTy → Type} [FloatOps F] (m : (ℓ : Loc nD τ sig) → Buf (Elt F) ℓ) {p p' : Dev nD} {k k' : Fin 2}
    {y y' : S32x512.Idx} (hp : p = p') (hk : k = k') (hy : y = y') : redV m p k y = redV m p' k' y' := by
  subst hp hk hy; rfl

theorem outFin_gIdx {F : FTy → Type} [FloatOps F] (m : (ℓ : Loc nD τ sig) → Buf (Elt F) ℓ) (p : Dev nD) (k : Fin 2)
    (y : S32x512.Idx) : outFin m (gIdx p k y) = redV m p k y := by
  have hp : p.val < 8 := p.isLt
  have hk : k.val < 2 := k.isLt
  have hy : (y 0).val < 32 := idx2_lt0 (n0 := 32) (n1 := 512) y
  unfold outFin
  refine redV_congr m (Fin.ext ?_) (Fin.ext ?_) (funext fun a => ?_)
  · show (64 * p.val + 32 * k.val + (y 0).val) / 64 = p.val
    omega
  · show ((64 * p.val + 32 * k.val + (y 0).val) / 32) % 2 = k.val
    omega
  · match a with
    | ⟨0, _⟩ =>
      apply Fin.ext
      show (64 * p.val + 32 * k.val + (y 0).val) % 32 = (y 0).val
      omega
    | ⟨1, _⟩ => rfl

theorem outFin_on_band {F : FTy → Type} [FloatOps F] (m : (ℓ : Loc nD τ sig) → Buf (Elt F) ℓ) (p : Dev nD) (k : Fin 2)
    (fd : (cc0_stg1_0 : Ref sig .tc).ty.Contents (Elt F)) :
    ∀ i ∈ (oRows p k).view.set, ((oRows p k).view.write (Elt F) fd (redV m p k) Finset.univ) i = outFin m i := by
  intro i hi
  obtain ⟨y, rfl⟩ := View.exists_emb_of_mem_set (oRows p k).view hi
  have e : (oRows p k).view.emb y = gIdx p k y := emb_band p k _ (off4_row p k) (off4_col p k) _ y
  have h := View.write_emb_of_mem (v := (oRows p k).view) (Val := Elt F) fd (redV m p k) (M := Finset.univ) (x := y)
    (Finset.mem_univ _)
  rw [e] at h ⊢
  exact h.trans (outFin_gIdx m p k y).symm

theorem xst_eq {F : FTy → Type} [FloatOps F] (m : (ℓ : Loc nD τ sig) → Buf (Elt F) ℓ) (c : Dev nD) :
    xst m c = m ((c : Thread nD τ).loc main_arg0) :=
  Memref.read_access_unit_zero (Elt F) (main_arg0 : Ref sig .tc) (funext fun a => Nat.zero_mul _) _ _

theorem own32_apply {F : FTy → Type} [FloatOps F] (m : (ℓ : Loc nD τ sig) → Buf (Elt F) ℓ) (c : Dev nD) (k : Fin 2)
    (y : S32x512.Idx) : own32 m c k y = m ((c : Thread nD τ).loc main_arg0) (gIdx c k y) := by
  unfold own32
  rw [readAt_whole_apply (cc0_stg0_0 : Ref sig .tc) (r32 c k), r32_emb, xst_eq]

theorem recvd_apply {F : FTy → Type} [FloatOps F] (m : (ℓ : Loc nD τ sig) → Buf (Elt F) ℓ) (c : Dev nD) (k : Fin 2)
    (j : Fin 7) (y : S32x512.Idx) :
    recvd m c k j y = m (((sender c j : Dev nD) : Thread nD τ).loc main_arg0) (gIdx c k y) := by
  have h0 : k0_off1 (sender c j) (BitVec.ofNat 32 (1 + j.val)) (BitVec.ofNat 32 (32 * k.val)) 0 = 64 * c.val + 32 * k.val := by
    rw [off1_row]
    have hc : c.val < 8 := c.isLt
    have hj : j.val < 7 := j.isLt
    have hs : (sender c j).val = (c.val + (7 - j.val)) % 8 := rfl
    rw [hs]
    omega
  unfold recvd xpart
  rw [read_slice_apply (cc0_stg0_0 : Ref sig .tc), emb_band c k _ h0 (off1_col _ k j) _ y, xst_eq]

theorem redN_seven {F : FTy → Type} [FloatOps F] (m : (ℓ : Loc nD τ sig) → Buf (Elt F) ℓ) (c : Dev nD) (k : Fin 2) :
    redN m c k 7 = addB (addB (addB (addB (addB (addB (addB (own32 m c k) (recvd m c k ⟨0, by decide⟩)) (recvd m c k ⟨1, by decide⟩))
      (recvd m c k ⟨2, by decide⟩)) (recvd m c k ⟨3, by decide⟩)) (recvd m c k ⟨4, by decide⟩)) (recvd m c k ⟨5, by decide⟩))
      (recvd m c k ⟨6, by decide⟩) := rfl

end Final

end Cert.KernelIdeal.Proto

end
-- ==== Proof.BodyAux.lean ====
import proofs.«900587_g7700000000000588_dist_rs_then_ag_i_m512_n512_v7x_i8_f32_1_alg».proof.Proof.State
import proofs.«900587_g7700000000000588_dist_rs_then_ag_i_m512_n512_v7x_i8_f32_1_alg».proof.Proof.Pieces
import proofs.«900587_g7700000000000588_dist_rs_then_ag_i_m512_n512_v7x_i8_f32_1_alg».proof.Proof.Local

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem bigSepL_append {I : Type} (l₁ l₂ : List I) (Φ : I → sProp 𝕄) : bigSepL (l₁ ++ l₂) Φ = iprop(bigSepL l₁ Φ ∗ bigSepL l₂ Φ) := by
  induction l₁ with
  | nil => exact (eq_of_bi emp_sep).symm
  | cons x l ih => rw [List.cons_append, bigSepL_cons, bigSepL_cons, ih]; exact (eq_of_bi sep_assoc).symm

def ownL : List OwnK :=
  allKJ.map (fun kj => ((0 : Fin 4), kj.1, kj.2)) ++ (allKJ.map (fun kj => ((1 : Fin 4), kj.1, kj.2))
    ++ (allKJ.map (fun kj => ((2 : Fin 4), kj.1, kj.2)) ++ allKJ.map (fun kj => ((3 : Fin 4), kj.1, kj.2))))
def ckL : List CK := none :: ownL.map some

theorem ownL_univ : (Finset.univ : Finset OwnK) = ownL.toFinset := by decide
theorem ownL_nodup : ownL.Nodup := by decide
theorem ckL_univ : (Finset.univ : Finset CK) = ckL.toFinset := by decide
theorem ckL_nodup : ckL.Nodup := by decide

theorem bigSepL_ownL (Φ : OwnK → sProp 𝕄) : bigSepL ownL Φ =
    iprop((bigSepL allKJ fun kj => Φ (0, kj.1, kj.2)) ∗ (bigSepL allKJ fun kj => Φ (1, kj.1, kj.2))
      ∗ (bigSepL allKJ fun kj => Φ (2, kj.1, kj.2)) ∗ (bigSepL allKJ fun kj => Φ (3, kj.1, kj.2))) := by
  rw [ownL, bigSepL_append, bigSepL_append, bigSepL_append, bigSepL_map, bigSepL_map, bigSepL_map, bigSepL_map]

theorem positions_split (c : Dev nD) : (positions (F := F) c : sProp 𝕄) ⊣⊢ iprop(atPos ER (barCell c) 0 ∅ 0 ∗ (bigSepL allKJ fun kj => atPos ER (rsS c kj.1 kj.2) 0 ∅ 0) ∗ (bigSepL allKJ fun kj => atPos ER (rsR c kj.1 kj.2) 0 ∅ 0) ∗ (bigSepL allKJ fun kj => atPos ER (agS c kj.1 kj.2) 0 ∅ 0) ∗ (bigSepL allKJ fun kj => atPos ER (agR c kj.1 kj.2) 0 ∅ 0)) := by
  unfold positions
  rw [bigSep_univ_eq_bigSepL ckL ckL_univ ckL_nodup, ckL, bigSepL_cons, bigSepL_map, bigSepL_ownL]
  exact BiEntails.of_eq rfl

theorem records_inv (K : Dev nD × CK → ℕ) (ck : Dev nD × CK) : records m K ⊢ cellInv ER (Rd m) (K ck) (kcell ck) := by
  unfold records
  exact (BI.sep_and.trans BI.and_elimL).trans (BI.bigSep_elim (Finset.mem_univ ck))

theorem records_reached (K : Dev nD × CK → ℕ) (ck : Dev nD × CK) : records m K ⊢ reached ER (kcell ck) 0 := by
  unfold records
  exact (BI.sep_and.trans BI.and_elimR).trans (BI.bigSep_elim (Finset.mem_univ ck))

theorem records_inv_bar (K : Dev nD × CK → ℕ) (c' : Dev nD) : records m K ⊢ cellInv ER (Rd m) (K (c', none)) (barCell c') :=
  records_inv m K (c', none)
theorem records_inv_own (K : Dev nD × CK → ℕ) (c' : Dev nD) (x : OwnK) : records m K ⊢ cellInv ER (Rd m) (K (c', some x)) (ownCell c' x) :=
  records_inv m K (c', some x)
theorem records_reached_bar (K : Dev nD × CK → ℕ) (c' : Dev nD) : records m K ⊢ reached ER (barCell c') 0 :=
  records_reached m K (c', none)
theorem records_reached_own (K : Dev nD × CK → ℕ) (c' : Dev nD) (x : OwnK) : records m K ⊢ reached ER (ownCell c' x) 0 :=
  records_reached m K (c', some x)

abbrev sep7 (f : Fin 7 → sProp 𝕄) : sProp 𝕄 := iprop(f 0 ∗ f 1 ∗ f 2 ∗ f 3 ∗ f 4 ∗ f 5 ∗ f 6)
abbrev sep14 (f : Fin 2 → Fin 7 → sProp 𝕄) : sProp 𝕄 :=
  iprop(f 0 0 ∗ f 0 1 ∗ f 0 2 ∗ f 0 3 ∗ f 0 4 ∗ f 0 5 ∗ f 0 6 ∗ f 1 0 ∗ f 1 1 ∗ f 1 2 ∗ f 1 3 ∗ f 1 4 ∗ f 1 5 ∗ f 1 6)

theorem bigSepL_allJ (f : Fin 7 → sProp 𝕄) : bigSepL allJ f = sep7 f := rfl
theorem bigSepL_allKJ (f : Fin 2 × Fin 7 → sProp 𝕄) : bigSepL allKJ f = sep14 (fun k j => f (k, j)) := rfl

theorem write_write_on {κ : Kind} {sp : Space} {s : Shape} {e : EltTy} (v : View sig κ sp s e) (f : v.ty.Contents (Elt F))
    (a b : s.Idx → Elt F e) : ∀ i ∈ v.set, v.write (Elt F) (v.write (Elt F) f a Finset.univ) b Finset.univ i = v.write (Elt F) f b Finset.univ i := by
  intro i hi
  obtain ⟨y, rfl⟩ := View.exists_emb_of_mem_set v hi
  rw [View.write_emb_of_mem (v := v) (Val := Elt F) _ b (M := Finset.univ) (x := y) (Finset.mem_univ _),
    View.write_emb_of_mem (v := v) (Val := Elt F) f b (M := Finset.univ) (x := y) (Finset.mem_univ _)]

theorem acc_step (c : Dev nD) (k : Fin 2) (s : Fin 8) {pay : Vec F S32x512 .f32 → Vec F S1x1x32x512 .f32 → FVec F S32x512 .f32}
    (hpay : ∀ a b, pay a b = addB a (shapeCast S32x512 b shapeCasts_S1x1x32x512_S32x512))
    {f : Buf (Elt F) ((c : Thread nD τ).loc cc0_stg1_0)} {fd : Buf (Elt F) ((c : Thread nD τ).loc cc0_scratch0)} {a w : Vec F S32x512 .f32}
    {hl1 : (oM : Memref sig .tc .vmem S512x512 .f32).view.LoadsAt (r32 c k).toLoadRect}
    {hl2 : (rM : Memref sig .tc .vmem S2x8x32x512 .f32).view.LoadsAt (rSl k s).toLoadRect}
    {hl3 : (oM : Memref sig .tc .vmem S512x512 .f32).view.LoadsAt (r32 c k).toLoadRect}
    {hx : ((oM : Memref sig .tc .vmem S512x512 .f32).access (r32 c k)).Stores Finset.univ}
    {hm : (Finset.univ : Finset (r32 c k).shape.Idx) = Finset.univ ∨ ∀ a, (r32 c k).stride a = 1}
    {α : Type} {Q : α → sProp 𝕄} {kont : PUnit → Prog (TpuEff nD τ sig (Elt F) Λ₀ .tc) α} :
    iprop(pts (oRows c k) c fullShare ((oRows c k).view.write (Elt F) f a Finset.univ) ∗ pts (rSlot k s) c fullShare ((rSlot k s).view.write (Elt F) fd w Finset.univ))
      ⊢ iprop(((pts (oRows c k) c fullShare ((oRows c k).view.write (Elt F) f (addB a w) Finset.univ) ∗ pts (rSlot k s) c fullShare ((rSlot k s).view.write (Elt F) fd w Finset.univ)) -∗ wp frame (wpE (defs₀ (F := F)) 𝒱₀ (c : Thread nD τ) none) Set.univ (kont ⟨⟩) Q)
        -∗ wp frame (wpE (defs₀ (F := F)) 𝒱₀ (c : Thread nD τ) none) Set.univ
            (.op (.load (oM : Memref sig .tc .vmem S512x512 .f32) (r32 c k).toLoadRect hl1) fun v1 => .op (.load (rM : Memref sig .tc .vmem S2x8x32x512 .f32) (rSl k s).toLoadRect hl2) fun v2 => .op (.load (oM : Memref sig .tc .vmem S512x512 .f32) (r32 c k).toLoadRect hl3) fun _ => .op (.store (oM : Memref sig .tc .vmem S512x512 .f32) (r32 c k) (pay v1 v2) Finset.univ hx hm) kont) Q) := by
  iintro ⟨Ho, Hs⟩ Hk
  iapply (wp_load 𝒱₀ (c : Thread nD τ) none Set.univ (m := (oM : Memref sig .tc .vmem S512x512 .f32)) (r := (r32 c k).toLoadRect) (S := (oRows c k).view.set) (out_load32_sub c k)) $$ Ho
  iintro Ho
  iapply (wp_load 𝒱₀ (c : Thread nD τ) none Set.univ (m := (rM : Memref sig .tc .vmem S2x8x32x512 .f32)) (r := (rSl k s).toLoadRect) (S := (rSlot k s).view.set) (scr_load_sub k s)) $$ Hs
  iintro Hs
  iapply (wp_load 𝒱₀ (c : Thread nD τ) none Set.univ (m := (oM : Memref sig .tc .vmem S512x512 .f32)) (r := (r32 c k).toLoadRect) (S := (oRows c k).view.set) (out_load32_sub c k)) $$ Ho
  iintro Ho
  iapply (wp_store 𝒱₀ (c : Thread nD τ) none Set.univ (m := (oM : Memref sig .tc .vmem S512x512 .f32)) (r := r32 c k) (S := (oRows c k).view.set)
    (by rw [View.setOn_univ, out_acc32])) $$ Ho
  iintro Ho
  iapply Hk
  isplitl [Ho]
  · rw [hpay, load32_of_band, slot_load, store32_band]
    rw [← pts_congr (oRows c k) c fullShare _ _ (write_write_on (oRows c k).view f a (addB a w))]
    iexact Ho
  · iexact Hs

theorem copy_on_band (c : Dev nD) (k : Fin 2) (f0 : Buf (Elt F) ((c : Thread nD τ).loc cc0_stg1_0)) :
    ∀ i ∈ (oRows c k).view.set,
      (((oM : Memref sig .tc .vmem S512x512 .f32).access (r64 c) : View sig .tc _ _ _).write (Elt F) f0
        (k0_pay1 ((xM : Memref sig .tc .vmem S512x512 .f32).view.readAt (Elt F) (r64 c).toLoadRect (xst m c))) Finset.univ) i
        = (oRows c k).view.write (Elt F) f0 (own32 m c k) Finset.univ i := by
  intro i hi
  obtain ⟨y, rfl⟩ := View.exists_emb_of_mem_set (oRows c k).view hi
  have e : (oRows c k).view.emb y = (r32 c k).emb y :=
    (emb_band c k _ (off4_row c k) (off4_col c k) _ y).trans (r32_emb c k y).symm
  have h1 := View.write_emb_of_mem (v := (oRows c k).view) (Val := Elt F) f0 (own32 m c k) (M := Finset.univ) (x := y) (Finset.mem_univ _)
  have h2 := congrFun (copy64_load32 c k f0 (xst m c)) y
  rw [readAt_whole_apply (cc0_stg1_0 : Ref sig .tc) (r32 c k), ← e] at h2
  have h3 : own32 m c k y = (xM : Memref sig .tc .vmem S512x512 .f32).view.readAt (Elt F) (r32 c k).toLoadRect (xst m c) y := by
    unfold own32; rfl
  rw [h1, h3]
  exact h2

theorem own_bands_join (c : Dev nD) (g : Buf (Elt F) ((c : Thread nD τ).loc cc0_stg1_0)) :
    (iprop(pts (oRows c 0) c fullShare g ∗ pts (oRows c 1) c fullShare g) : sProp 𝕄)
      = (((c : Thread nD τ).loc cc0_stg1_0) ↦[((oM : Memref sig .tc .vmem S512x512 .f32).access (r64 c)).set]{fullShare} g) := by
  rw [out_own64]; exact (eq_of_bi (pointsTo_union (out_own_disj c))).symm

theorem o_load64_sub (c : Dev nD) : (oM : Memref sig .tc .vmem S512x512 .f32).view.setOn (r64 c).toLoadRect.set ⊆ ((oM : Memref sig .tc .vmem S512x512 .f32).access (r64 c)).set := by
  show (View.whole cc0_stg1_0 : View sig .tc _ _ _).setOn (r64 c).set ⊆ ((View.whole cc0_stg1_0 : View sig .tc _ _ _).slice (r64 c)).set
  rw [setOn_whole, View.set_slice_whole]

theorem copy_step (c : Dev nD) {f0 : Buf (Elt F) ((c : Thread nD τ).loc cc0_stg1_0)}
    {hl1 : (xM : Memref sig .tc .vmem S512x512 .f32).view.LoadsAt (r64 c).toLoadRect}
    {hl2 : (oM : Memref sig .tc .vmem S512x512 .f32).view.LoadsAt (r64 c).toLoadRect}
    {hx : ((oM : Memref sig .tc .vmem S512x512 .f32).access (r64 c)).Stores Finset.univ}
    {hm : (Finset.univ : Finset (r64 c).shape.Idx) = Finset.univ ∨ ∀ a, (r64 c).stride a = 1}
    {α : Type} {Q : α → sProp 𝕄} {kont : PUnit → Prog (TpuEff nD τ sig (Elt F) Λ₀ .tc) α} :
    iprop(xOwn c (xst m c) ∗ pts (oRows c 0) c fullShare f0 ∗ pts (oRows c 1) c fullShare f0)
      ⊢ iprop(((xOwn c (xst m c) ∗ pts (oRows c 0) c fullShare ((oRows c 0).view.write (Elt F) f0 (own32 m c 0) Finset.univ)
            ∗ pts (oRows c 1) c fullShare ((oRows c 1).view.write (Elt F) f0 (own32 m c 1) Finset.univ))
          -∗ wp frame (wpE (defs₀ (F := F)) 𝒱₀ (c : Thread nD τ) none) Set.univ (kont ⟨⟩) Q)
        -∗ wp frame (wpE (defs₀ (F := F)) 𝒱₀ (c : Thread nD τ) none) Set.univ
            (.op (.load (xM : Memref sig .tc .vmem S512x512 .f32) (r64 c).toLoadRect hl1) fun v1 => .op (.load (oM : Memref sig .tc .vmem S512x512 .f32) (r64 c).toLoadRect hl2) fun _ => .op (.store (oM : Memref sig .tc .vmem S512x512 .f32) (r64 c) (k0_pay1 v1) Finset.univ hx hm) kont) Q) := by
  rw [own_bands_join c f0]
  iintro ⟨Hx, Ho⟩ Hk
  iapply (wp_load 𝒱₀ (c : Thread nD τ) none Set.univ (m := (xM : Memref sig .tc .vmem S512x512 .f32)) (r := (r64 c).toLoadRect)
    (S := ((xM : Memref sig .tc .vmem S512x512 .f32).access (r64 c)).set) (x_load64_sub c)) $$ Hx
  iintro Hx
  iapply (wp_load 𝒱₀ (c : Thread nD τ) none Set.univ (m := (oM : Memref sig .tc .vmem S512x512 .f32)) (r := (r64 c).toLoadRect)
    (S := ((oM : Memref sig .tc .vmem S512x512 .f32).access (r64 c)).set) (o_load64_sub c)) $$ Ho
  iintro Ho
  iapply (wp_store 𝒱₀ (c : Thread nD τ) none Set.univ (m := (oM : Memref sig .tc .vmem S512x512 .f32)) (r := r64 c)
    (S := ((oM : Memref sig .tc .vmem S512x512 .f32).access (r64 c)).set) (by rw [View.setOn_univ])) $$ Ho
  iintro Ho
  iapply Hk
  isplitl [Hx]
  · iexact Hx
  · rw [← pts_congr (oRows c 0) c fullShare _ _ (copy_on_band m c 0 f0), ← pts_congr (oRows c 1) c fullShare _ _ (copy_on_band m c 1 f0),
      own_bands_join]
    iexact Ho

end Cert.KernelIdeal.Proto

end
-- ==== Proof.Launch.lean ====
import proofs.«900587_g7700000000000588_dist_rs_then_ag_i_m512_n512_v7x_i8_f32_1_alg».proof.Proof.BodyAux

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

abbrev TK : Type := Fin 7 ⊕ OwnK

def tokOf (ct : Dev nD × TK) : GSem nD τ sig × ℕ × Dn :=
  match ct.2 with
  | .inl j => (barCell ct.1, 0, dOf j)
  | .inr x => (ownCell ct.1 x, 0, (0 : Dn))

theorem dOf_injective : Function.Injective dOf := by decide

theorem tokOf_injective : Function.Injective (tokOf : Dev nD × TK → GSem nD τ sig × ℕ × Dn) := by
  rintro ⟨c, t⟩ ⟨c', t'⟩ h
  have h1 : c = c' := by
    have := congrArg (fun x : GSem nD τ sig × ℕ × Dn => x.1.1.1) h
    cases t <;> cases t' <;> exact this
  subst h1
  cases t with
  | inl j =>
    cases t' with
    | inl j' =>
      have h2 : dOf j = dOf j' := congrArg (fun x : GSem nD τ sig × ℕ × Dn => x.2.2) h
      rw [dOf_injective h2]
    | inr x' => exact absurd (congrArg (fun x : GSem nD τ sig × ℕ × Dn => x.1.2) h).symm (own_ne_bar x')
  | inr x =>
    cases t' with
    | inl j' => exact absurd (congrArg (fun x : GSem nD τ sig × ℕ × Dn => x.1.2) h) (own_ne_bar x)
    | inr x' =>
      have h2 : osem x = osem x' := congrArg (fun x : GSem nD τ sig × ℕ × Dn => x.1.2) h
      rw [osem_injective h2]

def ringToks : Finset (GSem nD τ sig × ℕ × Dn) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun j : Fin 7 => dutyTok ER (barCell c) 0 (dOf j))
    ∗ (bigSep Finset.univ fun x : OwnK => dutyTok ER (ownCell c x) 0 (0 : Dn)))

def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

omit [FloatOps F] in
private theorem bigSep_option {I : Type} [Fintype I] [DecidableEq I] (Φ : Option I → sProp 𝕄) :
    bigSep Finset.univ Φ = iprop(Φ none ∗ bigSep Finset.univ fun i : I => Φ (some i)) := by
  rw [bigSep_univ_at Φ none]
  have h : (Finset.univ : Finset (Option I)).erase none = Finset.univ.map Function.Embedding.some := by
    ext x; cases x <;> simp
  rw [h, bigSep_map]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
private theorem bigSep_deal {J : Type} [Fintype J] (e : J → Dev nD ≃ Dev nD) (Φ : Dev nD → J → sProp 𝕄) :
    (bigSep Finset.univ fun c : Dev nD => bigSep Finset.univ fun j : J => Φ c j)
      = bigSep Finset.univ fun c : Dev nD => bigSep Finset.univ fun j : J => Φ (e j c) j := by
  rw [bigSep_univ_comm (fun c j => Φ c j), bigSep_univ_comm (fun c j => Φ (e j c) j)]
  exact bigSep_congr fun j _ => bigSep_univ_equiv (e j) (fun c => Φ c j)

omit [FloatOps F] in
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem toks_eq (c : Dev nD) : (toks c : sProp 𝕄) =
    iprop((bigSep Finset.univ fun j : Fin 7 => dutyTok ER (barCell c) 0 (dOf j))
      ∗ (bigSep Finset.univ fun kj : Fin 2 × Fin 7 => dutyTok ER (rsS c kj.1 kj.2) 0 (0 : Dn))
      ∗ (bigSep Finset.univ fun kj : Fin 2 × Fin 7 => dutyTok ER (rsR c kj.1 kj.2) 0 (0 : Dn))
      ∗ (bigSep Finset.univ fun kj : Fin 2 × Fin 7 => dutyTok ER (agS c kj.1 kj.2) 0 (0 : Dn))
      ∗ (bigSep Finset.univ fun kj : Fin 2 × Fin 7 => dutyTok ER (agR c kj.1 kj.2) 0 (0 : Dn))) := by
  unfold toks
  rw [bigSep_univ_prod (fun x : OwnK => (dutyTok ER (ownCell c x) 0 (0 : Dn) : sProp 𝕄)), bigSep_fin4]

omit [FloatOps F] in
theorem payToks_eq (c : Dev nD) : (payToks c : sProp 𝕄) =
    iprop((bigSep Finset.univ fun j : Fin 7 => dutyTok ER (barCell (peer c j)) 0 (dOf j))
      ∗ ((bigSep Finset.univ fun kj : Fin 2 × Fin 7 => dutyTok ER (rsS c kj.1 kj.2) 0 (0 : Dn))
        ∗ (bigSep Finset.univ fun kj : Fin 2 × Fin 7 => dutyTok ER (rsR (peer c kj.2) kj.1 kj.2) 0 (0 : Dn)))
      ∗ ((bigSep Finset.univ fun kj : Fin 2 × Fin 7 => dutyTok ER (agS c kj.1 kj.2) 0 (0 : Dn))
        ∗ (bigSep Finset.univ fun kj : Fin 2 × Fin 7 => dutyTok ER (agR (peer c kj.2) kj.1 kj.2) 0 (0 : Dn)))) := by
  unfold payToks
  rw [← bigSep_univ_eq_bigSepL allJ (by decide) (by decide), ← bigSep_univ_eq_bigSepL allKJ (by decide) (by decide),
    ← bigSep_univ_eq_bigSepL allKJ (by decide) (by decide), bigSep_sep', bigSep_sep']

omit [FloatOps F] in
theorem toks_around : (bigSep Finset.univ fun c : Dev nD => (toks c : sProp 𝕄)) ⊢ bigSep Finset.univ fun c : Dev nD => payToks c := by
  rw [bigSep_congr (s := Finset.univ) (fun (c : Dev nD) _ => toks_eq (F := F) c),
    bigSep_congr (s := Finset.univ) (fun (c : Dev nD) _ => payToks_eq (F := F) c)]
  simp only [bigSep_sep']
  rw [bigSep_deal (fun j : Fin 7 => peerE j) (fun c j => (dutyTok ER (barCell c) 0 (dOf j) : sProp 𝕄)),
    bigSep_deal (fun kj : Fin 2 × Fin 7 => peerE kj.2) (fun c kj => (dutyTok ER (rsR c kj.1 kj.2) 0 (0 : Dn) : sProp 𝕄)),
    bigSep_deal (fun kj : Fin 2 × Fin 7 => peerE kj.2) (fun c kj => (dutyTok ER (agR c kj.1 kj.2) 0 (0 : Dn) : sProp 𝕄))]
  simp only [show ∀ (j : Fin 7) (c : Dev nD), (peerE j) c = peer c j from fun _ _ => rfl]
  iintro ⟨H1, H2, H3, H4, H5⟩
  isplitl [H1]; · iexact H1
  isplitl [H2 H3]
  · isplitl [H2] <;> iassumption
  isplitl [H4] <;> iassumption

omit [FloatOps F] in
private theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m K ∗ positions c ∗ payToks c) ⊢ G' m c := by
  unfold G' ghost
  iintro H
  iexists K
  iexact H

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent' (R := records m K) fun c _ => ghost_intro m K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def payOf (d : Dev nD) (ps : List (Fin 7 × SemLoc sig × ℕ)) : List (GSem nD τ sig × ℕ) :=
  ps.map fun p => ((((peer d p.1 : Dev nD) : Thread nD τ), p.2.1), p.2.2)

omit [FloatOps F] in
theorem launchCred_payOf (ps : List (Fin 7 × SemLoc sig × ℕ)) (c : Dev nD) :
    (Pipeline.launchCred (fun d => owedL (payOf d ps)) c : sProp 𝕄)
      ⊢ bigSepL ps fun p => cred (tallyAt ((c : Thread nD τ), p.2.1) () p.2.2) := by
  induction ps with
  | nil =>
    have e : (fun d : Dev nD => owedL (payOf d [])) = fun _ : Dev nD => (0 : CellTallies nD τ sig Unit) := rfl
    rw [e, Pipeline.launchCred_zero]; exact .rfl
  | cons p ps ih =>
    have e : (fun d : Dev nD => owedL (payOf d (p :: ps)))
        = fun d : Dev nD => owedL (payOf d ps) + tallyAt ((((peer d p.1 : Dev nD) : Thread nD τ), p.2.1)) () p.2.2 := rfl
    rw [e, Pipeline.launchCred_add (fun d : Dev nD => owedL (payOf d ps)) (fun d : Dev nD => tallyAt ((((peer d p.1 : Dev nD) : Thread nD τ), p.2.1)) () p.2.2), bigSepL_cons]
    exact BI.sep_comm.trans (BI.sep_mono
      (Pipeline.launchCred_tallyAt p.2.1 (fun d => peer d p.1) (fun d => sender d p.1) (fun d => peer_sender d p.1) (fun d => sender_peer d p.1) () p.2.2 c) ih)

def payPs : List (Fin 7 × SemLoc sig × ℕ) :=
  allJ.map (fun j => (j, SemLoc.reg barS, 1))
    ++ allKJ.map (fun kj => (kj.2, osem (1, kj.1, kj.2), NW))
    ++ allKJ.map (fun kj => (kj.2, osem (3, kj.1, kj.2), NW))

omit [FloatOps F] in
theorem payList_eq (d : Dev nD) : payList d = payOf d payPs := by
  unfold payList payOf payPs
  rw [List.map_append, List.map_append, List.map_map, List.map_map, List.map_map]
  rfl

omit [FloatOps F] in
theorem cred_units (g : GSem nD τ sig) {I : Type} (l : List I) :
    (bigSepL l fun _ => cred (tallyAt g () 1) : sProp 𝕄) ⊢ cred (tallyAt g () l.length) := by
  induction l with
  | nil =>
    have e : (tallyAt g () 0 : CellTallies nD τ sig Unit) = 0 := by unfold tallyAt; rw [Finsupp.single_zero, tallyOn_zero]
    rw [List.length_nil, e, cred_zero]; exact .rfl
  | cons i l ih =>
    rw [bigSepL_cons, List.length_cons, Nat.add_comm, ← tallyAt_add]
    exact (sep_mono_right ih).trans (cred_add _ _).2

theorem creds_intro (c : Dev nD) : (Pipeline.launchCred O₀ c : sProp 𝕄) ⊢ creds c := by
  have e : (O₀ : Dev nD → CellTallies nD τ sig Unit) = fun d => owedL (payOf d payPs) := funext fun d => by unfold O₀; rw [payList_eq]
  rw [e]
  refine (launchCred_payOf payPs c).trans ?_
  unfold payPs creds
  rw [bigSepL_append, bigSepL_append, bigSepL_map, bigSepL_map, bigSepL_map]
  iintro ⟨⟨H1, H2⟩, H3⟩
  isplitl [H1]
  · iapply (cred_units (F := F) (barCell c) allJ); iexact H1
  isplitl [H2]
  · iexact H2
  · iexact H3

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ scrPts Pipeline.ownSems0
  iintro ⟨Hr, Hz⟩
  isplitr; · iempintro
  isplitl [Hz]; · iexact Hz
  iexact Hr

omit [FloatOps F] in
theorem two_le_semNo (kd : Fin 4) (k : Fin 2) (j : Fin 7) : 2 ≤ semNo kd k j := by revert kd k j; decide

omit [FloatOps F] in
theorem decode_stage (q : DmaSem sig) (hq : q.val < 2) : decode (.dma q) = none := by
  unfold decode
  rw [dif_neg]
  rintro ⟨x, hx⟩
  have h1 : semNo x.1 x.2.1 x.2.2 = q.val := congrArg Fin.val (SemLoc.dma.inj hx)
  have h2 := two_le_semNo x.1 x.2.1 x.2.2
  omega

omit [FloatOps F] in
theorem lv_stage (c : Dev nD) (q : DmaSem sig) (hq : q.val < 2) : lv ((c : Thread nD τ), .dma q) () = 0 := by
  unfold lv
  rw [if_neg (fun h => by cases h), decode_stage q hq]

omit [FloatOps F] in
theorem payList_lv (c : Dev nD) : ∀ x ∈ payList c, x.1.1.2 = Proc.tc ∧ 0 < lv x.1 () := by
  intro x hx
  unfold payList at hx
  rcases List.mem_append.mp hx with hx | hx
  · rcases List.mem_append.mp hx with hx | hx
    · obtain ⟨j, -, rfl⟩ := List.mem_map.mp hx; exact ⟨rfl, by rw [lv_bar]; decide⟩
    · obtain ⟨kj, -, rfl⟩ := List.mem_map.mp hx; exact ⟨rfl, by rw [lv_rsR]; decide⟩
  · obtain ⟨kj, -, rfl⟩ := List.mem_map.mp hx; exact ⟨rfl, by rw [lv_agR]; decide⟩

theorem waits (c : Dev nD) : (levAts L lv : sProp 𝕄) ⊢ Pipeline.cellsWaits cfgs (dats m ρ) () 0 c :=
  Pipeline.cellsWaits_intro cfgs (dats m ρ) () 0 c fun w s t => by
    have hq : (((cfgs 0).win w).sem s).val < 2 := by fin_cases w <;> fin_cases s <;> decide
    rcases t with ⟨_ | _, ht⟩
    · show (levAts L lv : sProp 𝕄) ⊢ MayWait (c : Thread nD τ) (.dma (((cfgs 0).win w).sem s)) () (O₀ c)
      exact mayWait_owedL c _ (payList c) fun x hx => by
        rw [lv_stage c _ hq]; exact payList_lv c x hx
    · show (levAts L lv : sProp 𝕄) ⊢ MayWait (c : Thread nD τ) (.dma (((cfgs 0).win w).sem s)) () 0
      exact mayWait_zero' c _

def finalA (c : Dev nD) (w : Fin cfg0.W) : Buf (Elt F) ((cfg0.win w).arr.view.loc (c : Thread nD τ)) := (dats m ρ 0 c).arrAt w cfg0.N

set_option maxRecDepth 8000 in
theorem run_main (hbody : ∀ c : Dev nD, BodyObligation (dats (F := F) m ρ 0 c) (defs₀ (F := F)) 𝒱₀ () Set.univ) :
    θ_run defs (onTc (τ := τ) (main (F := F))) (st₀ m ρ)
      (fun r => ∀ c : Dev nD, ∀ w : Fin cfg0.W, r.2.mem ((cfg0.win w).arr.view.loc (c : Thread nD τ)) = finalA m ρ c w) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (st₀ m ρ).mem (win0_0.arr.view.loc (c : Thread nD τ)) :=
  (dats (F := F) m ρ 0 c).arrAt_in (0 : Fin 2) rfl _

theorem finalA_out (c : Dev nD) : finalA m ρ c (1 : Fin 2) = outFin m := by
  unfold finalA
  have h := (dats (F := F) m ρ 0 c).arrAt_succ (1 : Fin 2) t₀
  rw [flush0_1 t₀, if_pos rfl] at h
  refine (show (dats (F := F) m ρ 0 c).arrAt (1 : Fin 2) cfg0.N = (dats (F := F) m ρ 0 c).arrAt (1 : Fin 2) (t₀.val + 1) from rfl).trans (h.trans ?_)
  have e : (dats (F := F) m ρ 0 c).flushed (1 : Fin 2) t₀ = outFin m := by
    dsimp only [dats, Dat.flushed]
    rfl
  rw [e]
  exact Memref.write_access_unit_zero_univ (Elt F) main_v1 (funext fun a => Nat.zero_mul _) _ _ _

theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFin m
      ∧ r.2.mem ((c.tc : Thread nD τ).loc main_arg0) = m ((c.tc : Thread nD τ).loc main_arg0)) :=
  (θ_run defs _ _).mono (fun _ h c => ⟨((h c) (1 : Fin 2)).trans (finalA_out m ρ c), ((h c) (0 : Fin 2)).trans (finalA_x m ρ c)⟩) (run_main m ρ hbody)

end Cert.KernelIdeal.Proto

end
-- ==== Proof.Finish.lean ====
import proofs.«900587_g7700000000000588_dist_rs_then_ag_i_m512_n512_v7x_i8_f32_1_alg».proof.Proof.State
import proofs.«900587_g7700000000000588_dist_rs_then_ag_i_m512_n512_v7x_i8_f32_1_alg».proof.Proof.Pieces
import proofs.«900587_g7700000000000588_dist_rs_then_ag_i_m512_n512_v7x_i8_f32_1_alg».proof.Proof.Local

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem close_own (K : Dev nD × CK → ℕ) (c : Dev nD) (x : OwnK) :
    iprop(cellInv ER (Rd m) (K (c, some x)) (ownCell c x) ∗ atPos ER (ownCell c x) 1 ∅ 0) ⊢ (|={Set.univ}=> semVal (ownCell c x) 0 : sProp 𝕄) :=
  Rounds.cell_close ER (Rd m) (Set.mem_univ (K (c, some x))) (fun h => h) (R := 1) (duties_later m (ownCell c x))

theorem join_x (c : Dev nD) :
    iprop(xOwn c (xst m c) ∗ bigSepL allKJ fun kj => pts (xSrc c kj.1 kj.2) c fullShare (xst m c)) ⊢ (stg c cc0_stg0_0 (xst m c) : sProp 𝕄) := by
  iintro H
  iexists (xst m c)
  isplitr; · ipureintro; rfl
  iapply (x_split (F := F) c (xst m c)).2
  iexact H

theorem share_join_of (c : Dev nD) (k : Fin 2) (fd : Fin 7 → Buf (Elt F) ((c : Thread nD τ).loc cc0_stg1_0)) :
    (bigSepL allJ fun j => pts (oRows c k) c (agQ j) ((oRows c k).view.write (Elt F) (fd j) (redV m c k) Finset.univ) : sProp 𝕄)
      ⊢ pts (oRows c k) c fullShare (outFin m) := by
  have e : (fun j : Fin 7 => (pts (oRows c k) c (agQ j) ((oRows c k).view.write (Elt F) (fd j) (redV m c k) Finset.univ) : sProp 𝕄))
      = fun j : Fin 7 => pts (oRows c k) c (agQ j) (outFin m) :=
    funext fun j => pts_congr (oRows c k) c (agQ j) _ _ (outFin_on_band m c k (fd j))
  rw [e]
  exact (share_split (oRows c k) c (outFin m)).2

theorem join_out (c : Dev nD) (fd : Fin 2 × Fin 7 → Buf (Elt F) ((c : Thread nD τ).loc cc0_stg1_0)) :
    iprop((pts (oRows c 0) c fullShare (outFin m) ∗ pts (oRows c 1) c fullShare (outFin m))
        ∗ bigSepL allKJ fun kj => pts (oRows (peer c kj.2) kj.1) c fullShare
            ((oRows (peer c kj.2) kj.1).view.write (Elt F) (fd kj) (redV m (peer c kj.2) kj.1) Finset.univ))
      ⊢ (stg c cc0_stg1_0 (outFin m) : sProp 𝕄) := by
  have e : (fun kj : Fin 2 × Fin 7 => (pts (oRows (peer c kj.2) kj.1) c fullShare
        ((oRows (peer c kj.2) kj.1).view.write (Elt F) (fd kj) (redV m (peer c kj.2) kj.1) Finset.univ) : sProp 𝕄))
      = fun kj : Fin 2 × Fin 7 => pts (oRows (peer c kj.2) kj.1) c fullShare (outFin m) :=
    funext fun kj => pts_congr (oRows (peer c kj.2) kj.1) c fullShare _ _ (outFin_on_band m (peer c kj.2) kj.1 (fd kj))
  rw [e]
  iintro H
  iexists (outFin m)
  isplitr; · ipureintro; rfl
  iapply (out_split (F := F) c (outFin m)).2
  iexact H

/-- Choices made piece by piece over a listed index type gather into one choice function. -/
theorem bigSepL_exists {I Y : Type} [Fintype I] [DecidableEq I] [Nonempty Y] (l : List I) (hu : (Finset.univ : Finset I) = l.toFinset)
    (hn : l.Nodup) (P : I → Y → sProp 𝕄) :
    (bigSepL l fun i => iprop(∃ y, P i y)) ⊢ iprop(∃ y : I → Y, bigSepL l fun i => P i (y i)) := by
  rw [← bigSep_univ_eq_bigSepL l hu hn]
  refine (BI.bigSep_exists_pi Finset.univ P).trans ?_
  iintro ⟨%y, H⟩
  iexists y
  rw [← bigSep_univ_eq_bigSepL l hu hn]
  iexact H

theorem share_join_ex (c : Dev nD) (k : Fin 2) :
    (bigSepL allJ fun j => iprop(∃ fd, pts (oRows c k) c (agQ j) ((oRows c k).view.write (Elt F) fd (redV m c k) Finset.univ)) : sProp 𝕄)
      ⊢ pts (oRows c k) c fullShare (outFin m) := by
  haveI : Nonempty (Buf (Elt F) ((c : Thread nD τ).loc cc0_stg1_0)) := ⟨outFin m⟩
  refine (bigSepL_exists allJ (by decide) (by decide) (fun (j : Fin 7) (fd : Buf (Elt F) ((c : Thread nD τ).loc cc0_stg1_0)) =>
    (pts (oRows c k) c (agQ j) ((oRows c k).view.write (Elt F) fd (redV m c k) Finset.univ) : sProp 𝕄))).trans ?_
  iintro ⟨%fd, H⟩
  iapply (share_join_of m c k fd)
  iexact H

theorem join_out_ex (c : Dev nD) :
    iprop((pts (oRows c 0) c fullShare (outFin m) ∗ pts (oRows c 1) c fullShare (outFin m))
        ∗ bigSepL allKJ fun kj => iprop(∃ fd, pts (oRows (peer c kj.2) kj.1) c fullShare
            ((oRows (peer c kj.2) kj.1).view.write (Elt F) fd (redV m (peer c kj.2) kj.1) Finset.univ)))
      ⊢ (stg c cc0_stg1_0 (outFin m) : sProp 𝕄) := by
  haveI : Nonempty (Buf (Elt F) ((c : Thread nD τ).loc cc0_stg1_0)) := ⟨outFin m⟩
  iintro ⟨H01, H⟩
  ihave H' := (bigSepL_exists allKJ (by decide) (by decide) (fun (kj : Fin 2 × Fin 7) (fd : Buf (Elt F) ((c : Thread nD τ).loc cc0_stg1_0)) =>
    (pts (oRows (peer c kj.2) kj.1) c fullShare ((oRows (peer c kj.2) kj.1).view.write (Elt F) fd (redV m (peer c kj.2) kj.1) Finset.univ) : sProp 𝕄))) $$ H
  icases H' with ⟨%fd, H'⟩
  iapply (join_out m c fd)
  isplitl [H01] <;> iassumption

include m in
/-- Pairwise disjoint slots, each at some contents, join into the landing scratch whole at some contents. -/
theorem join_scr_ex (c : Dev nD) :
    iprop(((∃ g, pts (rSlot 0 0) c fullShare g) ∗ (∃ g, pts (rSlot 1 0) c fullShare g))
        ∗ bigSepL allKJ fun kj => iprop(∃ g, pts (rSlot kj.1 (slotB kj.2)) c fullShare g))
      ⊢ (∃ f, scrPts c f : sProp 𝕄) := by
  haveI : Nonempty (Buf (Elt F) ((c : Thread nD τ).loc cc0_scratch0)) := ⟨m _⟩
  refine ((slots_list fun t : Fin 2 × Fin 8 => iprop(∃ g, ((c : Thread nD τ).loc cc0_scratch0) ↦[slotR t.1 t.2]{fullShare} g)).2.trans
    (BI.bigSep_exists_pi Finset.univ fun (t : Fin 2 × Fin 8) g => (((c : Thread nD τ).loc cc0_scratch0) ↦[slotR t.1 t.2]{fullShare} g : sProp 𝕄))).trans ?_
  iintro ⟨%fs, H⟩
  ihave H := (pointsTo_biUnion_join Finset.univ (fun t : Fin 2 × Fin 8 => slotR t.1 t.2) fs (m _) slotR_disj) $$ H
  icases H with ⟨%g, -, H⟩
  iexists g
  unfold scrPts
  rw [pts_cover (F := F) (ℓ := (c : Thread nD τ).loc cc0_scratch0) Finset.univ (fun t : Fin 2 × Fin 8 => slotR t.1 t.2) fullShare g slotR_cover slotR_disj,
    pointsTo_biUnion (ℓ := (c : Thread nD τ).loc cc0_scratch0) Finset.univ (fun t : Fin 2 × Fin 8 => slotR t.1 t.2) slotR_disj]
  exact .rfl

end Cert.KernelIdeal.Proto

end
-- ==== Proof.Restate.lean ====
import proofs.«900587_g7700000000000588_dist_rs_then_ag_i_m512_n512_v7x_i8_f32_1_alg».proof.Proof.State

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

open Idealize.ShloMosaic.Tactic

theorem ownPay_rsS (c : Dev nD) (k : Fin 2) (j : Fin 7) :
    (ownPay m c (0, k, j) : sProp 𝕄) = iprop((xSrc c k j).view.loc (c : Thread nD τ) ↦[(xSrc c k j).view.set]{fullShare} xst m c) := rfl

theorem ownPay_rsR (c : Dev nD) (k : Fin 2) (j : Fin 7) :
    (ownPay m c (1, k, j) : sProp 𝕄) = iprop(∃ fd, (rSlot k (slotOf j)).view.loc (c : Thread nD τ) ↦[(rSlot k (slotOf j)).view.set]{fullShare}
      ((rSlot k (slotOf j)).view.write (Elt F) fd (recvd m c k j) Finset.univ)) := rfl

theorem ownPay_agS (c : Dev nD) (k : Fin 2) (j : Fin 7) :
    (ownPay m c (2, k, j) : sProp 𝕄) = iprop(∃ fd, (oRows c k).view.loc (c : Thread nD τ) ↦[(oRows c k).view.set]{agQ j}
      ((oRows c k).view.write (Elt F) fd (redV m c k) Finset.univ)) := rfl

theorem ownPay_agR (c : Dev nD) (k : Fin 2) (j : Fin 7) :
    (ownPay m c (3, k, j) : sProp 𝕄) = iprop(∃ fd, (oRows (sender c j) k).view.loc (c : Thread nD τ) ↦[(oRows (sender c j) k).view.set]{fullShare}
      ((oRows (sender c j) k).view.write (Elt F) fd (redV m (sender c j) k) Finset.univ)) := rfl

theorem ownPay_rsR_of (c' c : Dev nD) (k : Fin 2) (j : Fin 7) (h : sender c' j = c) :
    (ownPay m c' (1, k, j) : sProp 𝕄) = iprop(∃ fd, (rSlot k (slotOf j)).view.loc (c' : Thread nD τ) ↦[(rSlot k (slotOf j)).view.set]{fullShare}
      ((rSlot k (slotOf j)).view.write (Elt F) fd ((xSrc c k j).view.read (Elt F) (xst m c)) Finset.univ)) := by
  subst h; rfl

theorem ownPay_agR_of (c' c : Dev nD) (k : Fin 2) (j : Fin 7) (h : sender c' j = c) :
    (ownPay m c' (3, k, j) : sProp 𝕄) = iprop(∃ fd, (oRows c k).view.loc (c' : Thread nD τ) ↦[(oRows c k).view.set]{fullShare}
      ((oRows c k).view.write (Elt F) fd (redV m c k) Finset.univ)) := by
  subst h; rfl

omit [FloatOps F] in
theorem barPayJ_of (c' c : Dev nD) (j : Fin 7) (h : sender c' j = c) : (barPayJ (F := F) c' j : sProp 𝕄) =
    iprop((∃ f, (rSlot 0 (slotB j)).view.loc (c : Thread nD τ) ↦[(rSlot 0 (slotB j)).view.set]{fullShare} f)
      ∗ (∃ f, (rSlot 1 (slotB j)).view.loc (c : Thread nD τ) ↦[(rSlot 1 (slotB j)).view.set]{fullShare} f)
      ∗ (∃ f, (oRows c' 0).view.loc (c : Thread nD τ) ↦[(oRows c' 0).view.set]{fullShare} f)
      ∗ (∃ f, (oRows c' 1).view.loc (c : Thread nD τ) ↦[(oRows c' 1).view.set]{fullShare} f)) := by
  subst h; rfl

end Cert.KernelIdeal.Proto

end
-- ==== Proof.Ledger.lean ====
import proofs.«900587_g7700000000000588_dist_rs_then_ag_i_m512_n512_v7x_i8_f32_1_alg».proof.Proof.State

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

def owedFrom (c : Dev nD) (n : ℕ) : CellTallies nD τ sig Unit := owedL (List.drop n (payList c))

theorem owedFrom_zero (c : Dev nD) : O₀ c = owedFrom c 0 := rfl

theorem payList_length (c : Dev nD) : (payList c).length = 35 := rfl

theorem owedFrom_step (c : Dev nD) (n : ℕ) (h : n < 35) :
    owedFrom c n = owedFrom c (n + 1)
      + tallyAt ((payList c)[n]'(by rw [payList_length]; exact h)).1 () ((payList c)[n]'(by rw [payList_length]; exact h)).2 := by
  unfold owedFrom
  rw [List.drop_eq_getElem_cons (by rw [payList_length]; exact h), owedL_cons]

theorem owed_bar (c : Dev nD) (j : Fin 7) : owedFrom c j.val = owedFrom c (j.val + 1) + tallyAt (barCell (peer c j)) () 1 := by
  have h : j.val < 35 := by have := j.isLt; omega
  have e : (payList c)[j.val]'(by rw [payList_length]; exact h) = (barCell (peer c j), 1) := by
    fin_cases j <;> rfl
  rw [owedFrom_step c j.val h, e]

theorem owed_rs (c : Dev nD) (k : Fin 2) (j : Fin 7) :
    owedFrom c (7 + 7 * k.val + j.val) = owedFrom c (7 + 7 * k.val + j.val + 1) + tallyAt (rsR (peer c j) k j) () NW := by
  have h : 7 + 7 * k.val + j.val < 35 := by have := j.isLt; have := k.isLt; omega
  have e : (payList c)[7 + 7 * k.val + j.val]'(by rw [payList_length]; exact h) = (rsR (peer c j) k j, NW) := by
    fin_cases k <;> fin_cases j <;> rfl
  rw [owedFrom_step c _ h, e]

theorem owed_ag (c : Dev nD) (k : Fin 2) (j : Fin 7) :
    owedFrom c (21 + 7 * k.val + j.val) = owedFrom c (21 + 7 * k.val + j.val + 1) + tallyAt (agR (peer c j) k j) () NW := by
  have h : 21 + 7 * k.val + j.val < 35 := by have := j.isLt; have := k.isLt; omega
  have e : (payList c)[21 + 7 * k.val + j.val]'(by rw [payList_length]; exact h) = (agR (peer c j) k j, NW) := by
    fin_cases k <;> fin_cases j <;> rfl
  rw [owedFrom_step c _ h, e]

theorem owedFrom_end (c : Dev nD) : owedFrom c 35 = 0 := by
  unfold owedFrom
  rw [List.drop_of_length_le (by rw [payList_length])]
  rfl

theorem drop_seven (c : Dev nD) : List.drop 7 (payList c)
    = allKJ.map (fun kj => (rsR (peer c kj.2) kj.1 kj.2, NW)) ++ allKJ.map (fun kj => (agR (peer c kj.2) kj.1 kj.2, NW)) := rfl

theorem drop_twentyone (c : Dev nD) : List.drop 21 (payList c) = allKJ.map (fun kj => (agR (peer c kj.2) kj.1 kj.2, NW)) := rfl

theorem mayWait_bar (c : Dev nD) : (levAts L lv : sProp 𝕄) ⊢ MayWait (c : Thread nD τ) (.reg barS) () (owedFrom c 7) := by
  unfold owedFrom
  refine mayWait_owedL c (.reg barS) _ fun x hx => ?_
  have h1 : lv ((c : Thread nD τ), SemLoc.reg barS) () = 1 := lv_bar c
  rw [h1]
  rw [drop_seven] at hx
  rcases List.mem_append.mp hx with hx | hx
  · obtain ⟨kj, -, rfl⟩ := List.mem_map.mp hx; exact ⟨rfl, by rw [lv_rsR]; decide⟩
  · obtain ⟨kj, -, rfl⟩ := List.mem_map.mp hx; exact ⟨rfl, by rw [lv_agR]; decide⟩

theorem mayWait_rsR (c : Dev nD) (k : Fin 2) (j : Fin 7) (n : ℕ) (hn : n = 21 ∨ n = 28) :
    (levAts L lv : sProp 𝕄) ⊢ MayWait (c : Thread nD τ) (.dma (dsem 1 k j)) () (owedFrom c n) := by
  unfold owedFrom
  refine mayWait_owedL c (.dma (dsem 1 k j)) _ fun x hx => ?_
  have h2 : lv ((c : Thread nD τ), SemLoc.dma (dsem 1 k j)) () = 2 := lv_rsR c k j
  rw [h2]
  have hx' : x ∈ List.drop 21 (payList c) := by
    rcases hn with rfl | rfl
    · exact hx
    · exact List.drop_subset_drop_left (payList c) (by decide : 21 ≤ 28) hx
  rw [drop_twentyone] at hx'
  obtain ⟨kj, -, rfl⟩ := List.mem_map.mp hx'
  exact ⟨rfl, by rw [lv_agR]; decide⟩

theorem mayWait_end (c : Dev nD) (sm : SemLoc sig) : (levAts L lv : sProp 𝕄) ⊢ MayWait (c : Thread nD τ) sm () (owedFrom c 35) := by
  rw [owedFrom_end]; exact mayWait_zero' c sm

end Cert.KernelIdeal.Proto

end
-- ==== Proof.Steps.lean ====
import proofs.«900587_g7700000000000588_dist_rs_then_ag_i_m512_n512_v7x_i8_f32_1_alg».proof.Proof.Restate
import proofs.«900587_g7700000000000588_dist_rs_then_ag_i_m512_n512_v7x_i8_f32_1_alg».proof.Proof.BodyAux
import proofs.«900587_g7700000000000588_dist_rs_then_ag_i_m512_n512_v7x_i8_f32_1_alg».proof.Proof.Ledger
import proofs.«900587_g7700000000000588_dist_rs_then_ag_i_m512_n512_v7x_i8_f32_1_alg».proof.Proof.Finish

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

open Idealize.ShloMosaic.Tactic

variable (K : Dev nD × CK → ℕ)

/-- A device whose number is `c`'s plus `j + 1` modulo eight is `c`'s peer under offset index `j`. -/
theorem dev_eq (c : Dev nD) (j : Fin 7) {v : ℕ} {h : v < nD} (e : v = (c.val + (j.val + 1)) % 8) : (⟨v, h⟩ : Dev nD) = peer c j :=
  Fin.ext e

/-- `c` pays its unit to the `j`-th peer's barrier cell, handing over the two slots and two bands that peer will write. -/
theorem sig_step {α : Type} (c : Dev nD) (j : Fin 7) (i : ℕ) {n : Dev nD} (hn : n = peer c j)
    {f0 f1 : Buf (Elt F) ((c : Thread nD τ).loc cc0_scratch0)} {g0 g1 : Buf (Elt F) ((c : Thread nD τ).loc cc0_stg1_0)}
    {W : Waits sig Unit} {kont : PUnit → Prog (TpuEff nD τ sig (Elt F) Λ₀ .tc) α} {Q : α → sProp 𝕄} (hi : i = j.val := by rfl) :
    iprop(records m K ∗ dutyTok ER (barCell (peer c j)) 0 (dOf j) ∗ owes (c : Thread nD τ) (owedFrom c i) W
        ∗ pts (rSlot 0 (slotB j)) c fullShare f0 ∗ pts (rSlot 1 (slotB j)) c fullShare f1
        ∗ pts (oRows (peer c j) 0) c fullShare g0 ∗ pts (oRows (peer c j) 1) c fullShare g1)
      ⊢ iprop((owes (c : Thread nD τ) (owedFrom c (i + 1)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n : Dev nD) : Thread nD τ) barS 1) kont) Q) := by
  subst hn hi
  iintro ⟨#R, Ht, HO, H0, H1, H2, H3⟩
  iapply (Rounds.wp_signal 𝒱₀ ER (Rd m) (c : Thread nD τ) none (mem_duties_bar_dOf m (peer c j) j) (amount_bar m (peer c j) (dOf j)) ()
    (owedFrom c (j.val + 1)) (owed_bar c j))
  isplitr; · iapply (records_inv_bar m K (peer c j)); iexact R
  isplitl [HO]; · iexact HO
  isplitl [Ht]; · iexact Ht
  isplitl
  · rw [payload_bar_dOf, barPayJ_of (peer c j) c j (sender_peer c j)]
    isplitl [H0]; · iexists f0; iexact H0
    isplitl [H1]; · iexists f1; iexact H1
    isplitl [H2]; · iexists g0; iexact H2
    iexists g1; iexact H3
  · iapply (records_reached_bar m K (peer c j)); iexact R

/-- What one peer's barrier unit hands `c`: that peer's two slots for `c`'s rows and `c`'s two bands of that peer's result block. -/
abbrev barGotAt (c n : Dev nD) (s : Fin 8) : sProp 𝕄 :=
  iprop((∃ f, pts (rSlot 0 s) n fullShare f) ∗ (∃ f, pts (rSlot 1 s) n fullShare f)
    ∗ (∃ f, pts (oRows c 0) n fullShare f) ∗ (∃ f, pts (oRows c 1) n fullShare f))

abbrev barGot (c : Dev nD) (j : Fin 7) : sProp 𝕄 := barGotAt (F := F) c (peer c j) (slotOf j)

omit [FloatOps F] in
/-- The unit met under offset index `rev j` as a sender's is the `j`-th peer's. -/
theorem barPayJ_rev (c : Dev nD) (j : Fin 7) : (barPayJ (F := F) c (rev j) : sProp 𝕄) = barGot c j := by
  show barGotAt (F := F) c (sender c (rev j)) (slotB (rev j)) = _
  rw [sender_rev, ← slotOf_rev (rev j), rev_rev]

/-- After the seven units of its own barrier cell, `c` holds every peer's hand-over; all it still owes goes to cells above. -/
theorem bar_step {α : Type} (c : Dev nD) {W : Waits sig Unit}
    {kont : PUnit → Prog (TpuEff nD τ sig (Elt F) Λ₀ .tc) α} {Q : α → sProp 𝕄} :
    iprop(records m K ∗ levAts L lv ∗ cred (tallyAt (barCell c) () 7) ∗ owes (c : Thread nD τ) (owedFrom c 7) W ∗ atPos ER (barCell c) 0 ∅ 0)
      ⊢ iprop(((owes (c : Thread nD τ) (owedFrom c 7) (insert (.reg barS, ()) W) ∗ atPos ER (barCell c) 1 ∅ 0
              ∗ barGot (F := F) c 0 ∗ barGot (F := F) c 1 ∗ barGot (F := F) c 2 ∗ barGot (F := F) c 3 ∗ barGot (F := F) c 4 ∗ barGot (F := F) c 5 ∗ barGot (F := F) c 6)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 7) kont) Q) := by
  have h := Rounds.wp_wait_rest_token 𝒱₀ ER (Rd m) (c : Thread nD τ) none (Γ := .empty) (Q := Q) (k := kont)
    (defs := defs₀ (F := F)) (fun K' => wpE_semWait_eq 𝒱₀ (c : Thread nD τ) none Set.univ K') (Set.mem_univ (K (c, none))) ()
    (k' := 7) (O := owedFrom c 7) (W := W) (R := 0) (m := 0) (T := ∅) (by rw [expect_bar])
  rw [rest_bar] at h
  iintro ⟨#R, #Hl, Hc, HO, Ha⟩ Hk
  iapply h $$ [Hc HO Ha]
  · isplitr; · iapply (records_inv_bar m K c); iexact R
    isplitl [Hc]; · iexact Hc
    isplitl [HO]; · iexact HO
    isplitr; · iapply (mayWait_bar c); iexact Hl
    iexact Ha
  iintro ⟨HO, Ha, -, H0, H1, H2, H3, H4, H5, H6⟩
  iapply Hk
  isplitl [HO]; · iexact HO
  isplitl [Ha]; · iexact Ha
  isplitl [H6]; · iapply (Entails.of_eq (barPayJ_rev c 0)); iexact H6
  isplitl [H5]; · iapply (Entails.of_eq (barPayJ_rev c 1)); iexact H5
  isplitl [H4]; · iapply (Entails.of_eq (barPayJ_rev c 2)); iexact H4
  isplitl [H3]; · iapply (Entails.of_eq (barPayJ_rev c 3)); iexact H3
  isplitl [H2]; · iapply (Entails.of_eq (barPayJ_rev c 4)); iexact H2
  isplitl [H1]; · iapply (Entails.of_eq (barPayJ_rev c 5)); iexact H1
  iapply (Entails.of_eq (barPayJ_rev c 6)); iexact H0

/-- The scatter transfer of wave `k` to the `j`-th peer: `c` lends its band for that peer and writes that peer's slot. -/
theorem rs_send {α : Type} (c : Dev nD) (k : Fin 2) (j : Fin 7) (i : ℕ) {n : Dev nD} (hn : n = peer c j) {W : Waits sig Unit}
    {hsc : (rSlot k (slotOf j)).view.ref.isScScratch = false} {hsrc : (xSrc c k j).view.WordExact} {hdst : (rSlot k (slotOf j)).view.WordExact}
    {hsem : DmaTarget.Typed .vmem (.dma (dsem 1 k j)) (.remote ((n : Dev nD) : Thread nD τ) (rSlot k (slotOf j)) (.dma (dsem 0 k j)) hsc)}
    {kont : PUnit → Prog (TpuEff nD τ sig (Elt F) Λ₀ .tc) α} {Q : α → sProp 𝕄} (hi : i = 7 + 7 * k.val + j.val := by rfl) :
    iprop(records m K ∗ pts (xSrc c k j) c fullShare (xst m c) ∗ (∃ fd, pts (rSlot k (slotOf j)) (peer c j) fullShare fd)
        ∗ owes (c : Thread nD τ) (owedFrom c i) W
        ∗ dutyTok ER (rsS c k j) 0 (0 : Dn) ∗ dutyTok ER (rsR (peer c j) k j) 0 (0 : Dn))
      ⊢ iprop(((cred (tallyAt (rsS c k j) () NW) ∗ owes (c : Thread nD τ) (owedFrom c (i + 1)) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSrc c k j) (.remote ((n : Dev nD) : Thread nD τ) (rSlot k (slotOf j)) (.dma (dsem 0 k j)) hsc)
                (.dma (dsem 1 k j)) hsrc hdst hsem) kont) Q) := by
  subst hn hi
  iintro ⟨#R, Hx, ⟨%fd, Hd⟩, HO, Ht1, Ht2⟩
  iapply (Rounds.wp_send_pointsTo 𝒱₀ ER (Rd m) (c : Thread nD τ) none (Γ := .empty) (c' := ((peer c j : Dev nD) : Thread nD τ)) (src := xSrc c k j) (dst := rSlot k (slotOf j))
    (q := fullShare) (fs := xst m c) (fd := fd) (κ₁ := K (c, some (0, k, j))) (κ₂ := K (peer c j, some (1, k, j)))
    (mem_duties_own m c (0, k, j)) (mem_duties_own m (peer c j) (1, k, j)) () () NW (amount_rSlot k (slotOf j) (dsem 1 k j))
    (amount_own m c (0, k, j) 0) (amount_own m (peer c j) (1, k, j) 0) (owedFrom c (7 + 7 * k.val + j.val + 1)) (owed_rs c k j)
    (by rw [payload_own, ownPay_rsS])
    (by rw [payload_own, ownPay_rsR_of m (peer c j) c k j (sender_peer c j)]; iintro H; iexists fd; iexact H))
  isplitr; · iapply (records_inv_own m K c (0, k, j)); iexact R
  isplitr; · iapply (records_inv_own m K (peer c j) (1, k, j)); iexact R
  isplitl [Hx]; · iexact Hx
  isplitl [Hd]; · iexact Hd
  isplitl [HO]; · iexact HO
  isplitl [Ht1]; · iexact Ht1
  isplitr; · iapply (records_reached_own m K c (0, k, j)); iexact R
  isplitl [Ht2]; · iexact Ht2
  iapply (records_reached_own m K (peer c j) (1, k, j)); iexact R

/-- The gather transfer of wave `k` to the `j`-th peer: `c` lends a share of its summed band and writes that peer's same band. -/
theorem ag_send {α : Type} (c : Dev nD) (k : Fin 2) (j : Fin 7) (i : ℕ) {n : Dev nD} (hn : n = peer c j)
    {f : Buf (Elt F) ((oRows c k).view.loc (c : Thread nD τ))} {W : Waits sig Unit}
    {hsc : (oRows c k).view.ref.isScScratch = false} {hsrc : (oRows c k).view.WordExact} {hdst : (oRows c k).view.WordExact}
    {hsem : DmaTarget.Typed .vmem (.dma (dsem 3 k j)) (.remote ((n : Dev nD) : Thread nD τ) (oRows c k) (.dma (dsem 2 k j)) hsc)}
    {kont : PUnit → Prog (TpuEff nD τ sig (Elt F) Λ₀ .tc) α} {Q : α → sProp 𝕄} (hi : i = 21 + 7 * k.val + j.val := by rfl) :
    iprop(records m K ∗ pts (oRows c k) c (agQ j) ((oRows c k).view.write (Elt F) f (redV m c k) Finset.univ)
        ∗ (∃ fd, pts (oRows c k) (peer c j) fullShare fd) ∗ owes (c : Thread nD τ) (owedFrom c i) W
        ∗ dutyTok ER (agS c k j) 0 (0 : Dn) ∗ dutyTok ER (agR (peer c j) k j) 0 (0 : Dn))
      ⊢ iprop(((cred (tallyAt (agS c k j) () NW) ∗ owes (c : Thread nD τ) (owedFrom c (i + 1)) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (oRows c k) (.remote ((n : Dev nD) : Thread nD τ) (oRows c k) (.dma (dsem 2 k j)) hsc)
                (.dma (dsem 3 k j)) hsrc hdst hsem) kont) Q) := by
  subst hn hi
  iintro ⟨#R, Hs, ⟨%fd, Hd⟩, HO, Ht1, Ht2⟩
  iapply (Rounds.wp_send_pointsTo 𝒱₀ ER (Rd m) (c : Thread nD τ) none (Γ := .empty) (c' := ((peer c j : Dev nD) : Thread nD τ)) (src := oRows c k) (dst := oRows c k)
    (q := agQ j) (fs := (oRows c k).view.write (Elt F) f (redV m c k) Finset.univ) (fd := fd)
    (κ₁ := K (c, some (2, k, j))) (κ₂ := K (peer c j, some (3, k, j)))
    (mem_duties_own m c (2, k, j)) (mem_duties_own m (peer c j) (3, k, j)) () () NW (amount_oRows c k (dsem 3 k j))
    (amount_own m c (2, k, j) 0) (amount_own m (peer c j) (3, k, j) 0) (owedFrom c (21 + 7 * k.val + j.val + 1)) (owed_ag c k j)
    (by rw [payload_own, ownPay_agS]; iintro H; iexists f; iexact H)
    (by rw [payload_own, ownPay_agR_of m (peer c j) c k j (sender_peer c j), View.read_write_univ]; iintro H; iexists fd; iexact H))
  isplitr; · iapply (records_inv_own m K c (2, k, j)); iexact R
  isplitr; · iapply (records_inv_own m K (peer c j) (3, k, j)); iexact R
  isplitl [Hs]; · iexact Hs
  isplitl [Hd]; · iexact Hd
  isplitl [HO]; · iexact HO
  isplitl [Ht1]; · iexact Ht1
  isplitr; · iapply (records_reached_own m K c (2, k, j)); iexact R
  isplitl [Ht2]; · iexact Ht2
  iapply (records_reached_own m K (peer c j) (3, k, j)); iexact R

/-- The wait for a transfer cell's one unit: what `c` still owes goes to cells above, or is nothing, so it may wait. -/
theorem wait_step {α : Type} (c : Dev nD) (kd : Fin 4) (k : Fin 2) (j : Fin 7) (i : ℕ)
    {P : sProp 𝕄} (hP : ownPay m c (kd, k, j) = P) {W : Waits sig Unit}
    {sp sp' : Space} {s s' : Shape} {e e' : EltTy} {κ' : Kind}
    (src : Memref sig .tc sp' s' e') (dst : Memref sig κ' sp s e) {hsrc : src.view.WordExact} {hdst : dst.view.WordExact}
    (hN : dst.view.dmaCredit = NW)
    {kont : PUnit → Prog (TpuEff nD τ sig (Elt F) Λ₀ .tc) α} {Q : α → sProp 𝕄}
    (hi : (kd = 1 ∧ (i = 21 ∨ i = 28)) ∨ i = 35 := by decide) :
    iprop(records m K ∗ levAts L lv ∗ cred (tallyAt (ownCell c (kd, k, j)) () NW) ∗ owes (c : Thread nD τ) (owedFrom c i) W
        ∗ atPos ER (ownCell c (kd, k, j)) 0 ∅ 0)
      ⊢ iprop(((owes (c : Thread nD τ) (owedFrom c i) (insert (.dma (dsem kd k j), ()) W) ∗ atPos ER (ownCell c (kd, k, j)) 1 ∅ 0 ∗ P)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem kd k j) src dst hsrc hdst) kont) Q) := by
  subst hP
  have hmw : (levAts L lv : sProp 𝕄) ⊢ MayWait (c : Thread nD τ) (.dma (dsem kd k j)) () (owedFrom c i) := by
    rcases hi with ⟨rfl, h⟩ | rfl
    · exact mayWait_rsR c k j i h
    · exact mayWait_end c _
  have hw : ∀ K' : PUnit → sProp 𝕄, wpE (defs₀ (F := F)) 𝒱₀ (c : Thread nD τ) none Set.univ (.waitDma2 (dsem kd k j) src dst hsrc hdst) K'
      = waitSpec (c : Thread nD τ) Set.univ (.dma (dsem kd k j)) NW K' :=
    fun K' => (wpE_waitDma2_eq 𝒱₀ (c : Thread nD τ) none Set.univ K').trans (by rw [hN])
  have h := Rounds.wp_wait_rest_token 𝒱₀ ER (Rd m) (c : Thread nD τ) none (Γ := .empty) (Q := Q) (k := kont) hw
    (Set.mem_univ (K (c, some (kd, k, j)))) () (O := owedFrom c i) (W := W) (R := 0) (m := 0) (T := ∅)
    (by rw [expect_own m c (kd, k, j)]; exact Nat.zero_add _)
  rw [rest_own m c (kd, k, j)] at h
  iintro ⟨#R, #Hl, Hc, HO, Ha⟩ Hk
  iapply h $$ [Hc HO Ha]
  · isplitr; · iapply (records_inv_own m K c (kd, k, j)); iexact R
    isplitl [Hc]; · iexact Hc
    isplitl [HO]; · iexact HO
    isplitr; · iapply hmw; iexact Hl
    iexact Ha
  iintro ⟨HO, Ha, -, Hp⟩
  iapply Hk
  isplitl [HO]; · iexact HO
  isplitl [Ha]; · iexact Ha
  iexact Hp

theorem close_step (c : Dev nD) (x : OwnK) :
    iprop(records m K ∗ atPos ER (ownCell c x) 1 ∅ 0) ⊢ (|={Set.univ}=> semVal (ownCell c x) 0 : sProp 𝕄) := by
  iintro ⟨#R, Ha⟩
  iapply (close_own m K c x)
  isplitr; · iapply (records_inv_own m K c x); iexact R
  iexact Ha

/-- Past their one round the 56 transfer cells are closed, their counters handed back at zero. -/
theorem close_all (c : Dev nD) :
    iprop(records m K ∗ bigSep Finset.univ fun x : OwnK => atPos ER (ownCell c x) 1 ∅ 0)
      ⊢ (|={Set.univ}=> bigSep Finset.univ fun x : OwnK => semVal (ownCell c x) 0 : sProp 𝕄) :=
  ((sep_mono_left (BI.bigSep_of_persistent Finset.univ (records m K))).trans
    (by rw [← bigSep_sep']; exact bigSep_mono fun x _ => close_step m K c x)).trans (bigSep_fupd _ _)

end Cert.KernelIdeal.Proto

end
-- ==== Proof.BodyState.lean ====
import proofs.«900587_g7700000000000588_dist_rs_then_ag_i_m512_n512_v7x_i8_f32_1_alg».proof.Proof.Restate
import proofs.«900587_g7700000000000588_dist_rs_then_ag_i_m512_n512_v7x_i8_f32_1_alg».proof.Proof.BodyAux

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

def S0 (K : Dev nD × CK → ℕ) (c : Dev nD) (W : Waits sig Unit)
    (f0 : Buf (Elt F) ((c : Thread nD τ).loc cc0_scratch0)) (g1 : Buf (Elt F) ((c : Thread nD τ).loc cc0_stg1_0)) : sProp 𝕄 :=
  iprop(records m K ∗ levAts L lv
    ∗ (atPos ER (barCell c) 0 ∅ 0
        ∗ sep14 (fun k j => atPos ER (rsS c k j) 0 ∅ 0) ∗ sep14 (fun k j => atPos ER (rsR c k j) 0 ∅ 0)
        ∗ sep14 (fun k j => atPos ER (agS c k j) 0 ∅ 0) ∗ sep14 (fun k j => atPos ER (agR c k j) 0 ∅ 0))
    ∗ (sep7 (fun j => dutyTok ER (barCell (peer c j)) 0 (dOf j))
        ∗ sep14 (fun k j => iprop(dutyTok ER (rsS c k j) 0 (0 : Dn) ∗ dutyTok ER (rsR (peer c j) k j) 0 (0 : Dn)))
        ∗ sep14 (fun k j => iprop(dutyTok ER (agS c k j) 0 (0 : Dn) ∗ dutyTok ER (agR (peer c j) k j) 0 (0 : Dn))))
    ∗ (cred (tallyAt (barCell c) () 7)
        ∗ sep14 (fun k j => cred (tallyAt (rsR c k j) () NW)) ∗ sep14 (fun k j => cred (tallyAt (agR c k j) () NW)))
    ∗ owes (c : Thread nD τ) (O₀ c) W
    ∗ ((pts (rSlot 0 0) c fullShare f0 ∗ pts (rSlot 1 0) c fullShare f0) ∗ sep14 (fun k j => pts (rSlot k (slotB j)) c fullShare f0))
    ∗ ((pts (oRows c 0) c fullShare g1 ∗ pts (oRows c 1) c fullShare g1) ∗ sep14 (fun k j => pts (oRows (peer c j) k) c fullShare g1))
    ∗ (xOwn c (xst m c) ∗ sep14 (fun k j => pts (xSrc c k j) c fullShare (xst m c))))

theorem pre_S0 (K : Dev nD × CK → ℕ) (c : Dev nD) :
    bodyPre m ρ K c ⊢ (∃ W : Waits sig Unit, ∃ f0 g1, ⌜(↑W : Set (SemLoc sig × Unit)) ⊆ (dats m ρ 0 c).bound () t₀.castSucc⌝ ∗ S0 m K c W f0 g1 : sProp 𝕄) := by
  have ho : (dats m ρ 0 c).owed t₀.castSucc = O₀ c := rfl
  unfold bodyPre ghost creds payToks S0
  rw [eq_of_bi (positions_split (F := F) c)]
  simp only [bigSepL_allJ, bigSepL_allKJ]
  iintro ⟨⟨⟨Hrec, Hpos, Htok⟩, Hcred, Hlev, ⟨%f0, Hscr⟩⟩, ⟨%W, %hW, Ho⟩, ⟨%d0, %g0, %hg0, Hx⟩, ⟨%d1, %g1, %hg1, Hout⟩⟩
  have hx : g0 = xst m c := by rw [hg0]; unfold Dat.before; rw [if_pos (Gen.fetch0_0 t₀)]; rfl
  subst hx
  have hs := (scr_split (F := F) c f0).1
  have hu := (out_split (F := F) c g1).1
  have hi := (x_split (F := F) c (xst m c)).1
  rw [bigSepL_allKJ] at hs hu hi
  unfold scrPts
  ihave Hscr' := hs $$ Hscr
  ihave Hout' := hu $$ Hout
  ihave Hx' := hi $$ Hx
  iexists W, f0, g1
  isplitr
  · ipureintro; exact hW
  rw [ho]
  isplitl [Hrec]; · iexact Hrec
  isplitl [Hlev]; · iexact Hlev
  isplitl [Hpos]; · iexact Hpos
  isplitl [Htok]; · iexact Htok
  isplitl [Hcred]; · iexact Hcred
  isplitl [Ho]; · iexact Ho
  isplitl [Hscr']; · iexact Hscr'
  isplitl [Hout']; · iexact Hout'
  iexact Hx'

theorem post_of (c : Dev nD) (W' : Waits sig Unit) :
    iprop(Φ₁ (F := F) c ∗ owes (c : Thread nD τ) 0 W' ∗ stg c cc0_stg0_0 (xst m c) ∗ stg c cc0_stg1_0 (outFin m)) ⊢ bodyPost m ρ c := by
  unfold bodyPost
  iintro ⟨HΦ, Ho, Hx, Hout⟩
  isplitl [HΦ]; · iexact HΦ
  isplitl [Ho]
  · iexists W'
    isplitr
    · ipureintro; exact fun x _ => Or.inl (Set.mem_univ x)
    · iexact Ho
  isplitl [Hx]; · iexact Hx
  iexact Hout

end Cert.KernelIdeal.Proto

end
-- ==== Proof.Body.lean ====
import proofs.«900587_g7700000000000588_dist_rs_then_ag_i_m512_n512_v7x_i8_f32_1_alg».proof.Proof.Finish
import proofs.«900587_g7700000000000588_dist_rs_then_ag_i_m512_n512_v7x_i8_f32_1_alg».proof.Proof.Steps
import proofs.«900587_g7700000000000588_dist_rs_then_ag_i_m512_n512_v7x_i8_f32_1_alg».proof.Proof.BodyState

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536 in
set_option maxHeartbeats 40000000 in
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel
  simp only [semSignalWord, semWaitWord, Prog.lift, Prog.bind_op, Prog.bind_ret, Prog.pure_eq_ret, wp_deviceId]
  iintro ⟨Hpre, Hk⟩
  ihave Hs := (pre_S0 m ρ K c) $$ Hpre
  icases Hs with ⟨%W, %f0, %g1, %hW, Hs⟩
  unfold S0
  dsimp only [sep7, sep14]
  icases Hs with ⟨#Hrec, #Hlev, ⟨HaB, ⟨HaS00, HaS01, HaS02, HaS03, HaS04, HaS05, HaS06, HaS10, HaS11, HaS12, HaS13, HaS14, HaS15, HaS16⟩, ⟨HaR00, HaR01, HaR02, HaR03, HaR04, HaR05, HaR06, HaR10, HaR11, HaR12, HaR13, HaR14, HaR15, HaR16⟩, ⟨HbS00, HbS01, HbS02, HbS03, HbS04, HbS05, HbS06, HbS10, HbS11, HbS12, HbS13, HbS14, HbS15, HbS16⟩, ⟨HbR00, HbR01, HbR02, HbR03, HbR04, HbR05, HbR06, HbR10, HbR11, HbR12, HbR13, HbR14, HbR15, HbR16⟩⟩,
    ⟨⟨HtB0, HtB1, HtB2, HtB3, HtB4, HtB5, HtB6⟩, ⟨⟨HtS00, HtR00⟩, ⟨HtS01, HtR01⟩, ⟨HtS02, HtR02⟩, ⟨HtS03, HtR03⟩, ⟨HtS04, HtR04⟩, ⟨HtS05, HtR05⟩, ⟨HtS06, HtR06⟩, ⟨HtS10, HtR10⟩, ⟨HtS11, HtR11⟩, ⟨HtS12, HtR12⟩, ⟨HtS13, HtR13⟩, ⟨HtS14, HtR14⟩, ⟨HtS15, HtR15⟩, ⟨HtS16, HtR16⟩⟩, ⟨⟨HuS00, HuR00⟩, ⟨HuS01, HuR01⟩, ⟨HuS02, HuR02⟩, ⟨HuS03, HuR03⟩, ⟨HuS04, HuR04⟩, ⟨HuS05, HuR05⟩, ⟨HuS06, HuR06⟩, ⟨HuS10, HuR10⟩, ⟨HuS11, HuR11⟩, ⟨HuS12, HuR12⟩, ⟨HuS13, HuR13⟩, ⟨HuS14, HuR14⟩, ⟨HuS15, HuR15⟩, ⟨HuS16, HuR16⟩⟩⟩,
    ⟨HcB, ⟨HcR00, HcR01, HcR02, HcR03, HcR04, HcR05, HcR06, HcR10, HcR11, HcR12, HcR13, HcR14, HcR15, HcR16⟩, ⟨HdR00, HdR01, HdR02, HdR03, HdR04, HdR05, HdR06, HdR10, HdR11, HdR12, HdR13, HdR14, HdR15, HdR16⟩⟩, HO,
    ⟨⟨Hsu0, Hsu1⟩, ⟨Hsl00, Hsl01, Hsl02, Hsl03, Hsl04, Hsl05, Hsl06, Hsl10, Hsl11, Hsl12, Hsl13, Hsl14, Hsl15, Hsl16⟩⟩, ⟨⟨Hob0, Hob1⟩, ⟨Hop00, Hop01, Hop02, Hop03, Hop04, Hop05, Hop06, Hop10, Hop11, Hop12, Hop13, Hop14, Hop15, Hop16⟩⟩, ⟨HxO, ⟨Hx00, Hx01, Hx02, Hx03, Hx04, Hx05, Hx06, Hx10, Hx11, Hx12, Hx13, Hx14, Hx15, Hx16⟩⟩⟩
  rw [owedFrom_zero]
  iapply (sig_step m K c 0 0 (dev_eq c 0 (k0_dev1_eq c))) $$ [$Hrec $HtB0 $HO $Hsl00 $Hsl10 $Hop00 $Hop10]
  iintro HO
  iapply (sig_step m K c 1 1 (dev_eq c 1 (k0_dev2_eq c))) $$ [$Hrec $HtB1 $HO $Hsl01 $Hsl11 $Hop01 $Hop11]
  iintro HO
  iapply (sig_step m K c 2 2 (dev_eq c 2 (k0_dev3_eq c))) $$ [$Hrec $HtB2 $HO $Hsl02 $Hsl12 $Hop02 $Hop12]
  iintro HO
  iapply (sig_step m K c 3 3 (dev_eq c 3 (k0_dev4_eq c))) $$ [$Hrec $HtB3 $HO $Hsl03 $Hsl13 $Hop03 $Hop13]
  iintro HO
  iapply (sig_step m K c 4 4 (dev_eq c 4 (k0_dev5_eq c))) $$ [$Hrec $HtB4 $HO $Hsl04 $Hsl14 $Hop04 $Hop14]
  iintro HO
  iapply (sig_step m K c 5 5 (dev_eq c 5 (k0_dev6_eq c))) $$ [$Hrec $HtB5 $HO $Hsl05 $Hsl15 $Hop05 $Hop15]
  iintro HO
  iapply (sig_step m K c 6 6 (dev_eq c 6 (k0_dev7_eq c))) $$ [$Hrec $HtB6 $HO $Hsl06 $Hsl16 $Hop06 $Hop16]
  iintro HO
  iapply (bar_step m K c) $$ [$Hrec $Hlev $HcB $HO $HaB]
  iintro ⟨HO, -, ⟨HpS00, HpS10, HpO00, HpO10⟩, ⟨HpS01, HpS11, HpO01, HpO11⟩, ⟨HpS02, HpS12, HpO02, HpO12⟩, ⟨HpS03, HpS13, HpO03, HpO13⟩, ⟨HpS04, HpS14, HpO04, HpO14⟩, ⟨HpS05, HpS15, HpO05, HpO15⟩, ⟨HpS06, HpS16, HpO06, HpO16⟩⟩
  iapply (rs_send m K c 0 0 7 (dev_eq c 0 (k0_dev8_eq c))) $$ [$Hrec $Hx00 $HpS00 $HO $HtS00 $HtR00]
  iintro ⟨HeS00, HO⟩
  iapply (rs_send m K c 0 1 8 (dev_eq c 1 (k0_dev9_eq c))) $$ [$Hrec $Hx01 $HpS01 $HO $HtS01 $HtR01]
  iintro ⟨HeS01, HO⟩
  iapply (rs_send m K c 0 2 9 (dev_eq c 2 (k0_dev10_eq c))) $$ [$Hrec $Hx02 $HpS02 $HO $HtS02 $HtR02]
  iintro ⟨HeS02, HO⟩
  iapply (rs_send m K c 0 3 10 (dev_eq c 3 (k0_dev11_eq c))) $$ [$Hrec $Hx03 $HpS03 $HO $HtS03 $HtR03]
  iintro ⟨HeS03, HO⟩
  iapply (rs_send m K c 0 4 11 (dev_eq c 4 (k0_dev12_eq c))) $$ [$Hrec $Hx04 $HpS04 $HO $HtS04 $HtR04]
  iintro ⟨HeS04, HO⟩
  iapply (rs_send m K c 0 5 12 (dev_eq c 5 (k0_dev13_eq c))) $$ [$Hrec $Hx05 $HpS05 $HO $HtS05 $HtR05]
  iintro ⟨HeS05, HO⟩
  iapply (rs_send m K c 0 6 13 (dev_eq c 6 (k0_dev14_eq c))) $$ [$Hrec $Hx06 $HpS06 $HO $HtS06 $HtR06]
  iintro ⟨HeS06, HO⟩
  iapply (rs_send m K c 1 0 14 (dev_eq c 0 (k0_dev15_eq c))) $$ [$Hrec $Hx10 $HpS10 $HO $HtS10 $HtR10]
  iintro ⟨HeS10, HO⟩
  iapply (rs_send m K c 1 1 15 (dev_eq c 1 (k0_dev16_eq c))) $$ [$Hrec $Hx11 $HpS11 $HO $HtS11 $HtR11]
  iintro ⟨HeS11, HO⟩
  iapply (rs_send m K c 1 2 16 (dev_eq c 2 (k0_dev17_eq c))) $$ [$Hrec $Hx12 $HpS12 $HO $HtS12 $HtR12]
  iintro ⟨HeS12, HO⟩
  iapply (rs_send m K c 1 3 17 (dev_eq c 3 (k0_dev18_eq c))) $$ [$Hrec $Hx13 $HpS13 $HO $HtS13 $HtR13]
  iintro ⟨HeS13, HO⟩
  iapply (rs_send m K c 1 4 18 (dev_eq c 4 (k0_dev19_eq c))) $$ [$Hrec $Hx14 $HpS14 $HO $HtS14 $HtR14]
  iintro ⟨HeS14, HO⟩
  iapply (rs_send m K c 1 5 19 (dev_eq c 5 (k0_dev20_eq c))) $$ [$Hrec $Hx15 $HpS15 $HO $HtS15 $HtR15]
  iintro ⟨HeS15, HO⟩
  iapply (rs_send m K c 1 6 20 (dev_eq c 6 (k0_dev21_eq c))) $$ [$Hrec $Hx16 $HpS16 $HO $HtS16 $HtR16]
  iintro ⟨HeS16, HO⟩
  iapply (copy_step m c) $$ [$HxO $Hob0 $Hob1]
  iintro ⟨HxO, Hob0, Hob1⟩
  iapply (wait_step m K c 1 0 0 21 (ownPay_rsR m c 0 0) (xSrc c 0 0) (rSlot 0 (slotOf 0)) rfl) $$ [$Hrec $Hlev $HcR00 $HO $HaR00]
  iintro ⟨HO, HaR00, ⟨%fr00, Hrs00⟩⟩
  iapply (acc_step c 0 (slotOf 0) (fun _ _ => rfl)) $$ [$Hob0 $Hrs00]
  iintro ⟨Hob0, Hrs00⟩
  iapply (wait_step m K c 1 0 1 21 (ownPay_rsR m c 0 1) (xSrc c 0 1) (rSlot 0 (slotOf 1)) rfl) $$ [$Hrec $Hlev $HcR01 $HO $HaR01]
  iintro ⟨HO, HaR01, ⟨%fr01, Hrs01⟩⟩
  iapply (acc_step c 0 (slotOf 1) (fun _ _ => rfl)) $$ [$Hob0 $Hrs01]
  iintro ⟨Hob0, Hrs01⟩
  iapply (wait_step m K c 1 0 2 21 (ownPay_rsR m c 0 2) (xSrc c 0 2) (rSlot 0 (slotOf 2)) rfl) $$ [$Hrec $Hlev $HcR02 $HO $HaR02]
  iintro ⟨HO, HaR02, ⟨%fr02, Hrs02⟩⟩
  iapply (acc_step c 0 (slotOf 2) (fun _ _ => rfl)) $$ [$Hob0 $Hrs02]
  iintro ⟨Hob0, Hrs02⟩
  iapply (wait_step m K c 1 0 3 21 (ownPay_rsR m c 0 3) (xSrc c 0 3) (rSlot 0 (slotOf 3)) rfl) $$ [$Hrec $Hlev $HcR03 $HO $HaR03]
  iintro ⟨HO, HaR03, ⟨%fr03, Hrs03⟩⟩
  iapply (acc_step c 0 (slotOf 3) (fun _ _ => rfl)) $$ [$Hob0 $Hrs03]
  iintro ⟨Hob0, Hrs03⟩
  iapply (wait_step m K c 1 0 4 21 (ownPay_rsR m c 0 4) (xSrc c 0 4) (rSlot 0 (slotOf 4)) rfl) $$ [$Hrec $Hlev $HcR04 $HO $HaR04]
  iintro ⟨HO, HaR04, ⟨%fr04, Hrs04⟩⟩
  iapply (acc_step c 0 (slotOf 4) (fun _ _ => rfl)) $$ [$Hob0 $Hrs04]
  iintro ⟨Hob0, Hrs04⟩
  iapply (wait_step m K c 1 0 5 21 (ownPay_rsR m c 0 5) (xSrc c 0 5) (rSlot 0 (slotOf 5)) rfl) $$ [$Hrec $Hlev $HcR05 $HO $HaR05]
  iintro ⟨HO, HaR05, ⟨%fr05, Hrs05⟩⟩
  iapply (acc_step c 0 (slotOf 5) (fun _ _ => rfl)) $$ [$Hob0 $Hrs05]
  iintro ⟨Hob0, Hrs05⟩
  iapply (wait_step m K c 1 0 6 21 (ownPay_rsR m c 0 6) (xSrc c 0 6) (rSlot 0 (slotOf 6)) rfl) $$ [$Hrec $Hlev $HcR06 $HO $HaR06]
  iintro ⟨HO, HaR06, ⟨%fr06, Hrs06⟩⟩
  iapply (acc_step c 0 (slotOf 6) (fun _ _ => rfl)) $$ [$Hob0 $Hrs06]
  iintro ⟨Hob0, Hrs06⟩
  ihave Hq := ((share_split (oRows c 0) c _).1.trans (Entails.of_eq (bigSepL_allJ _))) $$ Hob0
  dsimp only [sep7]
  icases Hq with ⟨Hq00, Hq01, Hq02, Hq03, Hq04, Hq05, Hq06⟩
  iapply (ag_send m K c 0 0 21 (dev_eq c 0 (k0_dev22_eq c))) $$ [$Hrec Hq00 $HpO00 $HO $HuS00 $HuR00]
  · iexact Hq00
  iintro ⟨HeA00, HO⟩
  iapply (ag_send m K c 0 1 22 (dev_eq c 1 (k0_dev23_eq c))) $$ [$Hrec Hq01 $HpO01 $HO $HuS01 $HuR01]
  · iexact Hq01
  iintro ⟨HeA01, HO⟩
  iapply (ag_send m K c 0 2 23 (dev_eq c 2 (k0_dev24_eq c))) $$ [$Hrec Hq02 $HpO02 $HO $HuS02 $HuR02]
  · iexact Hq02
  iintro ⟨HeA02, HO⟩
  iapply (ag_send m K c 0 3 24 (dev_eq c 3 (k0_dev25_eq c))) $$ [$Hrec Hq03 $HpO03 $HO $HuS03 $HuR03]
  · iexact Hq03
  iintro ⟨HeA03, HO⟩
  iapply (ag_send m K c 0 4 25 (dev_eq c 4 (k0_dev26_eq c))) $$ [$Hrec Hq04 $HpO04 $HO $HuS04 $HuR04]
  · iexact Hq04
  iintro ⟨HeA04, HO⟩
  iapply (ag_send m K c 0 5 26 (dev_eq c 5 (k0_dev27_eq c))) $$ [$Hrec Hq05 $HpO05 $HO $HuS05 $HuR05]
  · iexact Hq05
  iintro ⟨HeA05, HO⟩
  iapply (ag_send m K c 0 6 27 (dev_eq c 6 (k0_dev28_eq c))) $$ [$Hrec Hq06 $HpO06 $HO $HuS06 $HuR06]
  · iexact Hq06
  iintro ⟨HeA06, HO⟩
  iapply (wait_step m K c 1 1 0 28 (ownPay_rsR m c 1 0) (xSrc c 1 0) (rSlot 1 (slotOf 0)) rfl) $$ [$Hrec $Hlev $HcR10 $HO $HaR10]
  iintro ⟨HO, HaR10, ⟨%fr10, Hrs10⟩⟩
  iapply (acc_step c 1 (slotOf 0) (fun _ _ => rfl)) $$ [$Hob1 $Hrs10]
  iintro ⟨Hob1, Hrs10⟩
  iapply (wait_step m K c 1 1 1 28 (ownPay_rsR m c 1 1) (xSrc c 1 1) (rSlot 1 (slotOf 1)) rfl) $$ [$Hrec $Hlev $HcR11 $HO $HaR11]
  iintro ⟨HO, HaR11, ⟨%fr11, Hrs11⟩⟩
  iapply (acc_step c 1 (slotOf 1) (fun _ _ => rfl)) $$ [$Hob1 $Hrs11]
  iintro ⟨Hob1, Hrs11⟩
  iapply (wait_step m K c 1 1 2 28 (ownPay_rsR m c 1 2) (xSrc c 1 2) (rSlot 1 (slotOf 2)) rfl) $$ [$Hrec $Hlev $HcR12 $HO $HaR12]
  iintro ⟨HO, HaR12, ⟨%fr12, Hrs12⟩⟩
  iapply (acc_step c 1 (slotOf 2) (fun _ _ => rfl)) $$ [$Hob1 $Hrs12]
  iintro ⟨Hob1, Hrs12⟩
  iapply (wait_step m K c 1 1 3 28 (ownPay_rsR m c 1 3) (xSrc c 1 3) (rSlot 1 (slotOf 3)) rfl) $$ [$Hrec $Hlev $HcR13 $HO $HaR13]
  iintro ⟨HO, HaR13, ⟨%fr13, Hrs13⟩⟩
  iapply (acc_step c 1 (slotOf 3) (fun _ _ => rfl)) $$ [$Hob1 $Hrs13]
  iintro ⟨Hob1, Hrs13⟩
  iapply (wait_step m K c 1 1 4 28 (ownPay_rsR m c 1 4) (xSrc c 1 4) (rSlot 1 (slotOf 4)) rfl) $$ [$Hrec $Hlev $HcR14 $HO $HaR14]
  iintro ⟨HO, HaR14, ⟨%fr14, Hrs14⟩⟩
  iapply (acc_step c 1 (slotOf 4) (fun _ _ => rfl)) $$ [$Hob1 $Hrs14]
  iintro ⟨Hob1, Hrs14⟩
  iapply (wait_step m K c 1 1 5 28 (ownPay_rsR m c 1 5) (xSrc c 1 5) (rSlot 1 (slotOf 5)) rfl) $$ [$Hrec $Hlev $HcR15 $HO $HaR15]
  iintro ⟨HO, HaR15, ⟨%fr15, Hrs15⟩⟩
  iapply (acc_step c 1 (slotOf 5) (fun _ _ => rfl)) $$ [$Hob1 $Hrs15]
  iintro ⟨Hob1, Hrs15⟩
  iapply (wait_step m K c 1 1 6 28 (ownPay_rsR m c 1 6) (xSrc c 1 6) (rSlot 1 (slotOf 6)) rfl) $$ [$Hrec $Hlev $HcR16 $HO $HaR16]
  iintro ⟨HO, HaR16, ⟨%fr16, Hrs16⟩⟩
  iapply (acc_step c 1 (slotOf 6) (fun _ _ => rfl)) $$ [$Hob1 $Hrs16]
  iintro ⟨Hob1, Hrs16⟩
  ihave Hq := ((share_split (oRows c 1) c _).1.trans (Entails.of_eq (bigSepL_allJ _))) $$ Hob1
  dsimp only [sep7]
  icases Hq with ⟨Hq10, Hq11, Hq12, Hq13, Hq14, Hq15, Hq16⟩
  iapply (ag_send m K c 1 0 28 (dev_eq c 0 (k0_dev29_eq c))) $$ [$Hrec Hq10 $HpO10 $HO $HuS10 $HuR10]
  · iexact Hq10
  iintro ⟨HeA10, HO⟩
  iapply (ag_send m K c 1 1 29 (dev_eq c 1 (k0_dev30_eq c))) $$ [$Hrec Hq11 $HpO11 $HO $HuS11 $HuR11]
  · iexact Hq11
  iintro ⟨HeA11, HO⟩
  iapply (ag_send m K c 1 2 30 (dev_eq c 2 (k0_dev31_eq c))) $$ [$Hrec Hq12 $HpO12 $HO $HuS12 $HuR12]
  · iexact Hq12
  iintro ⟨HeA12, HO⟩
  iapply (ag_send m K c 1 3 31 (dev_eq c 3 (k0_dev32_eq c))) $$ [$Hrec Hq13 $HpO13 $HO $HuS13 $HuR13]
  · iexact Hq13
  iintro ⟨HeA13, HO⟩
  iapply (ag_send m K c 1 4 32 (dev_eq c 4 (k0_dev33_eq c))) $$ [$Hrec Hq14 $HpO14 $HO $HuS14 $HuR14]
  · iexact Hq14
  iintro ⟨HeA14, HO⟩
  iapply (ag_send m K c 1 5 33 (dev_eq c 5 (k0_dev34_eq c))) $$ [$Hrec Hq15 $HpO15 $HO $HuS15 $HuR15]
  · iexact Hq15
  iintro ⟨HeA15, HO⟩
  iapply (ag_send m K c 1 6 34 (dev_eq c 6 (k0_dev35_eq c))) $$ [$Hrec Hq16 $HpO16 $HO $HuS16 $HuR16]
  · iexact Hq16
  iintro ⟨HeA16, HO⟩
  iapply (wait_step m K c 3 0 0 35 (ownPay_agR m c 0 0) (oRows c 0) (oRows c 0) rfl) $$ [$Hrec $Hlev $HdR00 $HO $HbR00]
  iintro ⟨HO, HbR00, Hgb00⟩
  iapply (wait_step m K c 3 0 1 35 (ownPay_agR m c 0 1) (oRows c 0) (oRows c 0) rfl) $$ [$Hrec $Hlev $HdR01 $HO $HbR01]
  iintro ⟨HO, HbR01, Hgb01⟩
  iapply (wait_step m K c 3 0 2 35 (ownPay_agR m c 0 2) (oRows c 0) (oRows c 0) rfl) $$ [$Hrec $Hlev $HdR02 $HO $HbR02]
  iintro ⟨HO, HbR02, Hgb02⟩
  iapply (wait_step m K c 3 0 3 35 (ownPay_agR m c 0 3) (oRows c 0) (oRows c 0) rfl) $$ [$Hrec $Hlev $HdR03 $HO $HbR03]
  iintro ⟨HO, HbR03, Hgb03⟩
  iapply (wait_step m K c 3 0 4 35 (ownPay_agR m c 0 4) (oRows c 0) (oRows c 0) rfl) $$ [$Hrec $Hlev $HdR04 $HO $HbR04]
  iintro ⟨HO, HbR04, Hgb04⟩
  iapply (wait_step m K c 3 0 5 35 (ownPay_agR m c 0 5) (oRows c 0) (oRows c 0) rfl) $$ [$Hrec $Hlev $HdR05 $HO $HbR05]
  iintro ⟨HO, HbR05, Hgb05⟩
  iapply (wait_step m K c 3 0 6 35 (ownPay_agR m c 0 6) (oRows c 0) (oRows c 0) rfl) $$ [$Hrec $Hlev $HdR06 $HO $HbR06]
  iintro ⟨HO, HbR06, Hgb06⟩
  iapply (wait_step m K c 3 1 0 35 (ownPay_agR m c 1 0) (oRows c 1) (oRows c 1) rfl) $$ [$Hrec $Hlev $HdR10 $HO $HbR10]
  iintro ⟨HO, HbR10, Hgb10⟩
  iapply (wait_step m K c 3 1 1 35 (ownPay_agR m c 1 1) (oRows c 1) (oRows c 1) rfl) $$ [$Hrec $Hlev $HdR11 $HO $HbR11]
  iintro ⟨HO, HbR11, Hgb11⟩
  iapply (wait_step m K c 3 1 2 35 (ownPay_agR m c 1 2) (oRows c 1) (oRows c 1) rfl) $$ [$Hrec $Hlev $HdR12 $HO $HbR12]
  iintro ⟨HO, HbR12, Hgb12⟩
  iapply (wait_step m K c 3 1 3 35 (ownPay_agR m c 1 3) (oRows c 1) (oRows c 1) rfl) $$ [$Hrec $Hlev $HdR13 $HO $HbR13]
  iintro ⟨HO, HbR13, Hgb13⟩
  iapply (wait_step m K c 3 1 4 35 (ownPay_agR m c 1 4) (oRows c 1) (oRows c 1) rfl) $$ [$Hrec $Hlev $HdR14 $HO $HbR14]
  iintro ⟨HO, HbR14, Hgb14⟩
  iapply (wait_step m K c 3 1 5 35 (ownPay_agR m c 1 5) (oRows c 1) (oRows c 1) rfl) $$ [$Hrec $Hlev $HdR15 $HO $HbR15]
  iintro ⟨HO, HbR15, Hgb15⟩
  iapply (wait_step m K c 3 1 6 35 (ownPay_agR m c 1 6) (oRows c 1) (oRows c 1) rfl) $$ [$Hrec $Hlev $HdR16 $HO $HbR16]
  iintro ⟨HO, HbR16, Hgb16⟩
  iapply (wait_step m K c 0 0 0 35 (ownPay_rsS m c 0 0) (rSlot 0 (slotOf 0)) (xSrc c 0 0) rfl) $$ [$Hrec $Hlev $HeS00 $HO $HaS00]
  iintro ⟨HO, HaS00, Hx00⟩
  iapply (wait_step m K c 0 0 1 35 (ownPay_rsS m c 0 1) (rSlot 0 (slotOf 1)) (xSrc c 0 1) rfl) $$ [$Hrec $Hlev $HeS01 $HO $HaS01]
  iintro ⟨HO, HaS01, Hx01⟩
  iapply (wait_step m K c 0 0 2 35 (ownPay_rsS m c 0 2) (rSlot 0 (slotOf 2)) (xSrc c 0 2) rfl) $$ [$Hrec $Hlev $HeS02 $HO $HaS02]
  iintro ⟨HO, HaS02, Hx02⟩
  iapply (wait_step m K c 0 0 3 35 (ownPay_rsS m c 0 3) (rSlot 0 (slotOf 3)) (xSrc c 0 3) rfl) $$ [$Hrec $Hlev $HeS03 $HO $HaS03]
  iintro ⟨HO, HaS03, Hx03⟩
  iapply (wait_step m K c 0 0 4 35 (ownPay_rsS m c 0 4) (rSlot 0 (slotOf 4)) (xSrc c 0 4) rfl) $$ [$Hrec $Hlev $HeS04 $HO $HaS04]
  iintro ⟨HO, HaS04, Hx04⟩
  iapply (wait_step m K c 0 0 5 35 (ownPay_rsS m c 0 5) (rSlot 0 (slotOf 5)) (xSrc c 0 5) rfl) $$ [$Hrec $Hlev $HeS05 $HO $HaS05]
  iintro ⟨HO, HaS05, Hx05⟩
  iapply (wait_step m K c 0 0 6 35 (ownPay_rsS m c 0 6) (rSlot 0 (slotOf 6)) (xSrc c 0 6) rfl) $$ [$Hrec $Hlev $HeS06 $HO $HaS06]
  iintro ⟨HO, HaS06, Hx06⟩
  iapply (wait_step m K c 0 1 0 35 (ownPay_rsS m c 1 0) (rSlot 1 (slotOf 0)) (xSrc c 1 0) rfl) $$ [$Hrec $Hlev $HeS10 $HO $HaS10]
  iintro ⟨HO, HaS10, Hx10⟩
  iapply (wait_step m K c 0 1 1 35 (ownPay_rsS m c 1 1) (rSlot 1 (slotOf 1)) (xSrc c 1 1) rfl) $$ [$Hrec $Hlev $HeS11 $HO $HaS11]
  iintro ⟨HO, HaS11, Hx11⟩
  iapply (wait_step m K c 0 1 2 35 (ownPay_rsS m c 1 2) (rSlot 1 (slotOf 2)) (xSrc c 1 2) rfl) $$ [$Hrec $Hlev $HeS12 $HO $HaS12]
  iintro ⟨HO, HaS12, Hx12⟩
  iapply (wait_step m K c 0 1 3 35 (ownPay_rsS m c 1 3) (rSlot 1 (slotOf 3)) (xSrc c 1 3) rfl) $$ [$Hrec $Hlev $HeS13 $HO $HaS13]
  iintro ⟨HO, HaS13, Hx13⟩
  iapply (wait_step m K c 0 1 4 35 (ownPay_rsS m c 1 4) (rSlot 1 (slotOf 4)) (xSrc c 1 4) rfl) $$ [$Hrec $Hlev $HeS14 $HO $HaS14]
  iintro ⟨HO, HaS14, Hx14⟩
  iapply (wait_step m K c 0 1 5 35 (ownPay_rsS m c 1 5) (rSlot 1 (slotOf 5)) (xSrc c 1 5) rfl) $$ [$Hrec $Hlev $HeS15 $HO $HaS15]
  iintro ⟨HO, HaS15, Hx15⟩
  iapply (wait_step m K c 0 1 6 35 (ownPay_rsS m c 1 6) (rSlot 1 (slotOf 6)) (xSrc c 1 6) rfl) $$ [$Hrec $Hlev $HeS16 $HO $HaS16]
  iintro ⟨HO, HaS16, Hx16⟩
  iapply (wait_step m K c 2 0 0 35 (ownPay_agS m c 0 0) (oRows c 0) (oRows c 0) rfl) $$ [$Hrec $Hlev $HeA00 $HO $HbS00]
  iintro ⟨HO, HbS00, Hq00⟩
  iapply (wait_step m K c 2 0 1 35 (ownPay_agS m c 0 1) (oRows c 0) (oRows c 0) rfl) $$ [$Hrec $Hlev $HeA01 $HO $HbS01]
  iintro ⟨HO, HbS01, Hq01⟩
  iapply (wait_step m K c 2 0 2 35 (ownPay_agS m c 0 2) (oRows c 0) (oRows c 0) rfl) $$ [$Hrec $Hlev $HeA02 $HO $HbS02]
  iintro ⟨HO, HbS02, Hq02⟩
  iapply (wait_step m K c 2 0 3 35 (ownPay_agS m c 0 3) (oRows c 0) (oRows c 0) rfl) $$ [$Hrec $Hlev $HeA03 $HO $HbS03]
  iintro ⟨HO, HbS03, Hq03⟩
  iapply (wait_step m K c 2 0 4 35 (ownPay_agS m c 0 4) (oRows c 0) (oRows c 0) rfl) $$ [$Hrec $Hlev $HeA04 $HO $HbS04]
  iintro ⟨HO, HbS04, Hq04⟩
  iapply (wait_step m K c 2 0 5 35 (ownPay_agS m c 0 5) (oRows c 0) (oRows c 0) rfl) $$ [$Hrec $Hlev $HeA05 $HO $HbS05]
  iintro ⟨HO, HbS05, Hq05⟩
  iapply (wait_step m K c 2 0 6 35 (ownPay_agS m c 0 6) (oRows c 0) (oRows c 0) rfl) $$ [$Hrec $Hlev $HeA06 $HO $HbS06]
  iintro ⟨HO, HbS06, Hq06⟩
  iapply (wait_step m K c 2 1 0 35 (ownPay_agS m c 1 0) (oRows c 1) (oRows c 1) rfl) $$ [$Hrec $Hlev $HeA10 $HO $HbS10]
  iintro ⟨HO, HbS10, Hq10⟩
  iapply (wait_step m K c 2 1 1 35 (ownPay_agS m c 1 1) (oRows c 1) (oRows c 1) rfl) $$ [$Hrec $Hlev $HeA11 $HO $HbS11]
  iintro ⟨HO, HbS11, Hq11⟩
  iapply (wait_step m K c 2 1 2 35 (ownPay_agS m c 1 2) (oRows c 1) (oRows c 1) rfl) $$ [$Hrec $Hlev $HeA12 $HO $HbS12]
  iintro ⟨HO, HbS12, Hq12⟩
  iapply (wait_step m K c 2 1 3 35 (ownPay_agS m c 1 3) (oRows c 1) (oRows c 1) rfl) $$ [$Hrec $Hlev $HeA13 $HO $HbS13]
  iintro ⟨HO, HbS13, Hq13⟩
  iapply (wait_step m K c 2 1 4 35 (ownPay_agS m c 1 4) (oRows c 1) (oRows c 1) rfl) $$ [$Hrec $Hlev $HeA14 $HO $HbS14]
  iintro ⟨HO, HbS14, Hq14⟩
  iapply (wait_step m K c 2 1 5 35 (ownPay_agS m c 1 5) (oRows c 1) (oRows c 1) rfl) $$ [$Hrec $Hlev $HeA15 $HO $HbS15]
  iintro ⟨HO, HbS15, Hq15⟩
  iapply (wait_step m K c 2 1 6 35 (ownPay_agS m c 1 6) (oRows c 1) (oRows c 1) rfl) $$ [$Hrec $Hlev $HeA16 $HO $HbS16]
  iintro ⟨HO, HbS16, Hq16⟩
  imod (close_all m K c) $$ [$Hrec HaS00 HaS01 HaS02 HaS03 HaS04 HaS05 HaS06 HaS10 HaS11 HaS12 HaS13 HaS14 HaS15 HaS16 HaR00 HaR01 HaR02 HaR03 HaR04 HaR05 HaR06 HaR10 HaR11 HaR12 HaR13 HaR14 HaR15 HaR16 HbS00 HbS01 HbS02 HbS03 HbS04 HbS05 HbS06 HbS10 HbS11 HbS12 HbS13 HbS14 HbS15 HbS16 HbR00 HbR01 HbR02 HbR03 HbR04 HbR05 HbR06 HbR10 HbR11 HbR12 HbR13 HbR14 HbR15 HbR16] with Hz
  · rw [bigSep_univ_eq_bigSepL ownL ownL_univ ownL_nodup, bigSepL_ownL]; simp only [bigSepL_allKJ]; dsimp only [sep14]; iframe
  rw [owedFrom_end, wp_ret]; imodintro
  iapply Hk
  iapply (post_of m ρ c _)
  iframe HO
  unfold Φ₁
  iframe Hz
  isplitl [Hsu0 Hsu1 Hrs00 Hrs01 Hrs02 Hrs03 Hrs04 Hrs05 Hrs06 Hrs10 Hrs11 Hrs12 Hrs13 Hrs14 Hrs15 Hrs16]
  · iapply (join_scr_ex m c)
    rw [bigSepL_allKJ]; dsimp only [sep14]
    isplitl [Hsu0 Hsu1]
    · isplitl [Hsu0]; · iexists _; iexact Hsu0
      iexists _; iexact Hsu1
    isplitl [Hrs06]; · iexists _; iexact Hrs06
    isplitl [Hrs05]; · iexists _; iexact Hrs05
    isplitl [Hrs04]; · iexists _; iexact Hrs04
    isplitl [Hrs03]; · iexists _; iexact Hrs03
    isplitl [Hrs02]; · iexists _; iexact Hrs02
    isplitl [Hrs01]; · iexists _; iexact Hrs01
    isplitl [Hrs00]; · iexists _; iexact Hrs00
    isplitl [Hrs16]; · iexists _; iexact Hrs16
    isplitl [Hrs15]; · iexists _; iexact Hrs15
    isplitl [Hrs14]; · iexists _; iexact Hrs14
    isplitl [Hrs13]; · iexists _; iexact Hrs13
    isplitl [Hrs12]; · iexists _; iexact Hrs12
    isplitl [Hrs11]; · iexists _; iexact Hrs11
    iexists _; iexact Hrs10
  isplitl [HxO Hx00 Hx01 Hx02 Hx03 Hx04 Hx05 Hx06 Hx10 Hx11 Hx12 Hx13 Hx14 Hx15 Hx16]
  · iapply (join_x m c)
    rw [bigSepL_allKJ]; dsimp only [sep14]
    iframe
  · iapply (join_out_ex m c)
    rw [bigSepL_allKJ]; dsimp only [sep14]
    isplitl [Hq00 Hq01 Hq02 Hq03 Hq04 Hq05 Hq06 Hq10 Hq11 Hq12 Hq13 Hq14 Hq15 Hq16]
    · isplitl [Hq00 Hq01 Hq02 Hq03 Hq04 Hq05 Hq06]
      · iapply (share_join_ex m c 0); rw [bigSepL_allJ]; dsimp only [sep7]
        iframe
      · iapply (share_join_ex m c 1); rw [bigSepL_allJ]; dsimp only [sep7]
        iframe
    isplitl [Hgb06]; · iexact Hgb06
    isplitl [Hgb05]; · iexact Hgb05
    isplitl [Hgb04]; · iexact Hgb04
    isplitl [Hgb03]; · iexact Hgb03
    isplitl [Hgb02]; · iexact Hgb02
    isplitl [Hgb01]; · iexact Hgb01
    isplitl [Hgb00]; · iexact Hgb00
    isplitl [Hgb16]; · iexact Hgb16
    isplitl [Hgb15]; · iexact Hgb15
    isplitl [Hgb14]; · iexact Hgb14
    isplitl [Hgb13]; · iexact Hgb13
    isplitl [Hgb12]; · iexact Hgb12
    isplitl [Hgb11]; · iexact Hgb11
    iexact Hgb10

end Cert.KernelIdeal.Proto

end
-- ==== Proof.Obligation.lean ====
import proofs.«900587_g7700000000000588_dist_rs_then_ag_i_m512_n512_v7x_i8_f32_1_alg».proof.Proof.Body

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

open Idealize.ShloMosaic.Tactic

theorem bigSep_W (Φ : Fin cfg0.W → sProp 𝕄) : bigSep Finset.univ Φ = iprop(Φ (0 : Fin 2) ∗ Φ (1 : Fin 2)) := bigSep_W0 Φ

set_option maxRecDepth 40000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 40000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4)
    (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

end Cert.KernelIdeal.Proto

end
-- ==== Proof.OutValue.lean ====
import proofs.«900587_g7700000000000588_dist_rs_then_ag_i_m512_n512_v7x_i8_f32_1_alg».proof.Proof.Local
import proofs.«900587_g7700000000000588_dist_rs_then_ag_i_m512_n512_v7x_i8_f32_1_alg».proof.Proof.RefValue
import Idealize.ShloMosaic.Lib.Pipeline.Value
import Idealize.ShloMosaic.Lib.ValueIdx
import Idealize.ShloMosaic.PureOps.Ideal.Laws

noncomputable section

namespace Cert.KernelIdeal.OutValue

open Cert.KernelIdeal Cert.KernelIdeal.Gen Cert.KernelIdeal.Proto
open Idealize.ShloMosaic Idealize.ShloMosaic.TcCoe Idealize.SL.Sem
open Idealize.ShloMosaic.ValueIdx

theorem addB_apply (u w : Vec Ideal S32x512 .f32) (y : S32x512.Idx) : addB u w y = u y + w y := by
  unfold addB
  rw [shapeCast_self]; rfl

abbrev argE (m : (ℓ : Loc nD τ sig) → Buf (Elt Ideal) ℓ) (q : Dev nD) (i : S512x512.Idx) : EReal :=
  m ((q : Thread nD τ).loc main_arg0) i

theorem redV_apply (m : (ℓ : Loc nD τ sig) → Buf (Elt Ideal) ℓ) (p : Dev nD) (k : Fin 2) (y : S32x512.Idx) :
    redV (F := Ideal) m p k y = ∑ q : Dev nD, argE m q (gIdx p k y) := by
  unfold redV
  rw [redN_seven]
  simp only [addB_apply, own32_apply, recvd_apply]
  exact Cert.ReferenceIdeal.RefValue.kernel_order p (fun q => argE m q (gIdx p k y))

theorem outFin_apply (m : (ℓ : Loc nD τ sig) → Buf (Elt Ideal) ℓ) (i : S512x512.Idx) :
    outFin (F := Ideal) m i = ∑ q : Dev nD, argE m q i := by
  have hi : (i 0).val < 512 := idx2_lt0 (n0 := 512) (n1 := 512) i
  obtain ⟨p, k, y, e⟩ : ∃ (p : Dev nD) (k : Fin 2) (y : S32x512.Idx), gIdx p k y = i :=
    ⟨⟨(i 0).val / 64, by show (i 0).val / 64 < 8; omega⟩, ⟨((i 0).val / 32) % 2, Nat.mod_lt _ (by decide)⟩,
      ix2 (n0 := 32) (n1 := 512) ⟨(i 0).val % 32, Nat.mod_lt _ (by decide)⟩ ⟨(i 1).val, idx2_lt1 i⟩,
      funext fun a => match a with
        | ⟨0, _⟩ => Fin.ext (by
            show 64 * ((i 0).val / 64) + 32 * (((i 0).val / 32) % 2) + (i 0).val % 32 = (i 0).val
            omega)
        | ⟨1, _⟩ => rfl⟩
  subst e
  rw [outFin_gIdx, redV_apply]

theorem outFin_total (m : (ℓ : Loc nD τ sig) → Buf (Elt Ideal) ℓ)
    (X : (⟨Cert.ReferenceIdeal.S4096x512, .f32⟩ : BufTy).Contents (Elt Ideal))
    (hX : ∀ q : Dev nD, m ((q : Thread nD τ).loc main_arg0) = Layout.block ⟨2, ![512, 512]⟩ ⟨2, ![4096, 512]⟩ 0 8 q X) :
    outFin (F := Ideal) m = Cert.ReferenceIdeal.RefValue.total X := by
  funext i
  refine (outFin_apply m i).trans ?_
  show (∑ q : Dev nD, argE m q i) = ∑ q : Fin 8, X (Cert.ReferenceIdeal.RefValue.blockIdx q i)
  refine Finset.sum_congr rfl fun q _ => ?_
  show m ((q : Thread nD τ).loc main_arg0) i = X (Cert.ReferenceIdeal.RefValue.blockIdx q i)
  rw [hX q]
  exact Cert.ReferenceIdeal.RefValue.block_apply q X i

end Cert.KernelIdeal.OutValue

end
-- ==== Proof.Claims.lean ====
import proofs.«900587_g7700000000000588_dist_rs_then_ag_i_m512_n512_v7x_i8_f32_1_alg».proof.Defs
import proofs.«900587_g7700000000000588_dist_rs_then_ag_i_m512_n512_v7x_i8_f32_1_alg».proof.Proof.Gen.KernelIdeal
import proofs.«900587_g7700000000000588_dist_rs_then_ag_i_m512_n512_v7x_i8_f32_1_alg».proof.Proof.Gen.ReferenceIdeal
import proofs.«900587_g7700000000000588_dist_rs_then_ag_i_m512_n512_v7x_i8_f32_1_alg».proof.Proof.Gen.Pre_finite_inputs_Kernel
import proofs.«900587_g7700000000000588_dist_rs_then_ag_i_m512_n512_v7x_i8_f32_1_alg».proof.Proof.Gen.Pre_finite_inputs_ReferenceIdeal
import proofs.«900587_g7700000000000588_dist_rs_then_ag_i_m512_n512_v7x_i8_f32_1_alg».proof.Proof.Launch
import proofs.«900587_g7700000000000588_dist_rs_then_ag_i_m512_n512_v7x_i8_f32_1_alg».proof.Proof.Obligation
import proofs.«900587_g7700000000000588_dist_rs_then_ag_i_m512_n512_v7x_i8_f32_1_alg».proof.Proof.OutValue
import proofs.«900587_g7700000000000588_dist_rs_then_ag_i_m512_n512_v7x_i8_f32_1_alg».proof.Proof.RefValue

noncomputable section

namespace Cert.Proof.KI

open Idealize.ShloMosaic Idealize.ShloMosaic.TcCoe Idealize.SL.Sem

theorem frame_ki : Cert.frame_KernelIdeal := fun m ρ _ =>
  (θ_run Cert.KernelIdeal.defs _ _).mono (fun _ h c => (h c).2)
    (Cert.KernelIdeal.Proto.run_values (F := Ideal) m ρ (fun c => Cert.KernelIdeal.Proto.body_obligation m ρ c))

theorem preserves : Cert.preserves_Kernel_KernelIdeal := trivial

theorem algebraic : Cert.algebraic_KernelIdeal_ReferenceIdeal := by
  intro m g m' g' _ hblk
  refine ⟨Cert.ReferenceIdeal.RefValue.total
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdeal.Proto.run_values (F := Ideal) m g (fun c => Cert.KernelIdeal.Proto.body_obligation m g c))
    exact Cert.KernelIdeal.OutValue.outFin_total m _ hblk
  · exact Cert.ReferenceIdeal.RefValue.ref_run m' g'

end Cert.Proof.KI

end
-- ==== Proof.K.Proto.lean ====
import proofs.«900587_g7700000000000588_dist_rs_then_ag_i_m512_n512_v7x_i8_f32_1_alg».proof.Proof.Gen.Kernel
import proofs.«900587_g7700000000000588_dist_rs_then_ag_i_m512_n512_v7x_i8_f32_1_alg».proof.Proof.Gen.Kernel.Skeleton
import proofs.«900587_g7700000000000588_dist_rs_then_ag_i_m512_n512_v7x_i8_f32_1_alg».proof.Proof.Gen.Kernel.Launch
import proofs.«900587_g7700000000000588_dist_rs_then_ag_i_m512_n512_v7x_i8_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Dn : Type := Fin 8
abbrev UB : Type := URounds (GSem nD τ sig) Dn
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def st₀ : MemSt nD τ sig (Elt F) := ⟨m, fun _ => 0, ρ⟩

def sh (c : Dev nD) (d : ℕ) : Dev nD := ⟨(c.val + d) % 8, Nat.mod_lt _ (by decide)⟩

theorem sh_val (c : Dev nD) (d : ℕ) : (sh c d).val = (c.val + d) % 8 := rfl

theorem sh_sh (c : Dev nD) (a b : ℕ) (h : (a + b) % 8 = 0) : sh (sh c a) b = c := by
  apply Fin.ext
  have hc : c.val < 8 := c.isLt
  simp only [sh_val]
  omega

theorem sh_zero (c : Dev nD) : sh c 0 = c := by
  apply Fin.ext
  have hc : c.val < 8 := c.isLt
  simp only [sh_val]
  omega

abbrev xM : Memref sig .tc .vmem S512x512 .f32 := Memref.whole cc0_stg0_0
abbrev oM : Memref sig .tc .vmem S512x512 .f32 := Memref.whole cc0_stg1_0
abbrev rM : Memref sig .tc .vmem S2x8x32x512 .f32 := Memref.whole cc0_scratch0

abbrev xSrc (c : Dev nD) (k : Fin 2) (j : Fin 7) : Memref sig .tc .vmem S32x512 .f32 :=
  xM.slice (Rect.unit (s := S512x512) (k0_off1 c (BitVec.ofNat 32 (1 + j.val)) (BitVec.ofNat 32 (32 * k.val))) S32x512.size (k0_off1_inb c j k)) (fun _ => rfl)

abbrev oRows (c : Dev nD) (k : Fin 2) : Memref sig .tc .vmem S32x512 .f32 :=
  oM.slice (Rect.unit (s := S512x512) (k0_off4 c (BitVec.ofNat 32 (32 * k.val))) S32x512.size (k0_off4_inb c k)) (fun _ => rfl)

theorem inb_slot (k : Fin 2) (s : Fin 8) : ∀ a, (![k.val, s.val, 0, 0] : Fin 4 → Nat) a + S1x1x32x512.size a ≤ S2x8x32x512.size a := by
  revert k s; decide

abbrev rSlot (k : Fin 2) (s : Fin 8) : Memref sig .tc .vmem S32x512 .f32 :=
  (rM.slice (Rect.unit (s := S2x8x32x512) ![k.val, s.val, 0, 0] S1x1x32x512.size (inb_slot k s)) (fun _ => rfl)).squeeze S32x512 squeezes_S1x1x32x512_S32x512

def slotOf (j : Fin 7) : Fin 8 := ⟨7 - j.val, by have := j.isLt; omega⟩

abbrev barS : Sem sig := (SemArray.scalar (sig.barrier 0 rfl) : Sems sig S_).sem

def semNo (kd : Fin 4) (k : Fin 2) (j : Fin 7) : ℕ :=
  match kd with
  | 0 => 2 + 7 * k.val + j.val
  | 1 => 16 + 8 * k.val + (7 - j.val)
  | 2 => 32 + 7 * k.val + j.val
  | 3 => 46 + 8 * k.val + (7 - j.val)

theorem semNo_lt (kd : Fin 4) (k : Fin 2) (j : Fin 7) : semNo kd k j < 62 := by revert kd k j; decide

abbrev OwnK : Type := Fin 4 × Fin 2 × Fin 7

def dsem (kd : Fin 4) (k : Fin 2) (j : Fin 7) : DmaSem sig := ⟨semNo kd k j, semNo_lt kd k j⟩

abbrev osem (x : OwnK) : SemLoc sig := .dma (dsem x.1 x.2.1 x.2.2)

theorem osem_injective : Function.Injective osem := by
  intro x y h
  have : semNo x.1 x.2.1 x.2.2 = semNo y.1 y.2.1 y.2.2 := by
    have := SemLoc.dma.inj h
    exact congrArg Fin.val this
  revert x y; decide

abbrev barCell (c : Dev nD) : GSem nD τ sig := ((c : Thread nD τ), .reg barS)
abbrev ownCell (c : Dev nD) (x : OwnK) : GSem nD τ sig := ((c : Thread nD τ), osem x)
abbrev rsS (c : Dev nD) (k : Fin 2) (j : Fin 7) : GSem nD τ sig := ownCell c (0, k, j)
abbrev rsR (c : Dev nD) (k : Fin 2) (j : Fin 7) : GSem nD τ sig := ownCell c (1, k, j)
abbrev agS (c : Dev nD) (k : Fin 2) (j : Fin 7) : GSem nD τ sig := ownCell c (2, k, j)
abbrev agR (c : Dev nD) (k : Fin 2) (j : Fin 7) : GSem nD τ sig := ownCell c (3, k, j)

def peer (c : Dev nD) (j : Fin 7) : Dev nD := sh c (j.val + 1)
def sender (c : Dev nD) (j : Fin 7) : Dev nD := sh c (7 - j.val)

theorem peer_sender (c : Dev nD) (j : Fin 7) : peer (sender c j) j = c := sh_sh c _ _ (by have := j.isLt; omega)
theorem sender_peer (c : Dev nD) (j : Fin 7) : sender (peer c j) j = c := sh_sh c _ _ (by have := j.isLt; omega)

def peerE (j : Fin 7) : Dev nD ≃ Dev nD := ⟨fun c => peer c j, fun c => sender c j, fun c => sender_peer c j, fun c => peer_sender c j⟩

def rev (j : Fin 7) : Fin 7 := ⟨6 - j.val, by have := j.isLt; omega⟩
theorem sender_rev (c : Dev nD) (j : Fin 7) : sender c (rev j) = peer c j := by
  apply Fin.ext
  have hc : c.val < 8 := c.isLt
  have hj := j.isLt
  simp only [sender, peer, rev, sh_val]
  omega
theorem rev_rev (j : Fin 7) : rev (rev j) = j := by apply Fin.ext; have := j.isLt; simp only [rev]; omega

def dOf (j : Fin 7) : Dn := ⟨j.val + 1, by have := j.isLt; omega⟩
def jOf (d : Dn) : Fin 7 := ⟨(d.val - 1) % 7, Nat.mod_lt _ (by decide)⟩
theorem jOf_dOf (j : Fin 7) : jOf (dOf j) = j := by apply Fin.ext; have := j.isLt; simp only [jOf, dOf]; omega
theorem dOf_ne_zero (j : Fin 7) : dOf j ≠ 0 := by intro h; have := congrArg Fin.val h; simp only [dOf] at this; omega

def slotB (j : Fin 7) : Fin 8 := ⟨j.val + 1, by have := j.isLt; omega⟩
theorem slotOf_rev (j : Fin 7) : slotOf (rev j) = slotB j := by apply Fin.ext; have := j.isLt; simp only [slotOf, rev, slotB]; omega

def xst (c : Dev nD) : (cc0_stg0_0 : Ref sig .tc).ty.Contents (Elt F) :=
  (win0_0.blk (0 : Fin 1)).view.read (Elt F) (m ((c : Thread nD τ).loc main_arg0))

abbrev r64 (c : Dev nD) : Rect S512x512 := Rect.unit (s := S512x512) (k0_off2 c) S64x512.size (k0_off2_inb c)
abbrev r32 (c : Dev nD) (k : Fin 2) : Rect S512x512 := Rect.unit (s := S512x512) (k0_off3 c (BitVec.ofNat 32 (32 * k.val))) S32x512.size (k0_off3_inb c k)
abbrev rSl (k : Fin 2) (s : Fin 8) : Rect S2x8x32x512 := Rect.unit (s := S2x8x32x512) ![k.val, s.val, 0, 0] S1x1x32x512.size (inb_slot k s)

def xpart (c : Dev nD) (k : Fin 2) (j : Fin 7) : Vec F S32x512 .f32 := (xSrc c k j).view.read (Elt F) (xst m c)

def recvd (c : Dev nD) (k : Fin 2) (j : Fin 7) : Vec F S32x512 .f32 := xpart m (sender c j) k j

def own32 (c : Dev nD) (k : Fin 2) : Vec F S32x512 .f32 :=
  (xM : Memref sig .tc .vmem S512x512 .f32).view.readAt (Elt F) (r32 c k).toLoadRect (xst m c)

def addB (a : Vec F S32x512 .f32) (w : Vec F S32x512 .f32) : Vec F S32x512 .f32 :=
  addf (shapeCast S32x512 a shapeCasts_S32x512_S32x512) w

def redN (c : Dev nD) (k : Fin 2) : ℕ → Vec F S32x512 .f32
  | 0 => own32 m c k
  | n + 1 => if h : n < 7 then addB (redN c k n) (recvd m c k ⟨n, h⟩) else redN c k n

def redV (c : Dev nD) (k : Fin 2) : Vec F S32x512 .f32 := redN m c k 7

def outFin : (cc0_stg1_0 : Ref sig .tc).ty.Contents (Elt F) := fun i =>
  redV m ⟨(i 0).val / 64, by have h : (i 0).val < 512 := (i 0).isLt; show (i 0).val / 64 < 8; omega⟩ ⟨((i 0).val / 32) % 2, Nat.mod_lt _ (by decide)⟩
    (fun a => match a with
      | ⟨0, _⟩ => ⟨(i 0).val % 32, Nat.mod_lt _ (by decide)⟩
      | ⟨1, _⟩ => ⟨(i 1).val, (i 1).isLt⟩)

def agQ (j : Fin 7) : PosShare TreeShare :=
  match j with
  | 0 => fullShare.left
  | 1 => fullShare.right.left
  | 2 => fullShare.right.right.left
  | 3 => fullShare.right.right.right.left
  | 4 => fullShare.right.right.right.right.left
  | 5 => fullShare.right.right.right.right.right.left
  | 6 => fullShare.right.right.right.right.right.right

abbrev NW : ℕ := (rSlot 0 0 : Memref sig .tc .vmem S32x512 .f32).view.dmaCredit

def barPayJ (c : Dev nD) (j : Fin 7) : sProp 𝕄 :=
  iprop((∃ f, (rSlot 0 (slotB j)).view.loc (sender c j : Thread nD τ) ↦[(rSlot 0 (slotB j)).view.set]{fullShare} f)
    ∗ (∃ f, (rSlot 1 (slotB j)).view.loc (sender c j : Thread nD τ) ↦[(rSlot 1 (slotB j)).view.set]{fullShare} f)
    ∗ (∃ f, (oRows c 0).view.loc (sender c j : Thread nD τ) ↦[(oRows c 0).view.set]{fullShare} f)
    ∗ (∃ f, (oRows c 1).view.loc (sender c j : Thread nD τ) ↦[(oRows c 1).view.set]{fullShare} f))

def barPay (c : Dev nD) (d : Dn) : sProp 𝕄 := barPayJ (F := F) c (jOf d)

omit [FloatOps F] in
theorem barPay_dOf (c : Dev nD) (j : Fin 7) : (barPay (F := F) c (dOf j) : sProp 𝕄) = barPayJ c j := by unfold barPay; rw [jOf_dOf]

def ownPay (c : Dev nD) (x : OwnK) : sProp 𝕄 :=
  match x with
  | (0, k, j) => iprop((xSrc c k j).view.loc (c : Thread nD τ) ↦[(xSrc c k j).view.set]{fullShare} xst m c)
  | (1, k, j) => iprop(∃ fd, (rSlot k (slotOf j)).view.loc (c : Thread nD τ) ↦[(rSlot k (slotOf j)).view.set]{fullShare}
      ((rSlot k (slotOf j)).view.write (Elt F) fd (recvd m c k j) Finset.univ))
  | (2, k, j) => iprop(∃ fd, (oRows c k).view.loc (c : Thread nD τ) ↦[(oRows c k).view.set]{agQ j}
      ((oRows c k).view.write (Elt F) fd (redV m c k) Finset.univ))
  | (_, k, j) => iprop(∃ fd, (oRows (sender c j) k).view.loc (c : Thread nD τ) ↦[(oRows (sender c j) k).view.set]{fullShare}
      ((oRows (sender c j) k).view.write (Elt F) fd (redV m (sender c j) k) Finset.univ))

open Classical in
def decode (s : SemLoc sig) : Option OwnK := if h : ∃ x, osem x = s then some h.choose else none

theorem decode_osem (x : OwnK) : decode (osem x) = some x := by
  unfold decode
  have h : ∃ y, osem y = osem x := ⟨x, rfl⟩
  rw [dif_pos h]
  exact congrArg some (osem_injective h.choose_spec)

def Rd : Rounds.Schedule (GSem nD τ sig) Dn 𝕄 where
  duties g r := if r = 0 ∧ g.1.2 = .tc then (if g.2 = .reg barS then Finset.univ.erase 0 else if (decode g.2).isSome then {0} else ∅) else ∅
  unitless _ := False
  amount g _ _ := if g.2 = .reg barS then 1 else NW
  payload g _ d := if g.2 = .reg barS then barPay g.1.1 d else (match decode g.2 with | some x => ownPay m g.1.1 x | none => iprop(emp))
  amount_pos g _ _ _ := by
    by_cases h : g.2 = .reg barS
    · rw [if_pos h]; exact Nat.one_pos
    · rw [if_neg h]; exact View.dmaCredit_pos _ (by decide)

end Cert.Kernel.Proto

end
-- ==== Proof.K.Tables.lean ====
import proofs.«900587_g7700000000000588_dist_rs_then_ag_i_m512_n512_v7x_i8_f32_1_alg».proof.Proof.K.Proto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem own_ne_bar (x : OwnK) : osem x ≠ .reg barS := fun h => by cases h

section Tables
variable (c : Dev nD)

theorem duties_bar : (Rd (F := F) m).duties (barCell c) 0 = Finset.univ.erase 0 := by
  dsimp only [Rd]; exact (if_pos ⟨rfl, rfl⟩).trans (if_pos rfl)
theorem duties_own (x : OwnK) : (Rd (F := F) m).duties (ownCell c x) 0 = {0} := by
  dsimp only [Rd]
  refine (if_pos ⟨rfl, rfl⟩).trans ((if_neg (own_ne_bar x)).trans ?_)
  rw [decode_osem]; rfl
theorem duties_later (g : GSem nD τ sig) : ∀ r, 1 ≤ r → (Rd (F := F) m).duties g r = ∅ := fun r hr => by
  dsimp only [Rd]; exact if_neg fun h => by omega
theorem mem_duties_bar (d : Dn) (hd : d ≠ 0) : d ∈ (Rd (F := F) m).duties (barCell c) 0 := by
  rw [duties_bar]; exact Finset.mem_erase.mpr ⟨hd, Finset.mem_univ _⟩
theorem mem_duties_own (x : OwnK) : (0 : Dn) ∈ (Rd (F := F) m).duties (ownCell c x) 0 := by
  rw [duties_own]; exact Finset.mem_singleton_self _
theorem mem_duties_bar_dOf (j : Fin 7) : dOf j ∈ (Rd (F := F) m).duties (barCell c) 0 := mem_duties_bar m c (dOf j) (dOf_ne_zero j)

theorem amount_bar (d : Dn) : (Rd (F := F) m).amount (barCell c) 0 d = 1 := by dsimp only [Rd]; exact if_pos rfl
theorem amount_own (x : OwnK) (d : Dn) : (Rd (F := F) m).amount (ownCell c x) 0 d = NW := by dsimp only [Rd]; exact if_neg (own_ne_bar x)

theorem expect_bar : (Rd (F := F) m).expect (barCell c) 0 = 7 := by
  unfold Schedule.expect Schedule.amountOf
  rw [duties_bar, Finset.sum_congr rfl fun d _ => amount_bar m c d, Finset.sum_const, smul_eq_mul, mul_one]
  decide
theorem expect_own (x : OwnK) : (Rd (F := F) m).expect (ownCell c x) 0 = NW := by
  unfold Schedule.expect Schedule.amountOf; rw [duties_own, Finset.sum_singleton, amount_own]

theorem payload_bar (d : Dn) : (Rd (F := F) m).payload (barCell c) 0 d = barPay c d := by dsimp only [Rd]; exact if_pos rfl
theorem payload_own (x : OwnK) (d : Dn) : (Rd (F := F) m).payload (ownCell c x) 0 d = ownPay m c x := by
  dsimp only [Rd]
  refine (if_neg (own_ne_bar x)).trans ?_
  rw [decode_osem]

theorem payload_bar_dOf (j : Fin 7) : (Rd (F := F) m).payload (barCell c) 0 (dOf j) = barPayJ c j := by rw [payload_bar, barPay_dOf]

theorem rest_bar : bigSep ((Rd (F := F) m).duties (barCell c) 0 \ ∅) (fun d => (Rd (F := F) m).payload (barCell c) 0 d)
    = iprop(barPayJ c 0 ∗ barPayJ c 1 ∗ barPayJ c 2 ∗ barPayJ c 3 ∗ barPayJ c 4 ∗ barPayJ c 5 ∗ barPayJ c 6) := by
  rw [Finset.sdiff_empty, duties_bar, bigSep_eq_bigSepL_of_eq ([1, 2, 3, 4, 5, 6, 7] : List Dn) (by decide) (by decide)]
  simp only [bigSepL_cons_cons, bigSepL_singleton, payload_bar]
  rfl
theorem rest_own (x : OwnK) : bigSep ((Rd (F := F) m).duties (ownCell c x) 0 \ ∅) (fun d => (Rd (F := F) m).payload (ownCell c x) 0 d) = ownPay m c x := by
  rw [Finset.sdiff_empty, duties_own, bigSep_singleton, payload_own]

end Tables

set_option synthInstance.maxHeartbeats 400000 in
instance Rd_payload_storable (g : GSem nD τ sig) (r : ℕ) (d : Dn) : BI.Storable (upEmb : UEmb _ 𝕄) ((Rd (F := F) m).payload g r d) := by
  show BI.Storable upEmb (if g.2 = .reg barS then barPay g.1.1 d else (match decode g.2 with | some x => ownPay m g.1.1 x | none => iprop(emp)))
  unfold barPay barPayJ
  split
  · infer_instance
  · split
    · unfold ownPay; split <;> infer_instance
    · infer_instance

theorem amount_rSlot (k : Fin 2) (s : Fin 8) (q : DmaSem sig) : (rSlot k s : Memref sig .tc .vmem S32x512 .f32).view.amount (.dma q) = NW := rfl
theorem amount_oRows (c : Dev nD) (k : Fin 2) (q : DmaSem sig) : (oRows c k : Memref sig .tc .vmem S32x512 .f32).view.amount (.dma q) = NW := rfl

def L (g : GSem nD τ sig) : Finset Unit := if g.1.2 = .tc then {()} else ∅

def lv (g : GSem nD τ sig) (_ : Unit) : ℕ :=
  if g.2 = .reg barS then 1 else
    match decode g.2 with
    | some (1, _, _) => 2
    | some (3, _, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; exact if_pos rfl
theorem lv_rsR (c : Dev nD) (k : Fin 2) (j : Fin 7) : lv (rsR c k j) () = 2 := by
  dsimp only [lv]; refine (if_neg (own_ne_bar _)).trans ?_; rw [decode_osem]; rfl
theorem lv_agR (c : Dev nD) (k : Fin 2) (j : Fin 7) : lv (agR c k j) () = 3 := by
  dsimp only [lv]; refine (if_neg (own_ne_bar _)).trans ?_; rw [decode_osem]; rfl

def owedL (l : List (GSem nD τ sig × ℕ)) : CellTallies nD τ sig Unit := l.foldr (fun x acc => acc + tallyAt x.1 () x.2) 0

theorem owedL_cons (x : GSem nD τ sig × ℕ) (l : List (GSem nD τ sig × ℕ)) : owedL (x :: l) = owedL l + tallyAt x.1 () x.2 := rfl
theorem owedL_nil : owedL ([] : List (GSem nD τ sig × ℕ)) = 0 := rfl

def allJ : List (Fin 7) := [0, 1, 2, 3, 4, 5, 6]
def allKJ : List (Fin 2 × Fin 7) := [(0,0),(0,1),(0,2),(0,3),(0,4),(0,5),(0,6),(1,0),(1,1),(1,2),(1,3),(1,4),(1,5),(1,6)]

def payList (c : Dev nD) : List (GSem nD τ sig × ℕ) :=
  allJ.map (fun j => (barCell (peer c j), 1))
    ++ allKJ.map (fun kj => (rsR (peer c kj.2) kj.1 kj.2, NW))
    ++ allKJ.map (fun kj => (agR (peer c kj.2) kj.1 kj.2, NW))

def O₀ (c : Dev nD) : CellTallies nD τ sig Unit := owedL (payList c)

theorem owedL_pos {l : List (GSem nD τ sig × ℕ)} {g : GSem nD τ sig} {u : Unit} (h : 0 < owedL l g u) : ∃ x ∈ l, g = x.1 := by
  induction l with
  | nil => rw [owedL_nil, Pi.zero_apply, Finsupp.zero_apply] at h; exact absurd h (Nat.lt_irrefl 0)
  | cons x l ih =>
    rw [owedL_cons, Pi.add_apply, Finsupp.add_apply, tallyAt_apply] at h
    by_cases hg : g = x.1 ∧ u = ()
    · exact ⟨x, List.mem_cons_self, hg.1⟩
    · rw [if_neg hg, add_zero] at h
      obtain ⟨y, hy, e⟩ := ih h
      exact ⟨y, List.mem_cons_of_mem _ hy, e⟩

theorem mayWait_owedL (c : Dev nD) (sm : SemLoc sig) (l : List (GSem nD τ sig × ℕ))
    (h : ∀ x ∈ l, x.1.1.2 = .tc ∧ lv ((c : Thread nD τ), sm) () < lv x.1 ()) :
    (levAts L lv : sProp 𝕄) ⊢ MayWait (c : Thread nD τ) sm () (owedL l) :=
  MayOwe.of_cut (L := L) (lev := lv) (lv ((c : Thread nD τ), sm) ())
    (fun p hp => by rw [Finset.mem_singleton.mp hp, L_tc]; exact Finset.mem_singleton_self _)
    (fun g u hg => by
      obtain ⟨x, hx, rfl⟩ := owedL_pos hg
      unfold L; rw [if_pos (h x hx).1]; exact Finset.mem_singleton_self _)
    (fun p hp => by obtain rfl := Finset.mem_singleton.mp hp; exact le_refl _)
    (fun g u hg => by
      obtain ⟨x, hx, rfl⟩ := owedL_pos hg
      exact (h x hx).2)

theorem mayWait_zero' (c : Dev nD) (sm : SemLoc sig) : (levAts L lv : sProp 𝕄) ⊢ MayWait (c : Thread nD τ) sm () 0 := by
  rw [MayWait_zero]; iintro -; iempintro

end Cert.Kernel.Proto

end
-- ==== Proof.K.State.lean ====
import proofs.«900587_g7700000000000588_dist_rs_then_ag_i_m512_n512_v7x_i8_f32_1_alg».proof.Proof.K.Tables

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

abbrev CK : Type := Option OwnK
def csem : CK → SemLoc sig
  | none => .reg barS
  | some x => osem x
abbrev kcell (ck : Dev nD × CK) : GSem nD τ sig := ((ck.1 : Thread nD τ), csem ck.2)

theorem csem_injective : Function.Injective csem := by
  intro a b h
  cases a with
  | none => cases b with
    | none => rfl
    | some y => exact absurd h.symm (own_ne_bar y)
  | some x => cases b with
    | none => exact absurd h (own_ne_bar x)
    | some y => exact congrArg some (osem_injective h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def scrPts (c : Dev nD) (f : Buf (Elt F) ((c : Thread nD τ).loc cc0_scratch0)) : sProp 𝕄 := ((c : Thread nD τ).loc cc0_scratch0) ↦{fullShare} f

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

def payToks (c : Dev nD) : sProp 𝕄 :=
  iprop((bigSepL allJ fun j => dutyTok ER (barCell (peer c j)) 0 (dOf j))
    ∗ (bigSepL allKJ fun kj => iprop(dutyTok ER (rsS c kj.1 kj.2) 0 (0 : Dn) ∗ dutyTok ER (rsR (peer c kj.2) kj.1 kj.2) 0 (0 : Dn)))
    ∗ (bigSepL allKJ fun kj => iprop(dutyTok ER (agS c kj.1 kj.2) 0 (0 : Dn) ∗ dutyTok ER (agR (peer c kj.2) kj.1 kj.2) 0 (0 : Dn))))

def positions (c : Dev nD) : sProp 𝕄 := bigSep Finset.univ fun k : CK => atPos ER (kcell (c, k)) 0 ∅ 0

def ghost (K : Dev nD × CK → ℕ) (c : Dev nD) : sProp 𝕄 := iprop(records m K ∗ positions c ∗ payToks c)

def creds (c : Dev nD) : sProp 𝕄 :=
  iprop(cred (tallyAt (barCell c) () 7)
    ∗ (bigSepL allKJ fun kj => cred (tallyAt (rsR c kj.1 kj.2) () NW))
    ∗ (bigSepL allKJ fun kj => cred (tallyAt (agR c kj.1 kj.2) () NW)))

def start (c : Dev nD) : sProp 𝕄 := iprop((∃ K, ghost m K c) ∗ creds c ∗ levAts L lv)

def Φ₀ (c : Dev nD) : sProp 𝕄 := iprop(start m c ∗ ∃ f, scrPts c f)
def Φ₁ (c : Dev nD) : sProp 𝕄 := iprop((∃ f, scrPts c f) ∗ bigSep Finset.univ fun x : OwnK => semVal (ownCell c x) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xst m c
    | ⟨1, _⟩ => outFin m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

def bodyPre (K : Dev nD × CK → ℕ) (c : Dev nD) : sProp 𝕄 :=
  iprop((ghost m K c ∗ creds c ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xst m c) ∗ stg c cc0_stg1_0 (outFin m))

end Cert.Kernel.Proto

end
-- ==== Proof.K.Pieces.lean ====
import proofs.«900587_g7700000000000588_dist_rs_then_ag_i_m512_n512_v7x_i8_f32_1_alg».proof.Proof.K.Tables

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem mem_rows (o h : ℕ) (i : S512x512.Idx) :
    (∀ a : Fin 2, (![o, 0] : Fin 2 → ℕ) a ≤ (i a).val ∧ (i a).val < (![o, 0] : Fin 2 → ℕ) a + (![h, 512] : Fin 2 → ℕ) a)
      ↔ (o ≤ (i 0).val ∧ (i 0).val < o + h) := by
  have h1 : (i 1).val < 512 := (i 1).isLt
  rw [Fin.forall_fin_two]
  show (o ≤ (i 0).val ∧ (i 0).val < o + h) ∧ (0 ≤ (i 1).val ∧ (i 1).val < 0 + 512) ↔ _
  omega

theorem mem_oRows (q : Dev nD) (k : Fin 2) (i : S512x512.Idx) :
    i ∈ (oRows q k).view.set ↔ (i 0).val / 32 = 2 * q.val + k.val := by
  have hk := k.isLt
  rw [View.set_slice_whole, Rect.mem_set_unit, Gen.k0_off4_eq]
  refine (mem_rows (64 * q.val + 32 * k.val) 32 i).trans ?_
  omega

theorem mem_xSrc (c : Dev nD) (k : Fin 2) (j : Fin 7) (i : S512x512.Idx) :
    i ∈ (xSrc c k j).view.set ↔ (i 0).val / 32 = 2 * ((c.val + j.val + 1) % 8) + k.val := by
  have hk := k.isLt
  rw [View.set_slice_whole, Rect.mem_set_unit, Gen.k0_off1_eq]
  refine (mem_rows (64 * ((c.val + j.val + 1) % 8) + 32 * k.val) 32 i).trans ?_
  omega

theorem mem_r64 (c : Dev nD) (i : S512x512.Idx) : i ∈ (r64 c).set ↔ (i 0).val / 64 = c.val := by
  rw [Rect.mem_set_unit, Gen.k0_off2_eq]
  refine (mem_rows (64 * c.val) 64 i).trans ?_
  omega

theorem mem_r32 (c : Dev nD) (k : Fin 2) (i : S512x512.Idx) : i ∈ (r32 c k).set ↔ (i 0).val / 32 = 2 * c.val + k.val := by
  have hk := k.isLt
  rw [Rect.mem_set_unit, Gen.k0_off3_eq]
  refine (mem_rows (64 * c.val + 32 * k.val) 32 i).trans ?_
  omega

theorem mem_rSl (k : Fin 2) (s : Fin 8) (i : S2x8x32x512.Idx) : i ∈ (rSl k s).set ↔ (i 0).val = k.val ∧ (i 1).val = s.val := by
  have h2 : (i 2).val < 32 := (i 2).isLt
  have h3 : (i 3).val < 512 := (i 3).isLt
  rw [Rect.mem_set_unit, Fin.forall_fin_succ, Fin.forall_fin_succ, Fin.forall_fin_two]
  show (k.val ≤ (i 0).val ∧ (i 0).val < k.val + 1) ∧ (s.val ≤ (i 1).val ∧ (i 1).val < s.val + 1) ∧ (0 ≤ (i 2).val ∧ (i 2).val < 0 + 32) ∧ (0 ≤ (i 3).val ∧ (i 3).val < 0 + 512) ↔ _
  omega

theorem set_rSlot (k : Fin 2) (s : Fin 8) : (rSlot k s).view.set = (rSl k s).set := by
  rw [View.set_reshape, View.set_slice_whole]

theorem mem_rSlot (k : Fin 2) (s : Fin 8) (i : S2x8x32x512.Idx) : i ∈ (rSlot k s).view.set ↔ (i 0).val = k.val ∧ (i 1).val = s.val := by
  rw [set_rSlot]; exact mem_rSl k s i

theorem setOn_whole (b : Ref sig .tc) (M : Finset b.ty.shape.Idx) : (View.whole b : View sig .tc _ _ _).setOn M = M := Finset.map_refl

theorem eq_of_bi {P Q : sProp 𝕄} (h : P ⊣⊢ Q) : P = Q := BI.equiv_iff.mp ⟨h.1, h.2⟩

theorem bigSepL_map {I J : Type} (g : J → I) (l : List J) (Φ : I → sProp 𝕄) :
    bigSepL (l.map g) Φ = bigSepL l (fun x => Φ (g x)) := by
  induction l with
  | nil => rfl
  | cons x l ih => rw [List.map_cons, bigSepL_cons, bigSepL_cons, ih]

theorem pts_cover {ℓ : Loc nD τ sig} {T : Type} (S : Finset T) (K : T → Finset (Idx ℓ)) (q : PosShare TreeShare) (f : Buf (Elt F) ℓ)
    (hc : ∀ i, ∃ t ∈ S, i ∈ K t) (hd : ∀ t ∈ S, ∀ t' ∈ S, t ≠ t' → Disjoint (K t) (K t')) :
    (ℓ ↦{q} f : sProp 𝕄) = bigSep S fun t => ℓ ↦[K t]{q} f := by
  have hu : (Finset.univ : Finset (Idx ℓ)) = S.biUnion K :=
    Finset.ext fun i => ⟨fun _ => Finset.mem_biUnion.mpr (hc i), fun _ => Finset.mem_univ _⟩
  rw [hu]; exact pointsTo_biUnion S K hd

def L16 (g : Fin 7 → Fin 8) : List (Fin 2 × Fin 8) := (0, 0) :: (1, 0) :: allKJ.map (fun kj => (kj.1, g kj.2))

abbrev pts {s : Shape} (V : Memref sig .tc .vmem s .f32) (c' : Dev nD) (q : PosShare TreeShare) (f : Buf (Elt F) (V.view.loc (c' : Thread nD τ))) : sProp 𝕄 :=
  (V.view.loc (c' : Thread nD τ)) ↦[V.view.set]{q} f

abbrev xOwn (c : Dev nD) (f : Buf (Elt F) ((c : Thread nD τ).loc cc0_stg0_0)) : sProp 𝕄 :=
  ((c : Thread nD τ).loc cc0_stg0_0) ↦[((xM : Memref sig .tc .vmem S512x512 .f32).access (r64 c)).set]{fullShare} f

def bandO (q : Dev nD) (k : Fin 2) : Finset S512x512.Idx := (oRows q k).view.set
def slotR (k : Fin 2) (s : Fin 8) : Finset S2x8x32x512.Idx := (rSlot k s).view.set
def pieceX (c : Dev nD) : Option (Fin 2 × Fin 7) → Finset S512x512.Idx
  | none => ((xM : Memref sig .tc .vmem S512x512 .f32).access (r64 c)).set
  | some kj => (xSrc c kj.1 kj.2).view.set

theorem bandO_zero (c : Dev nD) (k : Fin 2) : bandO (sh c (0 : Fin 8).val) k = bandO c k := congrArg (fun q => bandO q k) (sh_zero c)

theorem slotR_cover (i : S2x8x32x512.Idx) : ∃ t ∈ (Finset.univ : Finset (Fin 2 × Fin 8)), i ∈ slotR t.1 t.2 :=
  ⟨((i 0 : Fin 2), (i 1 : Fin 8)), Finset.mem_univ _, (mem_rSlot _ _ i).mpr ⟨rfl, rfl⟩⟩

theorem slotR_disj : ∀ t ∈ (Finset.univ : Finset (Fin 2 × Fin 8)), ∀ t' ∈ (Finset.univ : Finset (Fin 2 × Fin 8)), t ≠ t' →
    Disjoint (slotR t.1 t.2) (slotR t'.1 t'.2) :=
  fun t _ t' _ hne => Finset.disjoint_left.mpr fun i hi hi' => hne (by
    have e1 := (mem_rSlot _ _ i).mp hi
    have e2 := (mem_rSlot _ _ i).mp hi'
    exact Prod.ext (Fin.ext (e1.1.symm.trans e2.1)) (Fin.ext (e1.2.symm.trans e2.2)))

theorem slots_list (Φ : Fin 2 × Fin 8 → sProp 𝕄) :
    bigSep Finset.univ Φ ⊣⊢ iprop((Φ (0, 0) ∗ Φ (1, 0)) ∗ bigSepL allKJ fun kj => Φ (kj.1, slotB kj.2)) := by
  rw [bigSep_univ_eq_bigSepL (L16 slotB) (by decide) (by decide) Φ, L16, bigSepL_cons, bigSepL_cons, bigSepL_map]
  exact sep_assoc.symm

theorem scr_split (c : Dev nD) (f : Buf (Elt F) ((c : Thread nD τ).loc cc0_scratch0)) :
    ((((c : Thread nD τ).loc cc0_scratch0) ↦{fullShare} f : sProp 𝕄))
      ⊣⊢ iprop((pts (rSlot 0 0) c fullShare f ∗ pts (rSlot 1 0) c fullShare f)
          ∗ bigSepL allKJ fun kj => pts (rSlot kj.1 (slotB kj.2)) c fullShare f) := by
  rw [pts_cover (F := F) (ℓ := (c : Thread nD τ).loc cc0_scratch0) Finset.univ (fun t : Fin 2 × Fin 8 => slotR t.1 t.2) fullShare f
    slotR_cover slotR_disj]
  exact slots_list _

theorem out_split (c : Dev nD) (f : Buf (Elt F) ((c : Thread nD τ).loc cc0_stg1_0)) :
    ((((c : Thread nD τ).loc cc0_stg1_0) ↦{fullShare} f : sProp 𝕄))
      ⊣⊢ iprop((pts (oRows c 0) c fullShare f ∗ pts (oRows c 1) c fullShare f)
          ∗ bigSepL allKJ fun kj => pts (oRows (peer c kj.2) kj.1) c fullShare f) := by
  have hc : c.val < 8 := c.isLt
  have hK := pts_cover (F := F) (ℓ := (c : Thread nD τ).loc cc0_stg1_0) (Finset.univ : Finset (Fin 2 × Fin 8))
    (fun t => bandO (sh c t.2.val) t.1) fullShare f
    (fun i => by
      have h0 : (i 0).val < 512 := (i 0).isLt
      refine ⟨(⟨(i 0).val / 32 % 2, by omega⟩, ⟨((i 0).val / 64 + 8 - c.val) % 8, by omega⟩), Finset.mem_univ _, ?_⟩
      refine (mem_oRows _ _ i).mpr ?_
      show (i 0).val / 32 = 2 * ((c.val + ((i 0).val / 64 + 8 - c.val) % 8) % 8) + (i 0).val / 32 % 2
      omega)
    (fun t _ t' _ hne => Finset.disjoint_left.mpr fun i hi hi' => hne (by
      have e1 : (i 0).val / 32 = 2 * ((c.val + t.2.val) % 8) + t.1.val := (mem_oRows _ _ i).mp hi
      have e2 : (i 0).val / 32 = 2 * ((c.val + t'.2.val) % 8) + t'.1.val := (mem_oRows _ _ i).mp hi'
      have := t.1.isLt; have := t.2.isLt; have := t'.1.isLt; have := t'.2.isLt
      refine Prod.ext (Fin.ext ?_) (Fin.ext ?_) <;> omega))
  have hL := bigSep_univ_eq_bigSepL (L16 dOf) (by decide) (by decide)
    (fun t : Fin 2 × Fin 8 => (((c : Thread nD τ).loc cc0_stg1_0) ↦[bandO (sh c t.2.val) t.1]{fullShare} f : sProp 𝕄))
  have e0 : ∀ k : Fin 2, ((((c : Thread nD τ).loc cc0_stg1_0) ↦[bandO (sh c (0 : Fin 8).val) k]{fullShare} f : sProp 𝕄)) = pts (oRows c k) c fullShare f :=
    fun k => by rw [bandO_zero]; rfl
  rw [hK, hL, L16, bigSepL_cons, bigSepL_cons, bigSepL_map]
  refine BiEntails.trans (BiEntails.of_eq ?_) sep_assoc.symm
  exact congrArg₂ (fun a b : sProp 𝕄 => iprop(a ∗ b)) (e0 0) (congrArg₂ (fun a b : sProp 𝕄 => iprop(a ∗ b)) (e0 1) rfl)

theorem x_split (c : Dev nD) (f : Buf (Elt F) ((c : Thread nD τ).loc cc0_stg0_0)) :
    ((((c : Thread nD τ).loc cc0_stg0_0) ↦{fullShare} f : sProp 𝕄))
      ⊣⊢ iprop(xOwn c f ∗ bigSepL allKJ fun kj => pts (xSrc c kj.1 kj.2) c fullShare f) := by
  have hc : c.val < 8 := c.isLt
  have mem_own : ∀ i : S512x512.Idx, i ∈ pieceX c none ↔ (i 0).val / 64 = c.val := fun i => by
    show i ∈ ((View.whole cc0_stg0_0 : View sig .tc _ _ _).slice (r64 c)).set ↔ _
    rw [View.set_slice_whole]; exact mem_r64 c i
  have mem_some : ∀ (kj : Fin 2 × Fin 7) (i : S512x512.Idx), i ∈ pieceX c (some kj) ↔ (i 0).val / 32 = 2 * ((c.val + kj.2.val + 1) % 8) + kj.1.val :=
    fun kj i => mem_xSrc c kj.1 kj.2 i
  have hK := pts_cover (F := F) (ℓ := (c : Thread nD τ).loc cc0_stg0_0) (Finset.univ : Finset (Option (Fin 2 × Fin 7)))
    (pieceX c) fullShare f
    (fun i => by
      have h0 : (i 0).val < 512 := (i 0).isLt
      by_cases hq : (i 0).val / 64 = c.val
      · exact ⟨none, Finset.mem_univ _, (mem_own i).mpr hq⟩
      · refine ⟨some (⟨(i 0).val / 32 % 2, by omega⟩, ⟨((i 0).val / 64 + 7 - c.val) % 8, by omega⟩), Finset.mem_univ _, (mem_some _ i).mpr ?_⟩
        show (i 0).val / 32 = 2 * ((c.val + ((i 0).val / 64 + 7 - c.val) % 8 + 1) % 8) + (i 0).val / 32 % 2
        omega)
    (fun t _ t' _ hne => Finset.disjoint_left.mpr fun i hi hi' => hne (by
      rcases t with _ | t <;> rcases t' with _ | t'
      · rfl
      · have e1 := (mem_own i).mp hi; have e2 := (mem_some t' i).mp hi'
        have := t'.1.isLt; have := t'.2.isLt
        exfalso; omega
      · have e1 := (mem_some t i).mp hi; have e2 := (mem_own i).mp hi'
        have := t.1.isLt; have := t.2.isLt
        exfalso; omega
      · have e1 := (mem_some t i).mp hi; have e2 := (mem_some t' i).mp hi'
        have := t.1.isLt; have := t.2.isLt; have := t'.1.isLt; have := t'.2.isLt
        refine congrArg some (Prod.ext (Fin.ext ?_) (Fin.ext ?_)) <;> omega))
  have hL := bigSep_univ_eq_bigSepL (none :: allKJ.map some) (by decide) (by decide)
    (fun t : Option (Fin 2 × Fin 7) => (((c : Thread nD τ).loc cc0_stg0_0) ↦[pieceX c t]{fullShare} f : sProp 𝕄))
  rw [hK, hL, bigSepL_cons, bigSepL_map]
  exact BiEntails.of_eq rfl

theorem share_split {s : Shape} (V : Memref sig .tc .vmem s .f32) (c' : Dev nD) (f : Buf (Elt F) (V.view.loc (c' : Thread nD τ))) :
    (pts V c' fullShare f : sProp 𝕄) ⊣⊢ bigSepL allJ fun j => pts V c' (agQ j) f := by
  have e : ∀ q : PosShare TreeShare, (pts V c' q f : sProp 𝕄) = iprop(pts V c' q.left f ∗ pts V c' q.right f) :=
    fun q => eq_of_bi (pointsTo_share (PosShare.mem_left_op_right q))
  refine BiEntails.of_eq ?_
  show (pts V c' fullShare f : sProp 𝕄) = iprop(pts V c' fullShare.left f ∗ pts V c' fullShare.right.left f ∗ pts V c' fullShare.right.right.left f
    ∗ pts V c' fullShare.right.right.right.left f ∗ pts V c' fullShare.right.right.right.right.left f
    ∗ pts V c' fullShare.right.right.right.right.right.left f ∗ pts V c' fullShare.right.right.right.right.right.right f)
  rw [e fullShare, e fullShare.right, e fullShare.right.right, e fullShare.right.right.right, e fullShare.right.right.right.right,
    e fullShare.right.right.right.right.right]

theorem pts_congr {s : Shape} (V : Memref sig .tc .vmem s .f32) (c' : Dev nD) (q : PosShare TreeShare)
    (f g : Buf (Elt F) (V.view.loc (c' : Thread nD τ))) (h : ∀ i ∈ V.view.set, f i = g i) :
    (pts V c' q f : sProp 𝕄) = pts V c' q g := pointsTo_congr h

theorem x_load64_sub (c : Dev nD) : (xM : Memref sig .tc .vmem S512x512 .f32).view.setOn (r64 c).toLoadRect.set ⊆ ((xM : Memref sig .tc .vmem S512x512 .f32).access (r64 c)).set := by
  show (View.whole cc0_stg0_0 : View sig .tc _ _ _).setOn (r64 c).set ⊆ ((View.whole cc0_stg0_0 : View sig .tc _ _ _).slice (r64 c)).set
  rw [setOn_whole, View.set_slice_whole]
theorem out_own64 (c : Dev nD) : ((oM : Memref sig .tc .vmem S512x512 .f32).access (r64 c)).set = (oRows c 0).view.set ∪ (oRows c 1).view.set := by
  have hc : c.val < 8 := c.isLt
  show ((View.whole cc0_stg1_0 : View sig .tc _ _ _).slice (r64 c)).set = _
  rw [View.set_slice_whole]
  ext i
  rw [Finset.mem_union]
  refine (mem_r64 c i).trans (Iff.trans ?_ (or_congr (mem_oRows c 0 i) (mem_oRows c 1 i)).symm)
  show (i 0).val / 64 = c.val ↔ (i 0).val / 32 = 2 * c.val + 0 ∨ (i 0).val / 32 = 2 * c.val + 1
  omega
theorem out_own_disj (c : Dev nD) : Disjoint (oRows c 0).view.set (oRows c 1).view.set :=
  Finset.disjoint_left.mpr fun i h0 h1 => by
    have e0 : (i 0).val / 32 = 2 * c.val + 0 := (mem_oRows c 0 i).mp h0
    have e1 : (i 0).val / 32 = 2 * c.val + 1 := (mem_oRows c 1 i).mp h1
    omega
theorem out_acc32 (c : Dev nD) (k : Fin 2) : ((oM : Memref sig .tc .vmem S512x512 .f32).access (r32 c k)).set = (oRows c k).view.set := by
  show ((View.whole cc0_stg1_0 : View sig .tc _ _ _).slice (r32 c k)).set = _
  rw [View.set_slice_whole]
  ext i
  exact (mem_r32 c k i).trans (mem_oRows c k i).symm
theorem out_load32_sub (c : Dev nD) (k : Fin 2) : (oM : Memref sig .tc .vmem S512x512 .f32).view.setOn (r32 c k).toLoadRect.set ⊆ (oRows c k).view.set := by
  show (View.whole cc0_stg1_0 : View sig .tc _ _ _).setOn (r32 c k).set ⊆ _
  rw [setOn_whole]
  intro i hi
  exact (mem_oRows c k i).mpr ((mem_r32 c k i).mp hi)
theorem scr_load_sub (k : Fin 2) (s : Fin 8) : (rM : Memref sig .tc .vmem S2x8x32x512 .f32).view.setOn (rSl k s).toLoadRect.set ⊆ (rSlot k s).view.set := by
  show (View.whole cc0_scratch0 : View sig .tc _ _ _).setOn (rSl k s).set ⊆ _
  rw [setOn_whole, set_rSlot]

end Cert.Kernel.Proto

end
-- ==== Proof.K.Local.lean ====
import proofs.«900587_g7700000000000588_dist_rs_then_ag_i_m512_n512_v7x_i8_f32_1_alg».proof.Proof.K.Proto
import Idealize.ShloMosaic.Lib.Pipeline.Value
import Idealize.ShloMosaic.Lib.ValueIdx

noncomputable section

namespace Cert.Kernel.Proto

open Cert.Kernel Cert.Kernel.Gen

open Idealize.ShloMosaic
open Idealize.ShloMosaic.TcCoe
open Idealize.SL.Sem
open Idealize.ShloMosaic.ValueIdx

section Access

theorem read_slice_apply {Val : EltTy → Type} {κ : Kind} (b : Ref sig κ) (r : Rect b.ty.shape) (hr : ∀ a, r.stride a = 1)
    (f : b.ty.Contents Val) (y : r.shape.Idx) :
    ((Memref.whole b).slice r hr).view.read Val f y = f (r.emb y) := rfl

theorem readAt_whole_apply {Val : EltTy → Type} {κ : Kind} (b : Ref sig κ) (r : Rect b.ty.shape) (f : b.ty.Contents Val)
    (y : r.shape.Idx) :
    (Memref.whole b : Memref sig κ _ _ _).view.readAt Val r.toLoadRect f y = f (r.emb y) := rfl

theorem write_access_emb {Val : EltTy → Type} {κ : Kind} (b : Ref sig κ) (r : Rect b.ty.shape) (f : b.ty.Contents Val)
    (w : r.shape.Idx → Val b.ty.elt) (y : r.shape.Idx) :
    ((Memref.whole b).access r : View sig κ _ _ _).write Val f w Finset.univ (r.emb y) = w y := by
  have h := View.write_emb_of_mem (v := ((Memref.whole b).access r : View sig κ _ _ _)) (Val := Val) f w
    (M := Finset.univ) (x := y) (Finset.mem_univ _)
  exact h

theorem readAt_write_slice_unit {Val : EltTy → Type} {κ : Kind} (b : Ref sig κ) (off off' size : Fin b.ty.shape.rank → ℕ)
    (h : off = off') (inb : ∀ a, off a + size a ≤ b.ty.shape.size a) (inb' : ∀ a, off' a + size a ≤ b.ty.shape.size a)
    (hs : ∀ a, (Rect.unit off' size inb').stride a = 1)
    (f : b.ty.Contents Val) (w : (⟨b.ty.shape.rank, size⟩ : Shape).Idx → Val b.ty.elt) :
    (Memref.whole b : Memref sig κ _ _ _).view.readAt Val (Rect.unit off size inb).toLoadRect
      (((Memref.whole b).slice (Rect.unit off' size inb') hs).view.write Val f w Finset.univ) = w := by
  subst h
  exact View.read_write_univ (v := ((Memref.whole b).slice (Rect.unit off size inb') hs).view) f w

theorem write_access_eq_slice_unit {Val : EltTy → Type} {κ : Kind} (b : Ref sig κ) (off off' size : Fin b.ty.shape.rank → ℕ)
    (h : off = off') (inb : ∀ a, off a + size a ≤ b.ty.shape.size a) (inb' : ∀ a, off' a + size a ≤ b.ty.shape.size a)
    (hs : ∀ a, (Rect.unit off' size inb').stride a = 1)
    (f : b.ty.Contents Val) (w : (⟨b.ty.shape.rank, size⟩ : Shape).Idx → Val b.ty.elt) :
    ((Memref.whole b).access (Rect.unit off size inb) : View sig κ _ _ _).write Val f w Finset.univ
      = ((Memref.whole b).slice (Rect.unit off' size inb') hs).view.write Val f w Finset.univ := by
  subst h
  rfl

end Access

section Rows

def gIdx (p : Dev nD) (k : Fin 2) (y : S32x512.Idx) : S512x512.Idx :=
  ix2 (n0 := 512) (n1 := 512)
    ⟨64 * p.val + 32 * k.val + (y 0).val, by
      have hp : p.val < 8 := p.isLt
      have hk : k.val < 2 := k.isLt
      have hy : (y 0).val < 32 := idx2_lt0 (n0 := 32) (n1 := 512) y
      omega⟩
    ⟨(y 1).val, idx2_lt1 y⟩

theorem emb_band (p : Dev nD) (k : Fin 2) (off : Fin 2 → ℕ) (h0 : off 0 = 64 * p.val + 32 * k.val) (h1 : off 1 = 0)
    (inb : ∀ a, off a + S32x512.size a ≤ S512x512.size a) (y : S32x512.Idx) :
    (Rect.unit (s := S512x512) off S32x512.size inb).emb y = gIdx p k y := by
  funext a
  apply Fin.ext
  match a with
  | ⟨0, _⟩ =>
    show off 0 + 1 * (y 0).val = 64 * p.val + 32 * k.val + (y 0).val
    rw [h0]; omega
  | ⟨1, _⟩ =>
    show off 1 + 1 * (y 1).val = (y 1).val
    rw [h1]; omega

theorem off2_row (c : Dev nD) : k0_off2 c 0 = 64 * c.val := by rw [k0_off2_eq]; rfl
theorem off2_col (c : Dev nD) : k0_off2 c 1 = 0 := by rw [k0_off2_eq]; rfl
theorem off3_row (c : Dev nD) (k : Fin 2) : k0_off3 c (BitVec.ofNat 32 (32 * k.val)) 0 = 64 * c.val + 32 * k.val := by
  rw [k0_off3_eq]; rfl
theorem off3_col (c : Dev nD) (k : Fin 2) : k0_off3 c (BitVec.ofNat 32 (32 * k.val)) 1 = 0 := by rw [k0_off3_eq]; rfl
theorem off4_row (c : Dev nD) (k : Fin 2) : k0_off4 c (BitVec.ofNat 32 (32 * k.val)) 0 = 64 * c.val + 32 * k.val := by
  rw [k0_off4_eq]; rfl
theorem off4_col (c : Dev nD) (k : Fin 2) : k0_off4 c (BitVec.ofNat 32 (32 * k.val)) 1 = 0 := by rw [k0_off4_eq]; rfl
theorem off1_row (c : Dev nD) (k : Fin 2) (j : Fin 7) :
    k0_off1 c (BitVec.ofNat 32 (1 + j.val)) (BitVec.ofNat 32 (32 * k.val)) 0 = 64 * ((c.val + j.val + 1) % 8) + 32 * k.val := by
  rw [k0_off1_eq]; rfl
theorem off1_col (c : Dev nD) (k : Fin 2) (j : Fin 7) :
    k0_off1 c (BitVec.ofNat 32 (1 + j.val)) (BitVec.ofNat 32 (32 * k.val)) 1 = 0 := by rw [k0_off1_eq]; rfl

theorem off3_eq_off4 (c : Dev nD) (k : Fin 2) :
    k0_off3 c (BitVec.ofNat 32 (32 * k.val)) = k0_off4 c (BitVec.ofNat 32 (32 * k.val)) :=
  (k0_off3_eq c k).trans (k0_off4_eq c k).symm

theorem r32_emb (c : Dev nD) (k : Fin 2) (y : S32x512.Idx) : (r32 c k).emb y = gIdx c k y :=
  emb_band c k _ (off3_row c k) (off3_col c k) _ y

end Rows

section Local

theorem load32_of_band {F : FTy → Type} [FloatOps F] (c : Dev nD) (k : Fin 2)
    (f : (cc0_stg1_0 : Ref sig .tc).ty.Contents (Elt F)) (w : Vec F S32x512 .f32) :
    (oM : Memref sig .tc .vmem S512x512 .f32).view.readAt (Elt F) (r32 c k).toLoadRect
      ((oRows c k).view.write (Elt F) f w Finset.univ) = w :=
  readAt_write_slice_unit (cc0_stg1_0 : Ref sig .tc) _ _ S32x512.size (off3_eq_off4 c k) _ _ _ f w

theorem store32_band {F : FTy → Type} [FloatOps F] (c : Dev nD) (k : Fin 2)
    (f : (cc0_stg1_0 : Ref sig .tc).ty.Contents (Elt F)) (w : Vec F S32x512 .f32) :
    ((oM : Memref sig .tc .vmem S512x512 .f32).access (r32 c k) : View sig .tc _ _ _).write (Elt F) f w Finset.univ
      = (oRows c k).view.write (Elt F) f w Finset.univ :=
  write_access_eq_slice_unit (cc0_stg1_0 : Ref sig .tc) _ _ S32x512.size (off3_eq_off4 c k) _ _ _ f w

theorem slot_load {F : FTy → Type} [FloatOps F] (k : Fin 2) (s : Fin 8)
    (fd : (cc0_scratch0 : Ref sig .tc).ty.Contents (Elt F)) (w : Vec F S32x512 .f32) :
    shapeCast S32x512 ((rM : Memref sig .tc .vmem S2x8x32x512 .f32).view.readAt (Elt F) (rSl k s).toLoadRect
      ((rSlot k s).view.write (Elt F) fd w Finset.univ)) shapeCasts_S1x1x32x512_S32x512 = w :=
  View.read_write_univ (v := (rSlot k s).view) fd w

theorem copy64_load32 {F : FTy → Type} [FloatOps F] (c : Dev nD) (k : Fin 2)
    (f0 : (cc0_stg1_0 : Ref sig .tc).ty.Contents (Elt F)) (X : (cc0_stg0_0 : Ref sig .tc).ty.Contents (Elt F)) :
    (oM : Memref sig .tc .vmem S512x512 .f32).view.readAt (Elt F) (r32 c k).toLoadRect
      (((oM : Memref sig .tc .vmem S512x512 .f32).access (r64 c) : View sig .tc _ _ _).write (Elt F) f0
        (k0_pay1 ((xM : Memref sig .tc .vmem S512x512 .f32).view.readAt (Elt F) (r64 c).toLoadRect X)) Finset.univ)
      = (xM : Memref sig .tc .vmem S512x512 .f32).view.readAt (Elt F) (r32 c k).toLoadRect X := by
  funext y
  have hk : k.val < 2 := k.isLt
  have hy : (y 0).val < 32 := idx2_lt0 (n0 := 32) (n1 := 512) y
  have e : (r64 c).emb (ix2 (n0 := 64) (n1 := 512) ⟨32 * k.val + (y 0).val, by omega⟩ ⟨(y 1).val, idx2_lt1 y⟩)
      = (r32 c k).emb y := by
    funext a
    apply Fin.ext
    match a with
    | ⟨0, _⟩ =>
      show k0_off2 c 0 + 1 * (32 * k.val + (y 0).val) = k0_off3 c (BitVec.ofNat 32 (32 * k.val)) 0 + 1 * (y 0).val
      rw [off2_row, off3_row]; omega
    | ⟨1, _⟩ =>
      show k0_off2 c 1 + 1 * (y 1).val = k0_off3 c (BitVec.ofNat 32 (32 * k.val)) 1 + 1 * (y 1).val
      rw [off2_col, off3_col]
  rw [readAt_whole_apply (cc0_stg1_0 : Ref sig .tc) (r32 c k), readAt_whole_apply (cc0_stg0_0 : Ref sig .tc) (r32 c k), ← e,
    write_access_emb (cc0_stg1_0 : Ref sig .tc) (r64 c)]
  unfold k0_pay1
  rw [shapeCast_self]
  rfl

end Local

section Final

theorem redV_congr {F : FTy → Type} [FloatOps F] (m : (ℓ : Loc nD τ sig) → Buf (Elt F) ℓ) {p p' : Dev nD} {k k' : Fin 2}
    {y y' : S32x512.Idx} (hp : p = p') (hk : k = k') (hy : y = y') : redV m p k y = redV m p' k' y' := by
  subst hp hk hy; rfl

theorem outFin_gIdx {F : FTy → Type} [FloatOps F] (m : (ℓ : Loc nD τ sig) → Buf (Elt F) ℓ) (p : Dev nD) (k : Fin 2)
    (y : S32x512.Idx) : outFin m (gIdx p k y) = redV m p k y := by
  have hp : p.val < 8 := p.isLt
  have hk : k.val < 2 := k.isLt
  have hy : (y 0).val < 32 := idx2_lt0 (n0 := 32) (n1 := 512) y
  unfold outFin
  refine redV_congr m (Fin.ext ?_) (Fin.ext ?_) (funext fun a => ?_)
  · show (64 * p.val + 32 * k.val + (y 0).val) / 64 = p.val
    omega
  · show ((64 * p.val + 32 * k.val + (y 0).val) / 32) % 2 = k.val
    omega
  · match a with
    | ⟨0, _⟩ =>
      apply Fin.ext
      show (64 * p.val + 32 * k.val + (y 0).val) % 32 = (y 0).val
      omega
    | ⟨1, _⟩ => rfl

theorem outFin_on_band {F : FTy → Type} [FloatOps F] (m : (ℓ : Loc nD τ sig) → Buf (Elt F) ℓ) (p : Dev nD) (k : Fin 2)
    (fd : (cc0_stg1_0 : Ref sig .tc).ty.Contents (Elt F)) :
    ∀ i ∈ (oRows p k).view.set, ((oRows p k).view.write (Elt F) fd (redV m p k) Finset.univ) i = outFin m i := by
  intro i hi
  obtain ⟨y, rfl⟩ := View.exists_emb_of_mem_set (oRows p k).view hi
  have e : (oRows p k).view.emb y = gIdx p k y := emb_band p k _ (off4_row p k) (off4_col p k) _ y
  have h := View.write_emb_of_mem (v := (oRows p k).view) (Val := Elt F) fd (redV m p k) (M := Finset.univ) (x := y)
    (Finset.mem_univ _)
  rw [e] at h ⊢
  exact h.trans (outFin_gIdx m p k y).symm

theorem xst_eq {F : FTy → Type} [FloatOps F] (m : (ℓ : Loc nD τ sig) → Buf (Elt F) ℓ) (c : Dev nD) :
    xst m c = m ((c : Thread nD τ).loc main_arg0) :=
  Memref.read_access_unit_zero (Elt F) (main_arg0 : Ref sig .tc) (funext fun a => Nat.zero_mul _) _ _

theorem own32_apply {F : FTy → Type} [FloatOps F] (m : (ℓ : Loc nD τ sig) → Buf (Elt F) ℓ) (c : Dev nD) (k : Fin 2)
    (y : S32x512.Idx) : own32 m c k y = m ((c : Thread nD τ).loc main_arg0) (gIdx c k y) := by
  unfold own32
  rw [readAt_whole_apply (cc0_stg0_0 : Ref sig .tc) (r32 c k), r32_emb, xst_eq]

theorem recvd_apply {F : FTy → Type} [FloatOps F] (m : (ℓ : Loc nD τ sig) → Buf (Elt F) ℓ) (c : Dev nD) (k : Fin 2)
    (j : Fin 7) (y : S32x512.Idx) :
    recvd m c k j y = m (((sender c j : Dev nD) : Thread nD τ).loc main_arg0) (gIdx c k y) := by
  have h0 : k0_off1 (sender c j) (BitVec.ofNat 32 (1 + j.val)) (BitVec.ofNat 32 (32 * k.val)) 0 = 64 * c.val + 32 * k.val := by
    rw [off1_row]
    have hc : c.val < 8 := c.isLt
    have hj : j.val < 7 := j.isLt
    have hs : (sender c j).val = (c.val + (7 - j.val)) % 8 := rfl
    rw [hs]
    omega
  unfold recvd xpart
  rw [read_slice_apply (cc0_stg0_0 : Ref sig .tc), emb_band c k _ h0 (off1_col _ k j) _ y, xst_eq]

theorem redN_seven {F : FTy → Type} [FloatOps F] (m : (ℓ : Loc nD τ sig) → Buf (Elt F) ℓ) (c : Dev nD) (k : Fin 2) :
    redN m c k 7 = addB (addB (addB (addB (addB (addB (addB (own32 m c k) (recvd m c k ⟨0, by decide⟩)) (recvd m c k ⟨1, by decide⟩))
      (recvd m c k ⟨2, by decide⟩)) (recvd m c k ⟨3, by decide⟩)) (recvd m c k ⟨4, by decide⟩)) (recvd m c k ⟨5, by decide⟩))
      (recvd m c k ⟨6, by decide⟩) := rfl

end Final

end Cert.Kernel.Proto

end
-- ==== Proof.K.BodyAux.lean ====
import proofs.«900587_g7700000000000588_dist_rs_then_ag_i_m512_n512_v7x_i8_f32_1_alg».proof.Proof.K.State
import proofs.«900587_g7700000000000588_dist_rs_then_ag_i_m512_n512_v7x_i8_f32_1_alg».proof.Proof.K.Pieces
import proofs.«900587_g7700000000000588_dist_rs_then_ag_i_m512_n512_v7x_i8_f32_1_alg».proof.Proof.K.Local

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem bigSepL_append {I : Type} (l₁ l₂ : List I) (Φ : I → sProp 𝕄) : bigSepL (l₁ ++ l₂) Φ = iprop(bigSepL l₁ Φ ∗ bigSepL l₂ Φ) := by
  induction l₁ with
  | nil => exact (eq_of_bi emp_sep).symm
  | cons x l ih => rw [List.cons_append, bigSepL_cons, bigSepL_cons, ih]; exact (eq_of_bi sep_assoc).symm

def ownL : List OwnK :=
  allKJ.map (fun kj => ((0 : Fin 4), kj.1, kj.2)) ++ (allKJ.map (fun kj => ((1 : Fin 4), kj.1, kj.2))
    ++ (allKJ.map (fun kj => ((2 : Fin 4), kj.1, kj.2)) ++ allKJ.map (fun kj => ((3 : Fin 4), kj.1, kj.2))))
def ckL : List CK := none :: ownL.map some

theorem ownL_univ : (Finset.univ : Finset OwnK) = ownL.toFinset := by decide
theorem ownL_nodup : ownL.Nodup := by decide
theorem ckL_univ : (Finset.univ : Finset CK) = ckL.toFinset := by decide
theorem ckL_nodup : ckL.Nodup := by decide

theorem bigSepL_ownL (Φ : OwnK → sProp 𝕄) : bigSepL ownL Φ =
    iprop((bigSepL allKJ fun kj => Φ (0, kj.1, kj.2)) ∗ (bigSepL allKJ fun kj => Φ (1, kj.1, kj.2))
      ∗ (bigSepL allKJ fun kj => Φ (2, kj.1, kj.2)) ∗ (bigSepL allKJ fun kj => Φ (3, kj.1, kj.2))) := by
  rw [ownL, bigSepL_append, bigSepL_append, bigSepL_append, bigSepL_map, bigSepL_map, bigSepL_map, bigSepL_map]

theorem positions_split (c : Dev nD) : (positions (F := F) c : sProp 𝕄) ⊣⊢ iprop(atPos ER (barCell c) 0 ∅ 0 ∗ (bigSepL allKJ fun kj => atPos ER (rsS c kj.1 kj.2) 0 ∅ 0) ∗ (bigSepL allKJ fun kj => atPos ER (rsR c kj.1 kj.2) 0 ∅ 0) ∗ (bigSepL allKJ fun kj => atPos ER (agS c kj.1 kj.2) 0 ∅ 0) ∗ (bigSepL allKJ fun kj => atPos ER (agR c kj.1 kj.2) 0 ∅ 0)) := by
  unfold positions
  rw [bigSep_univ_eq_bigSepL ckL ckL_univ ckL_nodup, ckL, bigSepL_cons, bigSepL_map, bigSepL_ownL]
  exact BiEntails.of_eq rfl

theorem records_inv (K : Dev nD × CK → ℕ) (ck : Dev nD × CK) : records m K ⊢ cellInv ER (Rd m) (K ck) (kcell ck) := by
  unfold records
  exact (BI.sep_and.trans BI.and_elimL).trans (BI.bigSep_elim (Finset.mem_univ ck))

theorem records_reached (K : Dev nD × CK → ℕ) (ck : Dev nD × CK) : records m K ⊢ reached ER (kcell ck) 0 := by
  unfold records
  exact (BI.sep_and.trans BI.and_elimR).trans (BI.bigSep_elim (Finset.mem_univ ck))

theorem records_inv_bar (K : Dev nD × CK → ℕ) (c' : Dev nD) : records m K ⊢ cellInv ER (Rd m) (K (c', none)) (barCell c') :=
  records_inv m K (c', none)
theorem records_inv_own (K : Dev nD × CK → ℕ) (c' : Dev nD) (x : OwnK) : records m K ⊢ cellInv ER (Rd m) (K (c', some x)) (ownCell c' x) :=
  records_inv m K (c', some x)
theorem records_reached_bar (K : Dev nD × CK → ℕ) (c' : Dev nD) : records m K ⊢ reached ER (barCell c') 0 :=
  records_reached m K (c', none)
theorem records_reached_own (K : Dev nD × CK → ℕ) (c' : Dev nD) (x : OwnK) : records m K ⊢ reached ER (ownCell c' x) 0 :=
  records_reached m K (c', some x)

abbrev sep7 (f : Fin 7 → sProp 𝕄) : sProp 𝕄 := iprop(f 0 ∗ f 1 ∗ f 2 ∗ f 3 ∗ f 4 ∗ f 5 ∗ f 6)
abbrev sep14 (f : Fin 2 → Fin 7 → sProp 𝕄) : sProp 𝕄 :=
  iprop(f 0 0 ∗ f 0 1 ∗ f 0 2 ∗ f 0 3 ∗ f 0 4 ∗ f 0 5 ∗ f 0 6 ∗ f 1 0 ∗ f 1 1 ∗ f 1 2 ∗ f 1 3 ∗ f 1 4 ∗ f 1 5 ∗ f 1 6)

theorem bigSepL_allJ (f : Fin 7 → sProp 𝕄) : bigSepL allJ f = sep7 f := rfl
theorem bigSepL_allKJ (f : Fin 2 × Fin 7 → sProp 𝕄) : bigSepL allKJ f = sep14 (fun k j => f (k, j)) := rfl

theorem write_write_on {κ : Kind} {sp : Space} {s : Shape} {e : EltTy} (v : View sig κ sp s e) (f : v.ty.Contents (Elt F))
    (a b : s.Idx → Elt F e) : ∀ i ∈ v.set, v.write (Elt F) (v.write (Elt F) f a Finset.univ) b Finset.univ i = v.write (Elt F) f b Finset.univ i := by
  intro i hi
  obtain ⟨y, rfl⟩ := View.exists_emb_of_mem_set v hi
  rw [View.write_emb_of_mem (v := v) (Val := Elt F) _ b (M := Finset.univ) (x := y) (Finset.mem_univ _),
    View.write_emb_of_mem (v := v) (Val := Elt F) f b (M := Finset.univ) (x := y) (Finset.mem_univ _)]

theorem acc_step (c : Dev nD) (k : Fin 2) (s : Fin 8) {pay : Vec F S32x512 .f32 → Vec F S1x1x32x512 .f32 → FVec F S32x512 .f32}
    (hpay : ∀ a b, pay a b = addB a (shapeCast S32x512 b shapeCasts_S1x1x32x512_S32x512))
    {f : Buf (Elt F) ((c : Thread nD τ).loc cc0_stg1_0)} {fd : Buf (Elt F) ((c : Thread nD τ).loc cc0_scratch0)} {a w : Vec F S32x512 .f32}
    {hl1 : (oM : Memref sig .tc .vmem S512x512 .f32).view.LoadsAt (r32 c k).toLoadRect}
    {hl2 : (rM : Memref sig .tc .vmem S2x8x32x512 .f32).view.LoadsAt (rSl k s).toLoadRect}
    {hl3 : (oM : Memref sig .tc .vmem S512x512 .f32).view.LoadsAt (r32 c k).toLoadRect}
    {hx : ((oM : Memref sig .tc .vmem S512x512 .f32).access (r32 c k)).Stores Finset.univ}
    {hm : (Finset.univ : Finset (r32 c k).shape.Idx) = Finset.univ ∨ ∀ a, (r32 c k).stride a = 1}
    {α : Type} {Q : α → sProp 𝕄} {kont : PUnit → Prog (TpuEff nD τ sig (Elt F) Λ₀ .tc) α} :
    iprop(pts (oRows c k) c fullShare ((oRows c k).view.write (Elt F) f a Finset.univ) ∗ pts (rSlot k s) c fullShare ((rSlot k s).view.write (Elt F) fd w Finset.univ))
      ⊢ iprop(((pts (oRows c k) c fullShare ((oRows c k).view.write (Elt F) f (addB a w) Finset.univ) ∗ pts (rSlot k s) c fullShare ((rSlot k s).view.write (Elt F) fd w Finset.univ)) -∗ wp frame (wpE (defs₀ (F := F)) 𝒱₀ (c : Thread nD τ) none) Set.univ (kont ⟨⟩) Q)
        -∗ wp frame (wpE (defs₀ (F := F)) 𝒱₀ (c : Thread nD τ) none) Set.univ
            (.op (.load (oM : Memref sig .tc .vmem S512x512 .f32) (r32 c k).toLoadRect hl1) fun v1 => .op (.load (rM : Memref sig .tc .vmem S2x8x32x512 .f32) (rSl k s).toLoadRect hl2) fun v2 => .op (.load (oM : Memref sig .tc .vmem S512x512 .f32) (r32 c k).toLoadRect hl3) fun _ => .op (.store (oM : Memref sig .tc .vmem S512x512 .f32) (r32 c k) (pay v1 v2) Finset.univ hx hm) kont) Q) := by
  iintro ⟨Ho, Hs⟩ Hk
  iapply (wp_load 𝒱₀ (c : Thread nD τ) none Set.univ (m := (oM : Memref sig .tc .vmem S512x512 .f32)) (r := (r32 c k).toLoadRect) (S := (oRows c k).view.set) (out_load32_sub c k)) $$ Ho
  iintro Ho
  iapply (wp_load 𝒱₀ (c : Thread nD τ) none Set.univ (m := (rM : Memref sig .tc .vmem S2x8x32x512 .f32)) (r := (rSl k s).toLoadRect) (S := (rSlot k s).view.set) (scr_load_sub k s)) $$ Hs
  iintro Hs
  iapply (wp_load 𝒱₀ (c : Thread nD τ) none Set.univ (m := (oM : Memref sig .tc .vmem S512x512 .f32)) (r := (r32 c k).toLoadRect) (S := (oRows c k).view.set) (out_load32_sub c k)) $$ Ho
  iintro Ho
  iapply (wp_store 𝒱₀ (c : Thread nD τ) none Set.univ (m := (oM : Memref sig .tc .vmem S512x512 .f32)) (r := r32 c k) (S := (oRows c k).view.set)
    (by rw [View.setOn_univ, out_acc32])) $$ Ho
  iintro Ho
  iapply Hk
  isplitl [Ho]
  · rw [hpay, load32_of_band, slot_load, store32_band]
    rw [← pts_congr (oRows c k) c fullShare _ _ (write_write_on (oRows c k).view f a (addB a w))]
    iexact Ho
  · iexact Hs

theorem copy_on_band (c : Dev nD) (k : Fin 2) (f0 : Buf (Elt F) ((c : Thread nD τ).loc cc0_stg1_0)) :
    ∀ i ∈ (oRows c k).view.set,
      (((oM : Memref sig .tc .vmem S512x512 .f32).access (r64 c) : View sig .tc _ _ _).write (Elt F) f0
        (k0_pay1 ((xM : Memref sig .tc .vmem S512x512 .f32).view.readAt (Elt F) (r64 c).toLoadRect (xst m c))) Finset.univ) i
        = (oRows c k).view.write (Elt F) f0 (own32 m c k) Finset.univ i := by
  intro i hi
  obtain ⟨y, rfl⟩ := View.exists_emb_of_mem_set (oRows c k).view hi
  have e : (oRows c k).view.emb y = (r32 c k).emb y :=
    (emb_band c k _ (off4_row c k) (off4_col c k) _ y).trans (r32_emb c k y).symm
  have h1 := View.write_emb_of_mem (v := (oRows c k).view) (Val := Elt F) f0 (own32 m c k) (M := Finset.univ) (x := y) (Finset.mem_univ _)
  have h2 := congrFun (copy64_load32 c k f0 (xst m c)) y
  rw [readAt_whole_apply (cc0_stg1_0 : Ref sig .tc) (r32 c k), ← e] at h2
  have h3 : own32 m c k y = (xM : Memref sig .tc .vmem S512x512 .f32).view.readAt (Elt F) (r32 c k).toLoadRect (xst m c) y := by
    unfold own32; rfl
  rw [h1, h3]
  exact h2

theorem own_bands_join (c : Dev nD) (g : Buf (Elt F) ((c : Thread nD τ).loc cc0_stg1_0)) :
    (iprop(pts (oRows c 0) c fullShare g ∗ pts (oRows c 1) c fullShare g) : sProp 𝕄)
      = (((c : Thread nD τ).loc cc0_stg1_0) ↦[((oM : Memref sig .tc .vmem S512x512 .f32).access (r64 c)).set]{fullShare} g) := by
  rw [out_own64]; exact (eq_of_bi (pointsTo_union (out_own_disj c))).symm

theorem o_load64_sub (c : Dev nD) : (oM : Memref sig .tc .vmem S512x512 .f32).view.setOn (r64 c).toLoadRect.set ⊆ ((oM : Memref sig .tc .vmem S512x512 .f32).access (r64 c)).set := by
  show (View.whole cc0_stg1_0 : View sig .tc _ _ _).setOn (r64 c).set ⊆ ((View.whole cc0_stg1_0 : View sig .tc _ _ _).slice (r64 c)).set
  rw [setOn_whole, View.set_slice_whole]

theorem copy_step (c : Dev nD) {f0 : Buf (Elt F) ((c : Thread nD τ).loc cc0_stg1_0)}
    {hl1 : (xM : Memref sig .tc .vmem S512x512 .f32).view.LoadsAt (r64 c).toLoadRect}
    {hl2 : (oM : Memref sig .tc .vmem S512x512 .f32).view.LoadsAt (r64 c).toLoadRect}
    {hx : ((oM : Memref sig .tc .vmem S512x512 .f32).access (r64 c)).Stores Finset.univ}
    {hm : (Finset.univ : Finset (r64 c).shape.Idx) = Finset.univ ∨ ∀ a, (r64 c).stride a = 1}
    {α : Type} {Q : α → sProp 𝕄} {kont : PUnit → Prog (TpuEff nD τ sig (Elt F) Λ₀ .tc) α} :
    iprop(xOwn c (xst m c) ∗ pts (oRows c 0) c fullShare f0 ∗ pts (oRows c 1) c fullShare f0)
      ⊢ iprop(((xOwn c (xst m c) ∗ pts (oRows c 0) c fullShare ((oRows c 0).view.write (Elt F) f0 (own32 m c 0) Finset.univ)
            ∗ pts (oRows c 1) c fullShare ((oRows c 1).view.write (Elt F) f0 (own32 m c 1) Finset.univ))
          -∗ wp frame (wpE (defs₀ (F := F)) 𝒱₀ (c : Thread nD τ) none) Set.univ (kont ⟨⟩) Q)
        -∗ wp frame (wpE (defs₀ (F := F)) 𝒱₀ (c : Thread nD τ) none) Set.univ
            (.op (.load (xM : Memref sig .tc .vmem S512x512 .f32) (r64 c).toLoadRect hl1) fun v1 => .op (.load (oM : Memref sig .tc .vmem S512x512 .f32) (r64 c).toLoadRect hl2) fun _ => .op (.store (oM : Memref sig .tc .vmem S512x512 .f32) (r64 c) (k0_pay1 v1) Finset.univ hx hm) kont) Q) := by
  rw [own_bands_join c f0]
  iintro ⟨Hx, Ho⟩ Hk
  iapply (wp_load 𝒱₀ (c : Thread nD τ) none Set.univ (m := (xM : Memref sig .tc .vmem S512x512 .f32)) (r := (r64 c).toLoadRect)
    (S := ((xM : Memref sig .tc .vmem S512x512 .f32).access (r64 c)).set) (x_load64_sub c)) $$ Hx
  iintro Hx
  iapply (wp_load 𝒱₀ (c : Thread nD τ) none Set.univ (m := (oM : Memref sig .tc .vmem S512x512 .f32)) (r := (r64 c).toLoadRect)
    (S := ((oM : Memref sig .tc .vmem S512x512 .f32).access (r64 c)).set) (o_load64_sub c)) $$ Ho
  iintro Ho
  iapply (wp_store 𝒱₀ (c : Thread nD τ) none Set.univ (m := (oM : Memref sig .tc .vmem S512x512 .f32)) (r := r64 c)
    (S := ((oM : Memref sig .tc .vmem S512x512 .f32).access (r64 c)).set) (by rw [View.setOn_univ])) $$ Ho
  iintro Ho
  iapply Hk
  isplitl [Hx]
  · iexact Hx
  · rw [← pts_congr (oRows c 0) c fullShare _ _ (copy_on_band m c 0 f0), ← pts_congr (oRows c 1) c fullShare _ _ (copy_on_band m c 1 f0),
      own_bands_join]
    iexact Ho

end Cert.Kernel.Proto

end
-- ==== Proof.K.Launch.lean ====
import proofs.«900587_g7700000000000588_dist_rs_then_ag_i_m512_n512_v7x_i8_f32_1_alg».proof.Proof.K.BodyAux

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

abbrev TK : Type := Fin 7 ⊕ OwnK

def tokOf (ct : Dev nD × TK) : GSem nD τ sig × ℕ × Dn :=
  match ct.2 with
  | .inl j => (barCell ct.1, 0, dOf j)
  | .inr x => (ownCell ct.1 x, 0, (0 : Dn))

theorem dOf_injective : Function.Injective dOf := by decide

theorem tokOf_injective : Function.Injective (tokOf : Dev nD × TK → GSem nD τ sig × ℕ × Dn) := by
  rintro ⟨c, t⟩ ⟨c', t'⟩ h
  have h1 : c = c' := by
    have := congrArg (fun x : GSem nD τ sig × ℕ × Dn => x.1.1.1) h
    cases t <;> cases t' <;> exact this
  subst h1
  cases t with
  | inl j =>
    cases t' with
    | inl j' =>
      have h2 : dOf j = dOf j' := congrArg (fun x : GSem nD τ sig × ℕ × Dn => x.2.2) h
      rw [dOf_injective h2]
    | inr x' => exact absurd (congrArg (fun x : GSem nD τ sig × ℕ × Dn => x.1.2) h).symm (own_ne_bar x')
  | inr x =>
    cases t' with
    | inl j' => exact absurd (congrArg (fun x : GSem nD τ sig × ℕ × Dn => x.1.2) h) (own_ne_bar x)
    | inr x' =>
      have h2 : osem x = osem x' := congrArg (fun x : GSem nD τ sig × ℕ × Dn => x.1.2) h
      rw [osem_injective h2]

def ringToks : Finset (GSem nD τ sig × ℕ × Dn) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun j : Fin 7 => dutyTok ER (barCell c) 0 (dOf j))
    ∗ (bigSep Finset.univ fun x : OwnK => dutyTok ER (ownCell c x) 0 (0 : Dn)))

def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

omit [FloatOps F] in
private theorem bigSep_option {I : Type} [Fintype I] [DecidableEq I] (Φ : Option I → sProp 𝕄) :
    bigSep Finset.univ Φ = iprop(Φ none ∗ bigSep Finset.univ fun i : I => Φ (some i)) := by
  rw [bigSep_univ_at Φ none]
  have h : (Finset.univ : Finset (Option I)).erase none = Finset.univ.map Function.Embedding.some := by
    ext x; cases x <;> simp
  rw [h, bigSep_map]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
private theorem bigSep_deal {J : Type} [Fintype J] (e : J → Dev nD ≃ Dev nD) (Φ : Dev nD → J → sProp 𝕄) :
    (bigSep Finset.univ fun c : Dev nD => bigSep Finset.univ fun j : J => Φ c j)
      = bigSep Finset.univ fun c : Dev nD => bigSep Finset.univ fun j : J => Φ (e j c) j := by
  rw [bigSep_univ_comm (fun c j => Φ c j), bigSep_univ_comm (fun c j => Φ (e j c) j)]
  exact bigSep_congr fun j _ => bigSep_univ_equiv (e j) (fun c => Φ c j)

omit [FloatOps F] in
private theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem toks_eq (c : Dev nD) : (toks c : sProp 𝕄) =
    iprop((bigSep Finset.univ fun j : Fin 7 => dutyTok ER (barCell c) 0 (dOf j))
      ∗ (bigSep Finset.univ fun kj : Fin 2 × Fin 7 => dutyTok ER (rsS c kj.1 kj.2) 0 (0 : Dn))
      ∗ (bigSep Finset.univ fun kj : Fin 2 × Fin 7 => dutyTok ER (rsR c kj.1 kj.2) 0 (0 : Dn))
      ∗ (bigSep Finset.univ fun kj : Fin 2 × Fin 7 => dutyTok ER (agS c kj.1 kj.2) 0 (0 : Dn))
      ∗ (bigSep Finset.univ fun kj : Fin 2 × Fin 7 => dutyTok ER (agR c kj.1 kj.2) 0 (0 : Dn))) := by
  unfold toks
  rw [bigSep_univ_prod (fun x : OwnK => (dutyTok ER (ownCell c x) 0 (0 : Dn) : sProp 𝕄)), bigSep_fin4]

omit [FloatOps F] in
theorem payToks_eq (c : Dev nD) : (payToks c : sProp 𝕄) =
    iprop((bigSep Finset.univ fun j : Fin 7 => dutyTok ER (barCell (peer c j)) 0 (dOf j))
      ∗ ((bigSep Finset.univ fun kj : Fin 2 × Fin 7 => dutyTok ER (rsS c kj.1 kj.2) 0 (0 : Dn))
        ∗ (bigSep Finset.univ fun kj : Fin 2 × Fin 7 => dutyTok ER (rsR (peer c kj.2) kj.1 kj.2) 0 (0 : Dn)))
      ∗ ((bigSep Finset.univ fun kj : Fin 2 × Fin 7 => dutyTok ER (agS c kj.1 kj.2) 0 (0 : Dn))
        ∗ (bigSep Finset.univ fun kj : Fin 2 × Fin 7 => dutyTok ER (agR (peer c kj.2) kj.1 kj.2) 0 (0 : Dn)))) := by
  unfold payToks
  rw [← bigSep_univ_eq_bigSepL allJ (by decide) (by decide), ← bigSep_univ_eq_bigSepL allKJ (by decide) (by decide),
    ← bigSep_univ_eq_bigSepL allKJ (by decide) (by decide), bigSep_sep', bigSep_sep']

omit [FloatOps F] in
theorem toks_around : (bigSep Finset.univ fun c : Dev nD => (toks c : sProp 𝕄)) ⊢ bigSep Finset.univ fun c : Dev nD => payToks c := by
  rw [bigSep_congr (s := Finset.univ) (fun (c : Dev nD) _ => toks_eq (F := F) c),
    bigSep_congr (s := Finset.univ) (fun (c : Dev nD) _ => payToks_eq (F := F) c)]
  simp only [bigSep_sep']
  rw [bigSep_deal (fun j : Fin 7 => peerE j) (fun c j => (dutyTok ER (barCell c) 0 (dOf j) : sProp 𝕄)),
    bigSep_deal (fun kj : Fin 2 × Fin 7 => peerE kj.2) (fun c kj => (dutyTok ER (rsR c kj.1 kj.2) 0 (0 : Dn) : sProp 𝕄)),
    bigSep_deal (fun kj : Fin 2 × Fin 7 => peerE kj.2) (fun c kj => (dutyTok ER (agR c kj.1 kj.2) 0 (0 : Dn) : sProp 𝕄))]
  simp only [show ∀ (j : Fin 7) (c : Dev nD), (peerE j) c = peer c j from fun _ _ => rfl]
  iintro ⟨H1, H2, H3, H4, H5⟩
  isplitl [H1]; · iexact H1
  isplitl [H2 H3]
  · isplitl [H2] <;> iassumption
  isplitl [H4] <;> iassumption

omit [FloatOps F] in
private theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m K ∗ positions c ∗ payToks c) ⊢ G' m c := by
  unfold G' ghost
  iintro H
  iexists K
  iexact H

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent' (R := records m K) fun c _ => ghost_intro m K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def payOf (d : Dev nD) (ps : List (Fin 7 × SemLoc sig × ℕ)) : List (GSem nD τ sig × ℕ) :=
  ps.map fun p => ((((peer d p.1 : Dev nD) : Thread nD τ), p.2.1), p.2.2)

omit [FloatOps F] in
theorem launchCred_payOf (ps : List (Fin 7 × SemLoc sig × ℕ)) (c : Dev nD) :
    (Pipeline.launchCred (fun d => owedL (payOf d ps)) c : sProp 𝕄)
      ⊢ bigSepL ps fun p => cred (tallyAt ((c : Thread nD τ), p.2.1) () p.2.2) := by
  induction ps with
  | nil =>
    have e : (fun d : Dev nD => owedL (payOf d [])) = fun _ : Dev nD => (0 : CellTallies nD τ sig Unit) := rfl
    rw [e, Pipeline.launchCred_zero]; exact .rfl
  | cons p ps ih =>
    have e : (fun d : Dev nD => owedL (payOf d (p :: ps)))
        = fun d : Dev nD => owedL (payOf d ps) + tallyAt ((((peer d p.1 : Dev nD) : Thread nD τ), p.2.1)) () p.2.2 := rfl
    rw [e, Pipeline.launchCred_add (fun d : Dev nD => owedL (payOf d ps)) (fun d : Dev nD => tallyAt ((((peer d p.1 : Dev nD) : Thread nD τ), p.2.1)) () p.2.2), bigSepL_cons]
    exact BI.sep_comm.trans (BI.sep_mono
      (Pipeline.launchCred_tallyAt p.2.1 (fun d => peer d p.1) (fun d => sender d p.1) (fun d => peer_sender d p.1) (fun d => sender_peer d p.1) () p.2.2 c) ih)

def payPs : List (Fin 7 × SemLoc sig × ℕ) :=
  allJ.map (fun j => (j, SemLoc.reg barS, 1))
    ++ allKJ.map (fun kj => (kj.2, osem (1, kj.1, kj.2), NW))
    ++ allKJ.map (fun kj => (kj.2, osem (3, kj.1, kj.2), NW))

omit [FloatOps F] in
theorem payList_eq (d : Dev nD) : payList d = payOf d payPs := by
  unfold payList payOf payPs
  rw [List.map_append, List.map_append, List.map_map, List.map_map, List.map_map]
  rfl

omit [FloatOps F] in
theorem cred_units (g : GSem nD τ sig) {I : Type} (l : List I) :
    (bigSepL l fun _ => cred (tallyAt g () 1) : sProp 𝕄) ⊢ cred (tallyAt g () l.length) := by
  induction l with
  | nil =>
    have e : (tallyAt g () 0 : CellTallies nD τ sig Unit) = 0 := by unfold tallyAt; rw [Finsupp.single_zero, tallyOn_zero]
    rw [List.length_nil, e, cred_zero]; exact .rfl
  | cons i l ih =>
    rw [bigSepL_cons, List.length_cons, Nat.add_comm, ← tallyAt_add]
    exact (sep_mono_right ih).trans (cred_add _ _).2

theorem creds_intro (c : Dev nD) : (Pipeline.launchCred O₀ c : sProp 𝕄) ⊢ creds c := by
  have e : (O₀ : Dev nD → CellTallies nD τ sig Unit) = fun d => owedL (payOf d payPs) := funext fun d => by unfold O₀; rw [payList_eq]
  rw [e]
  refine (launchCred_payOf payPs c).trans ?_
  unfold payPs creds
  rw [bigSepL_append, bigSepL_append, bigSepL_map, bigSepL_map, bigSepL_map]
  iintro ⟨⟨H1, H2⟩, H3⟩
  isplitl [H1]
  · iapply (cred_units (F := F) (barCell c) allJ); iexact H1
  isplitl [H2]
  · iexact H2
  · iexact H3

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ scrPts Pipeline.ownSems0
  iintro ⟨Hr, Hz⟩
  isplitr; · iempintro
  isplitl [Hz]; · iexact Hz
  iexact Hr

omit [FloatOps F] in
theorem two_le_semNo (kd : Fin 4) (k : Fin 2) (j : Fin 7) : 2 ≤ semNo kd k j := by revert kd k j; decide

omit [FloatOps F] in
theorem decode_stage (q : DmaSem sig) (hq : q.val < 2) : decode (.dma q) = none := by
  unfold decode
  rw [dif_neg]
  rintro ⟨x, hx⟩
  have h1 : semNo x.1 x.2.1 x.2.2 = q.val := congrArg Fin.val (SemLoc.dma.inj hx)
  have h2 := two_le_semNo x.1 x.2.1 x.2.2
  omega

omit [FloatOps F] in
theorem lv_stage (c : Dev nD) (q : DmaSem sig) (hq : q.val < 2) : lv ((c : Thread nD τ), .dma q) () = 0 := by
  unfold lv
  rw [if_neg (fun h => by cases h), decode_stage q hq]

omit [FloatOps F] in
theorem payList_lv (c : Dev nD) : ∀ x ∈ payList c, x.1.1.2 = Proc.tc ∧ 0 < lv x.1 () := by
  intro x hx
  unfold payList at hx
  rcases List.mem_append.mp hx with hx | hx
  · rcases List.mem_append.mp hx with hx | hx
    · obtain ⟨j, -, rfl⟩ := List.mem_map.mp hx; exact ⟨rfl, by rw [lv_bar]; decide⟩
    · obtain ⟨kj, -, rfl⟩ := List.mem_map.mp hx; exact ⟨rfl, by rw [lv_rsR]; decide⟩
  · obtain ⟨kj, -, rfl⟩ := List.mem_map.mp hx; exact ⟨rfl, by rw [lv_agR]; decide⟩

theorem waits (c : Dev nD) : (levAts L lv : sProp 𝕄) ⊢ Pipeline.cellsWaits cfgs (dats m ρ) () 0 c :=
  Pipeline.cellsWaits_intro cfgs (dats m ρ) () 0 c fun w s t => by
    have hq : (((cfgs 0).win w).sem s).val < 2 := by fin_cases w <;> fin_cases s <;> decide
    rcases t with ⟨_ | _, ht⟩
    · show (levAts L lv : sProp 𝕄) ⊢ MayWait (c : Thread nD τ) (.dma (((cfgs 0).win w).sem s)) () (O₀ c)
      exact mayWait_owedL c _ (payList c) fun x hx => by
        rw [lv_stage c _ hq]; exact payList_lv c x hx
    · show (levAts L lv : sProp 𝕄) ⊢ MayWait (c : Thread nD τ) (.dma (((cfgs 0).win w).sem s)) () 0
      exact mayWait_zero' c _

def finalA (c : Dev nD) (w : Fin cfg0.W) : Buf (Elt F) ((cfg0.win w).arr.view.loc (c : Thread nD τ)) := (dats m ρ 0 c).arrAt w cfg0.N

set_option maxRecDepth 8000 in
theorem run_main (hbody : ∀ c : Dev nD, BodyObligation (dats (F := F) m ρ 0 c) (defs₀ (F := F)) 𝒱₀ () Set.univ) :
    θ_run defs (onTc (τ := τ) (main (F := F))) (st₀ m ρ)
      (fun r => ∀ c : Dev nD, ∀ w : Fin cfg0.W, r.2.mem ((cfg0.win w).arr.view.loc (c : Thread nD τ)) = finalA m ρ c w) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (st₀ m ρ).mem (win0_0.arr.view.loc (c : Thread nD τ)) :=
  (dats (F := F) m ρ 0 c).arrAt_in (0 : Fin 2) rfl _

theorem finalA_out (c : Dev nD) : finalA m ρ c (1 : Fin 2) = outFin m := by
  unfold finalA
  have h := (dats (F := F) m ρ 0 c).arrAt_succ (1 : Fin 2) t₀
  rw [flush0_1 t₀, if_pos rfl] at h
  refine (show (dats (F := F) m ρ 0 c).arrAt (1 : Fin 2) cfg0.N = (dats (F := F) m ρ 0 c).arrAt (1 : Fin 2) (t₀.val + 1) from rfl).trans (h.trans ?_)
  have e : (dats (F := F) m ρ 0 c).flushed (1 : Fin 2) t₀ = outFin m := by
    dsimp only [dats, Dat.flushed]
    rfl
  rw [e]
  exact Memref.write_access_unit_zero_univ (Elt F) main_v1 (funext fun a => Nat.zero_mul _) _ _ _

theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFin m
      ∧ r.2.mem ((c.tc : Thread nD τ).loc main_arg0) = m ((c.tc : Thread nD τ).loc main_arg0)) :=
  (θ_run defs _ _).mono (fun _ h c => ⟨((h c) (1 : Fin 2)).trans (finalA_out m ρ c), ((h c) (0 : Fin 2)).trans (finalA_x m ρ c)⟩) (run_main m ρ hbody)

end Cert.Kernel.Proto

end
-- ==== Proof.K.Finish.lean ====
import proofs.«900587_g7700000000000588_dist_rs_then_ag_i_m512_n512_v7x_i8_f32_1_alg».proof.Proof.K.State
import proofs.«900587_g7700000000000588_dist_rs_then_ag_i_m512_n512_v7x_i8_f32_1_alg».proof.Proof.K.Pieces
import proofs.«900587_g7700000000000588_dist_rs_then_ag_i_m512_n512_v7x_i8_f32_1_alg».proof.Proof.K.Local

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

theorem close_own (K : Dev nD × CK → ℕ) (c : Dev nD) (x : OwnK) :
    iprop(cellInv ER (Rd m) (K (c, some x)) (ownCell c x) ∗ atPos ER (ownCell c x) 1 ∅ 0) ⊢ (|={Set.univ}=> semVal (ownCell c x) 0 : sProp 𝕄) :=
  Rounds.cell_close ER (Rd m) (Set.mem_univ (K (c, some x))) (fun h => h) (R := 1) (duties_later m (ownCell c x))

theorem join_x (c : Dev nD) :
    iprop(xOwn c (xst m c) ∗ bigSepL allKJ fun kj => pts (xSrc c kj.1 kj.2) c fullShare (xst m c)) ⊢ (stg c cc0_stg0_0 (xst m c) : sProp 𝕄) := by
  iintro H
  iexists (xst m c)
  isplitr; · ipureintro; rfl
  iapply (x_split (F := F) c (xst m c)).2
  iexact H

theorem share_join_of (c : Dev nD) (k : Fin 2) (fd : Fin 7 → Buf (Elt F) ((c : Thread nD τ).loc cc0_stg1_0)) :
    (bigSepL allJ fun j => pts (oRows c k) c (agQ j) ((oRows c k).view.write (Elt F) (fd j) (redV m c k) Finset.univ) : sProp 𝕄)
      ⊢ pts (oRows c k) c fullShare (outFin m) := by
  have e : (fun j : Fin 7 => (pts (oRows c k) c (agQ j) ((oRows c k).view.write (Elt F) (fd j) (redV m c k) Finset.univ) : sProp 𝕄))
      = fun j : Fin 7 => pts (oRows c k) c (agQ j) (outFin m) :=
    funext fun j => pts_congr (oRows c k) c (agQ j) _ _ (outFin_on_band m c k (fd j))
  rw [e]
  exact (share_split (oRows c k) c (outFin m)).2

theorem join_out (c : Dev nD) (fd : Fin 2 × Fin 7 → Buf (Elt F) ((c : Thread nD τ).loc cc0_stg1_0)) :
    iprop((pts (oRows c 0) c fullShare (outFin m) ∗ pts (oRows c 1) c fullShare (outFin m))
        ∗ bigSepL allKJ fun kj => pts (oRows (peer c kj.2) kj.1) c fullShare
            ((oRows (peer c kj.2) kj.1).view.write (Elt F) (fd kj) (redV m (peer c kj.2) kj.1) Finset.univ))
      ⊢ (stg c cc0_stg1_0 (outFin m) : sProp 𝕄) := by
  have e : (fun kj : Fin 2 × Fin 7 => (pts (oRows (peer c kj.2) kj.1) c fullShare
        ((oRows (peer c kj.2) kj.1).view.write (Elt F) (fd kj) (redV m (peer c kj.2) kj.1) Finset.univ) : sProp 𝕄))
      = fun kj : Fin 2 × Fin 7 => pts (oRows (peer c kj.2) kj.1) c fullShare (outFin m) :=
    funext fun kj => pts_congr (oRows (peer c kj.2) kj.1) c fullShare _ _ (outFin_on_band m (peer c kj.2) kj.1 (fd kj))
  rw [e]
  iintro H
  iexists (outFin m)
  isplitr; · ipureintro; rfl
  iapply (out_split (F := F) c (outFin m)).2
  iexact H

/-- Choices made piece by piece over a listed index type gather into one choice function. -/
theorem bigSepL_exists {I Y : Type} [Fintype I] [DecidableEq I] [Nonempty Y] (l : List I) (hu : (Finset.univ : Finset I) = l.toFinset)
    (hn : l.Nodup) (P : I → Y → sProp 𝕄) :
    (bigSepL l fun i => iprop(∃ y, P i y)) ⊢ iprop(∃ y : I → Y, bigSepL l fun i => P i (y i)) := by
  rw [← bigSep_univ_eq_bigSepL l hu hn]
  refine (BI.bigSep_exists_pi Finset.univ P).trans ?_
  iintro ⟨%y, H⟩
  iexists y
  rw [← bigSep_univ_eq_bigSepL l hu hn]
  iexact H

theorem share_join_ex (c : Dev nD) (k : Fin 2) :
    (bigSepL allJ fun j => iprop(∃ fd, pts (oRows c k) c (agQ j) ((oRows c k).view.write (Elt F) fd (redV m c k) Finset.univ)) : sProp 𝕄)
      ⊢ pts (oRows c k) c fullShare (outFin m) := by
  haveI : Nonempty (Buf (Elt F) ((c : Thread nD τ).loc cc0_stg1_0)) := ⟨outFin m⟩
  refine (bigSepL_exists allJ (by decide) (by decide) (fun (j : Fin 7) (fd : Buf (Elt F) ((c : Thread nD τ).loc cc0_stg1_0)) =>
    (pts (oRows c k) c (agQ j) ((oRows c k).view.write (Elt F) fd (redV m c k) Finset.univ) : sProp 𝕄))).trans ?_
  iintro ⟨%fd, H⟩
  iapply (share_join_of m c k fd)
  iexact H

theorem join_out_ex (c : Dev nD) :
    iprop((pts (oRows c 0) c fullShare (outFin m) ∗ pts (oRows c 1) c fullShare (outFin m))
        ∗ bigSepL allKJ fun kj => iprop(∃ fd, pts (oRows (peer c kj.2) kj.1) c fullShare
            ((oRows (peer c kj.2) kj.1).view.write (Elt F) fd (redV m (peer c kj.2) kj.1) Finset.univ)))
      ⊢ (stg c cc0_stg1_0 (outFin m) : sProp 𝕄) := by
  haveI : Nonempty (Buf (Elt F) ((c : Thread nD τ).loc cc0_stg1_0)) := ⟨outFin m⟩
  iintro ⟨H01, H⟩
  ihave H' := (bigSepL_exists allKJ (by decide) (by decide) (fun (kj : Fin 2 × Fin 7) (fd : Buf (Elt F) ((c : Thread nD τ).loc cc0_stg1_0)) =>
    (pts (oRows (peer c kj.2) kj.1) c fullShare ((oRows (peer c kj.2) kj.1).view.write (Elt F) fd (redV m (peer c kj.2) kj.1) Finset.univ) : sProp 𝕄))) $$ H
  icases H' with ⟨%fd, H'⟩
  iapply (join_out m c fd)
  isplitl [H01] <;> iassumption

include m in
/-- Pairwise disjoint slots, each at some contents, join into the landing scratch whole at some contents. -/
theorem join_scr_ex (c : Dev nD) :
    iprop(((∃ g, pts (rSlot 0 0) c fullShare g) ∗ (∃ g, pts (rSlot 1 0) c fullShare g))
        ∗ bigSepL allKJ fun kj => iprop(∃ g, pts (rSlot kj.1 (slotB kj.2)) c fullShare g))
      ⊢ (∃ f, scrPts c f : sProp 𝕄) := by
  haveI : Nonempty (Buf (Elt F) ((c : Thread nD τ).loc cc0_scratch0)) := ⟨m _⟩
  refine ((slots_list fun t : Fin 2 × Fin 8 => iprop(∃ g, ((c : Thread nD τ).loc cc0_scratch0) ↦[slotR t.1 t.2]{fullShare} g)).2.trans
    (BI.bigSep_exists_pi Finset.univ fun (t : Fin 2 × Fin 8) g => (((c : Thread nD τ).loc cc0_scratch0) ↦[slotR t.1 t.2]{fullShare} g : sProp 𝕄))).trans ?_
  iintro ⟨%fs, H⟩
  ihave H := (pointsTo_biUnion_join Finset.univ (fun t : Fin 2 × Fin 8 => slotR t.1 t.2) fs (m _) slotR_disj) $$ H
  icases H with ⟨%g, -, H⟩
  iexists g
  unfold scrPts
  rw [pts_cover (F := F) (ℓ := (c : Thread nD τ).loc cc0_scratch0) Finset.univ (fun t : Fin 2 × Fin 8 => slotR t.1 t.2) fullShare g slotR_cover slotR_disj,
    pointsTo_biUnion (ℓ := (c : Thread nD τ).loc cc0_scratch0) Finset.univ (fun t : Fin 2 × Fin 8 => slotR t.1 t.2) slotR_disj]
  exact .rfl

end Cert.Kernel.Proto

end
-- ==== Proof.K.Restate.lean ====
import proofs.«900587_g7700000000000588_dist_rs_then_ag_i_m512_n512_v7x_i8_f32_1_alg».proof.Proof.K.State

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

open Idealize.ShloMosaic.Tactic

theorem ownPay_rsS (c : Dev nD) (k : Fin 2) (j : Fin 7) :
    (ownPay m c (0, k, j) : sProp 𝕄) = iprop((xSrc c k j).view.loc (c : Thread nD τ) ↦[(xSrc c k j).view.set]{fullShare} xst m c) := rfl

theorem ownPay_rsR (c : Dev nD) (k : Fin 2) (j : Fin 7) :
    (ownPay m c (1, k, j) : sProp 𝕄) = iprop(∃ fd, (rSlot k (slotOf j)).view.loc (c : Thread nD τ) ↦[(rSlot k (slotOf j)).view.set]{fullShare}
      ((rSlot k (slotOf j)).view.write (Elt F) fd (recvd m c k j) Finset.univ)) := rfl

theorem ownPay_agS (c : Dev nD) (k : Fin 2) (j : Fin 7) :
    (ownPay m c (2, k, j) : sProp 𝕄) = iprop(∃ fd, (oRows c k).view.loc (c : Thread nD τ) ↦[(oRows c k).view.set]{agQ j}
      ((oRows c k).view.write (Elt F) fd (redV m c k) Finset.univ)) := rfl

theorem ownPay_agR (c : Dev nD) (k : Fin 2) (j : Fin 7) :
    (ownPay m c (3, k, j) : sProp 𝕄) = iprop(∃ fd, (oRows (sender c j) k).view.loc (c : Thread nD τ) ↦[(oRows (sender c j) k).view.set]{fullShare}
      ((oRows (sender c j) k).view.write (Elt F) fd (redV m (sender c j) k) Finset.univ)) := rfl

theorem ownPay_rsR_of (c' c : Dev nD) (k : Fin 2) (j : Fin 7) (h : sender c' j = c) :
    (ownPay m c' (1, k, j) : sProp 𝕄) = iprop(∃ fd, (rSlot k (slotOf j)).view.loc (c' : Thread nD τ) ↦[(rSlot k (slotOf j)).view.set]{fullShare}
      ((rSlot k (slotOf j)).view.write (Elt F) fd ((xSrc c k j).view.read (Elt F) (xst m c)) Finset.univ)) := by
  subst h; rfl

theorem ownPay_agR_of (c' c : Dev nD) (k : Fin 2) (j : Fin 7) (h : sender c' j = c) :
    (ownPay m c' (3, k, j) : sProp 𝕄) = iprop(∃ fd, (oRows c k).view.loc (c' : Thread nD τ) ↦[(oRows c k).view.set]{fullShare}
      ((oRows c k).view.write (Elt F) fd (redV m c k) Finset.univ)) := by
  subst h; rfl

omit [FloatOps F] in
theorem barPayJ_of (c' c : Dev nD) (j : Fin 7) (h : sender c' j = c) : (barPayJ (F := F) c' j : sProp 𝕄) =
    iprop((∃ f, (rSlot 0 (slotB j)).view.loc (c : Thread nD τ) ↦[(rSlot 0 (slotB j)).view.set]{fullShare} f)
      ∗ (∃ f, (rSlot 1 (slotB j)).view.loc (c : Thread nD τ) ↦[(rSlot 1 (slotB j)).view.set]{fullShare} f)
      ∗ (∃ f, (oRows c' 0).view.loc (c : Thread nD τ) ↦[(oRows c' 0).view.set]{fullShare} f)
      ∗ (∃ f, (oRows c' 1).view.loc (c : Thread nD τ) ↦[(oRows c' 1).view.set]{fullShare} f)) := by
  subst h; rfl

end Cert.Kernel.Proto

end
-- ==== Proof.K.Ledger.lean ====
import proofs.«900587_g7700000000000588_dist_rs_then_ag_i_m512_n512_v7x_i8_f32_1_alg».proof.Proof.K.State

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

def owedFrom (c : Dev nD) (n : ℕ) : CellTallies nD τ sig Unit := owedL (List.drop n (payList c))

theorem owedFrom_zero (c : Dev nD) : O₀ c = owedFrom c 0 := rfl

theorem payList_length (c : Dev nD) : (payList c).length = 35 := rfl

theorem owedFrom_step (c : Dev nD) (n : ℕ) (h : n < 35) :
    owedFrom c n = owedFrom c (n + 1)
      + tallyAt ((payList c)[n]'(by rw [payList_length]; exact h)).1 () ((payList c)[n]'(by rw [payList_length]; exact h)).2 := by
  unfold owedFrom
  rw [List.drop_eq_getElem_cons (by rw [payList_length]; exact h), owedL_cons]

theorem owed_bar (c : Dev nD) (j : Fin 7) : owedFrom c j.val = owedFrom c (j.val + 1) + tallyAt (barCell (peer c j)) () 1 := by
  have h : j.val < 35 := by have := j.isLt; omega
  have e : (payList c)[j.val]'(by rw [payList_length]; exact h) = (barCell (peer c j), 1) := by
    fin_cases j <;> rfl
  rw [owedFrom_step c j.val h, e]

theorem owed_rs (c : Dev nD) (k : Fin 2) (j : Fin 7) :
    owedFrom c (7 + 7 * k.val + j.val) = owedFrom c (7 + 7 * k.val + j.val + 1) + tallyAt (rsR (peer c j) k j) () NW := by
  have h : 7 + 7 * k.val + j.val < 35 := by have := j.isLt; have := k.isLt; omega
  have e : (payList c)[7 + 7 * k.val + j.val]'(by rw [payList_length]; exact h) = (rsR (peer c j) k j, NW) := by
    fin_cases k <;> fin_cases j <;> rfl
  rw [owedFrom_step c _ h, e]

theorem owed_ag (c : Dev nD) (k : Fin 2) (j : Fin 7) :
    owedFrom c (21 + 7 * k.val + j.val) = owedFrom c (21 + 7 * k.val + j.val + 1) + tallyAt (agR (peer c j) k j) () NW := by
  have h : 21 + 7 * k.val + j.val < 35 := by have := j.isLt; have := k.isLt; omega
  have e : (payList c)[21 + 7 * k.val + j.val]'(by rw [payList_length]; exact h) = (agR (peer c j) k j, NW) := by
    fin_cases k <;> fin_cases j <;> rfl
  rw [owedFrom_step c _ h, e]

theorem owedFrom_end (c : Dev nD) : owedFrom c 35 = 0 := by
  unfold owedFrom
  rw [List.drop_of_length_le (by rw [payList_length])]
  rfl

theorem drop_seven (c : Dev nD) : List.drop 7 (payList c)
    = allKJ.map (fun kj => (rsR (peer c kj.2) kj.1 kj.2, NW)) ++ allKJ.map (fun kj => (agR (peer c kj.2) kj.1 kj.2, NW)) := rfl

theorem drop_twentyone (c : Dev nD) : List.drop 21 (payList c) = allKJ.map (fun kj => (agR (peer c kj.2) kj.1 kj.2, NW)) := rfl

theorem mayWait_bar (c : Dev nD) : (levAts L lv : sProp 𝕄) ⊢ MayWait (c : Thread nD τ) (.reg barS) () (owedFrom c 7) := by
  unfold owedFrom
  refine mayWait_owedL c (.reg barS) _ fun x hx => ?_
  have h1 : lv ((c : Thread nD τ), SemLoc.reg barS) () = 1 := lv_bar c
  rw [h1]
  rw [drop_seven] at hx
  rcases List.mem_append.mp hx with hx | hx
  · obtain ⟨kj, -, rfl⟩ := List.mem_map.mp hx; exact ⟨rfl, by rw [lv_rsR]; decide⟩
  · obtain ⟨kj, -, rfl⟩ := List.mem_map.mp hx; exact ⟨rfl, by rw [lv_agR]; decide⟩

theorem mayWait_rsR (c : Dev nD) (k : Fin 2) (j : Fin 7) (n : ℕ) (hn : n = 21 ∨ n = 28) :
    (levAts L lv : sProp 𝕄) ⊢ MayWait (c : Thread nD τ) (.dma (dsem 1 k j)) () (owedFrom c n) := by
  unfold owedFrom
  refine mayWait_owedL c (.dma (dsem 1 k j)) _ fun x hx => ?_
  have h2 : lv ((c : Thread nD τ), SemLoc.dma (dsem 1 k j)) () = 2 := lv_rsR c k j
  rw [h2]
  have hx' : x ∈ List.drop 21 (payList c) := by
    rcases hn with rfl | rfl
    · exact hx
    · exact List.drop_subset_drop_left (payList c) (by decide : 21 ≤ 28) hx
  rw [drop_twentyone] at hx'
  obtain ⟨kj, -, rfl⟩ := List.mem_map.mp hx'
  exact ⟨rfl, by rw [lv_agR]; decide⟩

theorem mayWait_end (c : Dev nD) (sm : SemLoc sig) : (levAts L lv : sProp 𝕄) ⊢ MayWait (c : Thread nD τ) sm () (owedFrom c 35) := by
  rw [owedFrom_end]; exact mayWait_zero' c sm

end Cert.Kernel.Proto

end
-- ==== Proof.K.Steps.lean ====
import proofs.«900587_g7700000000000588_dist_rs_then_ag_i_m512_n512_v7x_i8_f32_1_alg».proof.Proof.K.Restate
import proofs.«900587_g7700000000000588_dist_rs_then_ag_i_m512_n512_v7x_i8_f32_1_alg».proof.Proof.K.BodyAux
import proofs.«900587_g7700000000000588_dist_rs_then_ag_i_m512_n512_v7x_i8_f32_1_alg».proof.Proof.K.Ledger
import proofs.«900587_g7700000000000588_dist_rs_then_ag_i_m512_n512_v7x_i8_f32_1_alg».proof.Proof.K.Finish

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

open Idealize.ShloMosaic.Tactic

variable (K : Dev nD × CK → ℕ)

/-- A device whose number is `c`'s plus `j + 1` modulo eight is `c`'s peer under offset index `j`. -/
theorem dev_eq (c : Dev nD) (j : Fin 7) {v : ℕ} {h : v < nD} (e : v = (c.val + (j.val + 1)) % 8) : (⟨v, h⟩ : Dev nD) = peer c j :=
  Fin.ext e

/-- `c` pays its unit to the `j`-th peer's barrier cell, handing over the two slots and two bands that peer will write. -/
theorem sig_step {α : Type} (c : Dev nD) (j : Fin 7) (i : ℕ) {n : Dev nD} (hn : n = peer c j)
    {f0 f1 : Buf (Elt F) ((c : Thread nD τ).loc cc0_scratch0)} {g0 g1 : Buf (Elt F) ((c : Thread nD τ).loc cc0_stg1_0)}
    {W : Waits sig Unit} {kont : PUnit → Prog (TpuEff nD τ sig (Elt F) Λ₀ .tc) α} {Q : α → sProp 𝕄} (hi : i = j.val := by rfl) :
    iprop(records m K ∗ dutyTok ER (barCell (peer c j)) 0 (dOf j) ∗ owes (c : Thread nD τ) (owedFrom c i) W
        ∗ pts (rSlot 0 (slotB j)) c fullShare f0 ∗ pts (rSlot 1 (slotB j)) c fullShare f1
        ∗ pts (oRows (peer c j) 0) c fullShare g0 ∗ pts (oRows (peer c j) 1) c fullShare g1)
      ⊢ iprop((owes (c : Thread nD τ) (owedFrom c (i + 1)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n : Dev nD) : Thread nD τ) barS 1) kont) Q) := by
  subst hn hi
  iintro ⟨#R, Ht, HO, H0, H1, H2, H3⟩
  iapply (Rounds.wp_signal 𝒱₀ ER (Rd m) (c : Thread nD τ) none (mem_duties_bar_dOf m (peer c j) j) (amount_bar m (peer c j) (dOf j)) ()
    (owedFrom c (j.val + 1)) (owed_bar c j))
  isplitr; · iapply (records_inv_bar m K (peer c j)); iexact R
  isplitl [HO]; · iexact HO
  isplitl [Ht]; · iexact Ht
  isplitl
  · rw [payload_bar_dOf, barPayJ_of (peer c j) c j (sender_peer c j)]
    isplitl [H0]; · iexists f0; iexact H0
    isplitl [H1]; · iexists f1; iexact H1
    isplitl [H2]; · iexists g0; iexact H2
    iexists g1; iexact H3
  · iapply (records_reached_bar m K (peer c j)); iexact R

/-- What one peer's barrier unit hands `c`: that peer's two slots for `c`'s rows and `c`'s two bands of that peer's result block. -/
abbrev barGotAt (c n : Dev nD) (s : Fin 8) : sProp 𝕄 :=
  iprop((∃ f, pts (rSlot 0 s) n fullShare f) ∗ (∃ f, pts (rSlot 1 s) n fullShare f)
    ∗ (∃ f, pts (oRows c 0) n fullShare f) ∗ (∃ f, pts (oRows c 1) n fullShare f))

abbrev barGot (c : Dev nD) (j : Fin 7) : sProp 𝕄 := barGotAt (F := F) c (peer c j) (slotOf j)

omit [FloatOps F] in
/-- The unit met under offset index `rev j` as a sender's is the `j`-th peer's. -/
theorem barPayJ_rev (c : Dev nD) (j : Fin 7) : (barPayJ (F := F) c (rev j) : sProp 𝕄) = barGot c j := by
  show barGotAt (F := F) c (sender c (rev j)) (slotB (rev j)) = _
  rw [sender_rev, ← slotOf_rev (rev j), rev_rev]

/-- After the seven units of its own barrier cell, `c` holds every peer's hand-over; all it still owes goes to cells above. -/
theorem bar_step {α : Type} (c : Dev nD) {W : Waits sig Unit}
    {kont : PUnit → Prog (TpuEff nD τ sig (Elt F) Λ₀ .tc) α} {Q : α → sProp 𝕄} :
    iprop(records m K ∗ levAts L lv ∗ cred (tallyAt (barCell c) () 7) ∗ owes (c : Thread nD τ) (owedFrom c 7) W ∗ atPos ER (barCell c) 0 ∅ 0)
      ⊢ iprop(((owes (c : Thread nD τ) (owedFrom c 7) (insert (.reg barS, ()) W) ∗ atPos ER (barCell c) 1 ∅ 0
              ∗ barGot (F := F) c 0 ∗ barGot (F := F) c 1 ∗ barGot (F := F) c 2 ∗ barGot (F := F) c 3 ∗ barGot (F := F) c 4 ∗ barGot (F := F) c 5 ∗ barGot (F := F) c 6)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 7) kont) Q) := by
  have h := Rounds.wp_wait_rest_token 𝒱₀ ER (Rd m) (c : Thread nD τ) none (Γ := .empty) (Q := Q) (k := kont)
    (defs := defs₀ (F := F)) (fun K' => wpE_semWait_eq 𝒱₀ (c : Thread nD τ) none Set.univ K') (Set.mem_univ (K (c, none))) ()
    (k' := 7) (O := owedFrom c 7) (W := W) (R := 0) (m := 0) (T := ∅) (by rw [expect_bar])
  rw [rest_bar] at h
  iintro ⟨#R, #Hl, Hc, HO, Ha⟩ Hk
  iapply h $$ [Hc HO Ha]
  · isplitr; · iapply (records_inv_bar m K c); iexact R
    isplitl [Hc]; · iexact Hc
    isplitl [HO]; · iexact HO
    isplitr; · iapply (mayWait_bar c); iexact Hl
    iexact Ha
  iintro ⟨HO, Ha, -, H0, H1, H2, H3, H4, H5, H6⟩
  iapply Hk
  isplitl [HO]; · iexact HO
  isplitl [Ha]; · iexact Ha
  isplitl [H6]; · iapply (Entails.of_eq (barPayJ_rev c 0)); iexact H6
  isplitl [H5]; · iapply (Entails.of_eq (barPayJ_rev c 1)); iexact H5
  isplitl [H4]; · iapply (Entails.of_eq (barPayJ_rev c 2)); iexact H4
  isplitl [H3]; · iapply (Entails.of_eq (barPayJ_rev c 3)); iexact H3
  isplitl [H2]; · iapply (Entails.of_eq (barPayJ_rev c 4)); iexact H2
  isplitl [H1]; · iapply (Entails.of_eq (barPayJ_rev c 5)); iexact H1
  iapply (Entails.of_eq (barPayJ_rev c 6)); iexact H0

/-- The scatter transfer of wave `k` to the `j`-th peer: `c` lends its band for that peer and writes that peer's slot. -/
theorem rs_send {α : Type} (c : Dev nD) (k : Fin 2) (j : Fin 7) (i : ℕ) {n : Dev nD} (hn : n = peer c j) {W : Waits sig Unit}
    {hsc : (rSlot k (slotOf j)).view.ref.isScScratch = false} {hsrc : (xSrc c k j).view.WordExact} {hdst : (rSlot k (slotOf j)).view.WordExact}
    {hsem : DmaTarget.Typed .vmem (.dma (dsem 1 k j)) (.remote ((n : Dev nD) : Thread nD τ) (rSlot k (slotOf j)) (.dma (dsem 0 k j)) hsc)}
    {kont : PUnit → Prog (TpuEff nD τ sig (Elt F) Λ₀ .tc) α} {Q : α → sProp 𝕄} (hi : i = 7 + 7 * k.val + j.val := by rfl) :
    iprop(records m K ∗ pts (xSrc c k j) c fullShare (xst m c) ∗ (∃ fd, pts (rSlot k (slotOf j)) (peer c j) fullShare fd)
        ∗ owes (c : Thread nD τ) (owedFrom c i) W
        ∗ dutyTok ER (rsS c k j) 0 (0 : Dn) ∗ dutyTok ER (rsR (peer c j) k j) 0 (0 : Dn))
      ⊢ iprop(((cred (tallyAt (rsS c k j) () NW) ∗ owes (c : Thread nD τ) (owedFrom c (i + 1)) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSrc c k j) (.remote ((n : Dev nD) : Thread nD τ) (rSlot k (slotOf j)) (.dma (dsem 0 k j)) hsc)
                (.dma (dsem 1 k j)) hsrc hdst hsem) kont) Q) := by
  subst hn hi
  iintro ⟨#R, Hx, ⟨%fd, Hd⟩, HO, Ht1, Ht2⟩
  iapply (Rounds.wp_send_pointsTo 𝒱₀ ER (Rd m) (c : Thread nD τ) none (Γ := .empty) (c' := ((peer c j : Dev nD) : Thread nD τ)) (src := xSrc c k j) (dst := rSlot k (slotOf j))
    (q := fullShare) (fs := xst m c) (fd := fd) (κ₁ := K (c, some (0, k, j))) (κ₂ := K (peer c j, some (1, k, j)))
    (mem_duties_own m c (0, k, j)) (mem_duties_own m (peer c j) (1, k, j)) () () NW (amount_rSlot k (slotOf j) (dsem 1 k j))
    (amount_own m c (0, k, j) 0) (amount_own m (peer c j) (1, k, j) 0) (owedFrom c (7 + 7 * k.val + j.val + 1)) (owed_rs c k j)
    (by rw [payload_own, ownPay_rsS])
    (by rw [payload_own, ownPay_rsR_of m (peer c j) c k j (sender_peer c j)]; iintro H; iexists fd; iexact H))
  isplitr; · iapply (records_inv_own m K c (0, k, j)); iexact R
  isplitr; · iapply (records_inv_own m K (peer c j) (1, k, j)); iexact R
  isplitl [Hx]; · iexact Hx
  isplitl [Hd]; · iexact Hd
  isplitl [HO]; · iexact HO
  isplitl [Ht1]; · iexact Ht1
  isplitr; · iapply (records_reached_own m K c (0, k, j)); iexact R
  isplitl [Ht2]; · iexact Ht2
  iapply (records_reached_own m K (peer c j) (1, k, j)); iexact R

/-- The gather transfer of wave `k` to the `j`-th peer: `c` lends a share of its summed band and writes that peer's same band. -/
theorem ag_send {α : Type} (c : Dev nD) (k : Fin 2) (j : Fin 7) (i : ℕ) {n : Dev nD} (hn : n = peer c j)
    {f : Buf (Elt F) ((oRows c k).view.loc (c : Thread nD τ))} {W : Waits sig Unit}
    {hsc : (oRows c k).view.ref.isScScratch = false} {hsrc : (oRows c k).view.WordExact} {hdst : (oRows c k).view.WordExact}
    {hsem : DmaTarget.Typed .vmem (.dma (dsem 3 k j)) (.remote ((n : Dev nD) : Thread nD τ) (oRows c k) (.dma (dsem 2 k j)) hsc)}
    {kont : PUnit → Prog (TpuEff nD τ sig (Elt F) Λ₀ .tc) α} {Q : α → sProp 𝕄} (hi : i = 21 + 7 * k.val + j.val := by rfl) :
    iprop(records m K ∗ pts (oRows c k) c (agQ j) ((oRows c k).view.write (Elt F) f (redV m c k) Finset.univ)
        ∗ (∃ fd, pts (oRows c k) (peer c j) fullShare fd) ∗ owes (c : Thread nD τ) (owedFrom c i) W
        ∗ dutyTok ER (agS c k j) 0 (0 : Dn) ∗ dutyTok ER (agR (peer c j) k j) 0 (0 : Dn))
      ⊢ iprop(((cred (tallyAt (agS c k j) () NW) ∗ owes (c : Thread nD τ) (owedFrom c (i + 1)) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (oRows c k) (.remote ((n : Dev nD) : Thread nD τ) (oRows c k) (.dma (dsem 2 k j)) hsc)
                (.dma (dsem 3 k j)) hsrc hdst hsem) kont) Q) := by
  subst hn hi
  iintro ⟨#R, Hs, ⟨%fd, Hd⟩, HO, Ht1, Ht2⟩
  iapply (Rounds.wp_send_pointsTo 𝒱₀ ER (Rd m) (c : Thread nD τ) none (Γ := .empty) (c' := ((peer c j : Dev nD) : Thread nD τ)) (src := oRows c k) (dst := oRows c k)
    (q := agQ j) (fs := (oRows c k).view.write (Elt F) f (redV m c k) Finset.univ) (fd := fd)
    (κ₁ := K (c, some (2, k, j))) (κ₂ := K (peer c j, some (3, k, j)))
    (mem_duties_own m c (2, k, j)) (mem_duties_own m (peer c j) (3, k, j)) () () NW (amount_oRows c k (dsem 3 k j))
    (amount_own m c (2, k, j) 0) (amount_own m (peer c j) (3, k, j) 0) (owedFrom c (21 + 7 * k.val + j.val + 1)) (owed_ag c k j)
    (by rw [payload_own, ownPay_agS]; iintro H; iexists f; iexact H)
    (by rw [payload_own, ownPay_agR_of m (peer c j) c k j (sender_peer c j), View.read_write_univ]; iintro H; iexists fd; iexact H))
  isplitr; · iapply (records_inv_own m K c (2, k, j)); iexact R
  isplitr; · iapply (records_inv_own m K (peer c j) (3, k, j)); iexact R
  isplitl [Hs]; · iexact Hs
  isplitl [Hd]; · iexact Hd
  isplitl [HO]; · iexact HO
  isplitl [Ht1]; · iexact Ht1
  isplitr; · iapply (records_reached_own m K c (2, k, j)); iexact R
  isplitl [Ht2]; · iexact Ht2
  iapply (records_reached_own m K (peer c j) (3, k, j)); iexact R

/-- The wait for a transfer cell's one unit: what `c` still owes goes to cells above, or is nothing, so it may wait. -/
theorem wait_step {α : Type} (c : Dev nD) (kd : Fin 4) (k : Fin 2) (j : Fin 7) (i : ℕ)
    {P : sProp 𝕄} (hP : ownPay m c (kd, k, j) = P) {W : Waits sig Unit}
    {sp sp' : Space} {s s' : Shape} {e e' : EltTy} {κ' : Kind}
    (src : Memref sig .tc sp' s' e') (dst : Memref sig κ' sp s e) {hsrc : src.view.WordExact} {hdst : dst.view.WordExact}
    (hN : dst.view.dmaCredit = NW)
    {kont : PUnit → Prog (TpuEff nD τ sig (Elt F) Λ₀ .tc) α} {Q : α → sProp 𝕄}
    (hi : (kd = 1 ∧ (i = 21 ∨ i = 28)) ∨ i = 35 := by decide) :
    iprop(records m K ∗ levAts L lv ∗ cred (tallyAt (ownCell c (kd, k, j)) () NW) ∗ owes (c : Thread nD τ) (owedFrom c i) W
        ∗ atPos ER (ownCell c (kd, k, j)) 0 ∅ 0)
      ⊢ iprop(((owes (c : Thread nD τ) (owedFrom c i) (insert (.dma (dsem kd k j), ()) W) ∗ atPos ER (ownCell c (kd, k, j)) 1 ∅ 0 ∗ P)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem kd k j) src dst hsrc hdst) kont) Q) := by
  subst hP
  have hmw : (levAts L lv : sProp 𝕄) ⊢ MayWait (c : Thread nD τ) (.dma (dsem kd k j)) () (owedFrom c i) := by
    rcases hi with ⟨rfl, h⟩ | rfl
    · exact mayWait_rsR c k j i h
    · exact mayWait_end c _
  have hw : ∀ K' : PUnit → sProp 𝕄, wpE (defs₀ (F := F)) 𝒱₀ (c : Thread nD τ) none Set.univ (.waitDma2 (dsem kd k j) src dst hsrc hdst) K'
      = waitSpec (c : Thread nD τ) Set.univ (.dma (dsem kd k j)) NW K' :=
    fun K' => (wpE_waitDma2_eq 𝒱₀ (c : Thread nD τ) none Set.univ K').trans (by rw [hN])
  have h := Rounds.wp_wait_rest_token 𝒱₀ ER (Rd m) (c : Thread nD τ) none (Γ := .empty) (Q := Q) (k := kont) hw
    (Set.mem_univ (K (c, some (kd, k, j)))) () (O := owedFrom c i) (W := W) (R := 0) (m := 0) (T := ∅)
    (by rw [expect_own m c (kd, k, j)]; exact Nat.zero_add _)
  rw [rest_own m c (kd, k, j)] at h
  iintro ⟨#R, #Hl, Hc, HO, Ha⟩ Hk
  iapply h $$ [Hc HO Ha]
  · isplitr; · iapply (records_inv_own m K c (kd, k, j)); iexact R
    isplitl [Hc]; · iexact Hc
    isplitl [HO]; · iexact HO
    isplitr; · iapply hmw; iexact Hl
    iexact Ha
  iintro ⟨HO, Ha, -, Hp⟩
  iapply Hk
  isplitl [HO]; · iexact HO
  isplitl [Ha]; · iexact Ha
  iexact Hp

theorem close_step (c : Dev nD) (x : OwnK) :
    iprop(records m K ∗ atPos ER (ownCell c x) 1 ∅ 0) ⊢ (|={Set.univ}=> semVal (ownCell c x) 0 : sProp 𝕄) := by
  iintro ⟨#R, Ha⟩
  iapply (close_own m K c x)
  isplitr; · iapply (records_inv_own m K c x); iexact R
  iexact Ha

/-- Past their one round the 56 transfer cells are closed, their counters handed back at zero. -/
theorem close_all (c : Dev nD) :
    iprop(records m K ∗ bigSep Finset.univ fun x : OwnK => atPos ER (ownCell c x) 1 ∅ 0)
      ⊢ (|={Set.univ}=> bigSep Finset.univ fun x : OwnK => semVal (ownCell c x) 0 : sProp 𝕄) :=
  ((sep_mono_left (BI.bigSep_of_persistent Finset.univ (records m K))).trans
    (by rw [← bigSep_sep']; exact bigSep_mono fun x _ => close_step m K c x)).trans (bigSep_fupd _ _)

end Cert.Kernel.Proto

end
-- ==== Proof.K.BodyState.lean ====
import proofs.«900587_g7700000000000588_dist_rs_then_ag_i_m512_n512_v7x_i8_f32_1_alg».proof.Proof.K.Restate
import proofs.«900587_g7700000000000588_dist_rs_then_ag_i_m512_n512_v7x_i8_f32_1_alg».proof.Proof.K.BodyAux

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

def S0 (K : Dev nD × CK → ℕ) (c : Dev nD) (W : Waits sig Unit)
    (f0 : Buf (Elt F) ((c : Thread nD τ).loc cc0_scratch0)) (g1 : Buf (Elt F) ((c : Thread nD τ).loc cc0_stg1_0)) : sProp 𝕄 :=
  iprop(records m K ∗ levAts L lv
    ∗ (atPos ER (barCell c) 0 ∅ 0
        ∗ sep14 (fun k j => atPos ER (rsS c k j) 0 ∅ 0) ∗ sep14 (fun k j => atPos ER (rsR c k j) 0 ∅ 0)
        ∗ sep14 (fun k j => atPos ER (agS c k j) 0 ∅ 0) ∗ sep14 (fun k j => atPos ER (agR c k j) 0 ∅ 0))
    ∗ (sep7 (fun j => dutyTok ER (barCell (peer c j)) 0 (dOf j))
        ∗ sep14 (fun k j => iprop(dutyTok ER (rsS c k j) 0 (0 : Dn) ∗ dutyTok ER (rsR (peer c j) k j) 0 (0 : Dn)))
        ∗ sep14 (fun k j => iprop(dutyTok ER (agS c k j) 0 (0 : Dn) ∗ dutyTok ER (agR (peer c j) k j) 0 (0 : Dn))))
    ∗ (cred (tallyAt (barCell c) () 7)
        ∗ sep14 (fun k j => cred (tallyAt (rsR c k j) () NW)) ∗ sep14 (fun k j => cred (tallyAt (agR c k j) () NW)))
    ∗ owes (c : Thread nD τ) (O₀ c) W
    ∗ ((pts (rSlot 0 0) c fullShare f0 ∗ pts (rSlot 1 0) c fullShare f0) ∗ sep14 (fun k j => pts (rSlot k (slotB j)) c fullShare f0))
    ∗ ((pts (oRows c 0) c fullShare g1 ∗ pts (oRows c 1) c fullShare g1) ∗ sep14 (fun k j => pts (oRows (peer c j) k) c fullShare g1))
    ∗ (xOwn c (xst m c) ∗ sep14 (fun k j => pts (xSrc c k j) c fullShare (xst m c))))

theorem pre_S0 (K : Dev nD × CK → ℕ) (c : Dev nD) :
    bodyPre m ρ K c ⊢ (∃ W : Waits sig Unit, ∃ f0 g1, ⌜(↑W : Set (SemLoc sig × Unit)) ⊆ (dats m ρ 0 c).bound () t₀.castSucc⌝ ∗ S0 m K c W f0 g1 : sProp 𝕄) := by
  have ho : (dats m ρ 0 c).owed t₀.castSucc = O₀ c := rfl
  unfold bodyPre ghost creds payToks S0
  rw [eq_of_bi (positions_split (F := F) c)]
  simp only [bigSepL_allJ, bigSepL_allKJ]
  iintro ⟨⟨⟨Hrec, Hpos, Htok⟩, Hcred, Hlev, ⟨%f0, Hscr⟩⟩, ⟨%W, %hW, Ho⟩, ⟨%d0, %g0, %hg0, Hx⟩, ⟨%d1, %g1, %hg1, Hout⟩⟩
  have hx : g0 = xst m c := by rw [hg0]; unfold Dat.before; rw [if_pos (Gen.fetch0_0 t₀)]; rfl
  subst hx
  have hs := (scr_split (F := F) c f0).1
  have hu := (out_split (F := F) c g1).1
  have hi := (x_split (F := F) c (xst m c)).1
  rw [bigSepL_allKJ] at hs hu hi
  unfold scrPts
  ihave Hscr' := hs $$ Hscr
  ihave Hout' := hu $$ Hout
  ihave Hx' := hi $$ Hx
  iexists W, f0, g1
  isplitr
  · ipureintro; exact hW
  rw [ho]
  isplitl [Hrec]; · iexact Hrec
  isplitl [Hlev]; · iexact Hlev
  isplitl [Hpos]; · iexact Hpos
  isplitl [Htok]; · iexact Htok
  isplitl [Hcred]; · iexact Hcred
  isplitl [Ho]; · iexact Ho
  isplitl [Hscr']; · iexact Hscr'
  isplitl [Hout']; · iexact Hout'
  iexact Hx'

theorem post_of (c : Dev nD) (W' : Waits sig Unit) :
    iprop(Φ₁ (F := F) c ∗ owes (c : Thread nD τ) 0 W' ∗ stg c cc0_stg0_0 (xst m c) ∗ stg c cc0_stg1_0 (outFin m)) ⊢ bodyPost m ρ c := by
  unfold bodyPost
  iintro ⟨HΦ, Ho, Hx, Hout⟩
  isplitl [HΦ]; · iexact HΦ
  isplitl [Ho]
  · iexists W'
    isplitr
    · ipureintro; exact fun x _ => Or.inl (Set.mem_univ x)
    · iexact Ho
  isplitl [Hx]; · iexact Hx
  iexact Hout

end Cert.Kernel.Proto

end
-- ==== Proof.K.Body.lean ====
import proofs.«900587_g7700000000000588_dist_rs_then_ag_i_m512_n512_v7x_i8_f32_1_alg».proof.Proof.K.Finish
import proofs.«900587_g7700000000000588_dist_rs_then_ag_i_m512_n512_v7x_i8_f32_1_alg».proof.Proof.K.Steps
import proofs.«900587_g7700000000000588_dist_rs_then_ag_i_m512_n512_v7x_i8_f32_1_alg».proof.Proof.K.BodyState

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536 in
set_option maxHeartbeats 40000000 in
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel
  simp only [semSignalWord, semWaitWord, Prog.lift, Prog.bind_op, Prog.bind_ret, Prog.pure_eq_ret, wp_deviceId]
  iintro ⟨Hpre, Hk⟩
  ihave Hs := (pre_S0 m ρ K c) $$ Hpre
  icases Hs with ⟨%W, %f0, %g1, %hW, Hs⟩
  unfold S0
  dsimp only [sep7, sep14]
  icases Hs with ⟨#Hrec, #Hlev, ⟨HaB, ⟨HaS00, HaS01, HaS02, HaS03, HaS04, HaS05, HaS06, HaS10, HaS11, HaS12, HaS13, HaS14, HaS15, HaS16⟩, ⟨HaR00, HaR01, HaR02, HaR03, HaR04, HaR05, HaR06, HaR10, HaR11, HaR12, HaR13, HaR14, HaR15, HaR16⟩, ⟨HbS00, HbS01, HbS02, HbS03, HbS04, HbS05, HbS06, HbS10, HbS11, HbS12, HbS13, HbS14, HbS15, HbS16⟩, ⟨HbR00, HbR01, HbR02, HbR03, HbR04, HbR05, HbR06, HbR10, HbR11, HbR12, HbR13, HbR14, HbR15, HbR16⟩⟩,
    ⟨⟨HtB0, HtB1, HtB2, HtB3, HtB4, HtB5, HtB6⟩, ⟨⟨HtS00, HtR00⟩, ⟨HtS01, HtR01⟩, ⟨HtS02, HtR02⟩, ⟨HtS03, HtR03⟩, ⟨HtS04, HtR04⟩, ⟨HtS05, HtR05⟩, ⟨HtS06, HtR06⟩, ⟨HtS10, HtR10⟩, ⟨HtS11, HtR11⟩, ⟨HtS12, HtR12⟩, ⟨HtS13, HtR13⟩, ⟨HtS14, HtR14⟩, ⟨HtS15, HtR15⟩, ⟨HtS16, HtR16⟩⟩, ⟨⟨HuS00, HuR00⟩, ⟨HuS01, HuR01⟩, ⟨HuS02, HuR02⟩, ⟨HuS03, HuR03⟩, ⟨HuS04, HuR04⟩, ⟨HuS05, HuR05⟩, ⟨HuS06, HuR06⟩, ⟨HuS10, HuR10⟩, ⟨HuS11, HuR11⟩, ⟨HuS12, HuR12⟩, ⟨HuS13, HuR13⟩, ⟨HuS14, HuR14⟩, ⟨HuS15, HuR15⟩, ⟨HuS16, HuR16⟩⟩⟩,
    ⟨HcB, ⟨HcR00, HcR01, HcR02, HcR03, HcR04, HcR05, HcR06, HcR10, HcR11, HcR12, HcR13, HcR14, HcR15, HcR16⟩, ⟨HdR00, HdR01, HdR02, HdR03, HdR04, HdR05, HdR06, HdR10, HdR11, HdR12, HdR13, HdR14, HdR15, HdR16⟩⟩, HO,
    ⟨⟨Hsu0, Hsu1⟩, ⟨Hsl00, Hsl01, Hsl02, Hsl03, Hsl04, Hsl05, Hsl06, Hsl10, Hsl11, Hsl12, Hsl13, Hsl14, Hsl15, Hsl16⟩⟩, ⟨⟨Hob0, Hob1⟩, ⟨Hop00, Hop01, Hop02, Hop03, Hop04, Hop05, Hop06, Hop10, Hop11, Hop12, Hop13, Hop14, Hop15, Hop16⟩⟩, ⟨HxO, ⟨Hx00, Hx01, Hx02, Hx03, Hx04, Hx05, Hx06, Hx10, Hx11, Hx12, Hx13, Hx14, Hx15, Hx16⟩⟩⟩
  rw [owedFrom_zero]
  iapply (sig_step m K c 0 0 (dev_eq c 0 (k0_dev1_eq c))) $$ [$Hrec $HtB0 $HO $Hsl00 $Hsl10 $Hop00 $Hop10]
  iintro HO
  iapply (sig_step m K c 1 1 (dev_eq c 1 (k0_dev2_eq c))) $$ [$Hrec $HtB1 $HO $Hsl01 $Hsl11 $Hop01 $Hop11]
  iintro HO
  iapply (sig_step m K c 2 2 (dev_eq c 2 (k0_dev3_eq c))) $$ [$Hrec $HtB2 $HO $Hsl02 $Hsl12 $Hop02 $Hop12]
  iintro HO
  iapply (sig_step m K c 3 3 (dev_eq c 3 (k0_dev4_eq c))) $$ [$Hrec $HtB3 $HO $Hsl03 $Hsl13 $Hop03 $Hop13]
  iintro HO
  iapply (sig_step m K c 4 4 (dev_eq c 4 (k0_dev5_eq c))) $$ [$Hrec $HtB4 $HO $Hsl04 $Hsl14 $Hop04 $Hop14]
  iintro HO
  iapply (sig_step m K c 5 5 (dev_eq c 5 (k0_dev6_eq c))) $$ [$Hrec $HtB5 $HO $Hsl05 $Hsl15 $Hop05 $Hop15]
  iintro HO
  iapply (sig_step m K c 6 6 (dev_eq c 6 (k0_dev7_eq c))) $$ [$Hrec $HtB6 $HO $Hsl06 $Hsl16 $Hop06 $Hop16]
  iintro HO
  iapply (bar_step m K c) $$ [$Hrec $Hlev $HcB $HO $HaB]
  iintro ⟨HO, -, ⟨HpS00, HpS10, HpO00, HpO10⟩, ⟨HpS01, HpS11, HpO01, HpO11⟩, ⟨HpS02, HpS12, HpO02, HpO12⟩, ⟨HpS03, HpS13, HpO03, HpO13⟩, ⟨HpS04, HpS14, HpO04, HpO14⟩, ⟨HpS05, HpS15, HpO05, HpO15⟩, ⟨HpS06, HpS16, HpO06, HpO16⟩⟩
  iapply (rs_send m K c 0 0 7 (dev_eq c 0 (k0_dev8_eq c))) $$ [$Hrec $Hx00 $HpS00 $HO $HtS00 $HtR00]
  iintro ⟨HeS00, HO⟩
  iapply (rs_send m K c 0 1 8 (dev_eq c 1 (k0_dev9_eq c))) $$ [$Hrec $Hx01 $HpS01 $HO $HtS01 $HtR01]
  iintro ⟨HeS01, HO⟩
  iapply (rs_send m K c 0 2 9 (dev_eq c 2 (k0_dev10_eq c))) $$ [$Hrec $Hx02 $HpS02 $HO $HtS02 $HtR02]
  iintro ⟨HeS02, HO⟩
  iapply (rs_send m K c 0 3 10 (dev_eq c 3 (k0_dev11_eq c))) $$ [$Hrec $Hx03 $HpS03 $HO $HtS03 $HtR03]
  iintro ⟨HeS03, HO⟩
  iapply (rs_send m K c 0 4 11 (dev_eq c 4 (k0_dev12_eq c))) $$ [$Hrec $Hx04 $HpS04 $HO $HtS04 $HtR04]
  iintro ⟨HeS04, HO⟩
  iapply (rs_send m K c 0 5 12 (dev_eq c 5 (k0_dev13_eq c))) $$ [$Hrec $Hx05 $HpS05 $HO $HtS05 $HtR05]
  iintro ⟨HeS05, HO⟩
  iapply (rs_send m K c 0 6 13 (dev_eq c 6 (k0_dev14_eq c))) $$ [$Hrec $Hx06 $HpS06 $HO $HtS06 $HtR06]
  iintro ⟨HeS06, HO⟩
  iapply (rs_send m K c 1 0 14 (dev_eq c 0 (k0_dev15_eq c))) $$ [$Hrec $Hx10 $HpS10 $HO $HtS10 $HtR10]
  iintro ⟨HeS10, HO⟩
  iapply (rs_send m K c 1 1 15 (dev_eq c 1 (k0_dev16_eq c))) $$ [$Hrec $Hx11 $HpS11 $HO $HtS11 $HtR11]
  iintro ⟨HeS11, HO⟩
  iapply (rs_send m K c 1 2 16 (dev_eq c 2 (k0_dev17_eq c))) $$ [$Hrec $Hx12 $HpS12 $HO $HtS12 $HtR12]
  iintro ⟨HeS12, HO⟩
  iapply (rs_send m K c 1 3 17 (dev_eq c 3 (k0_dev18_eq c))) $$ [$Hrec $Hx13 $HpS13 $HO $HtS13 $HtR13]
  iintro ⟨HeS13, HO⟩
  iapply (rs_send m K c 1 4 18 (dev_eq c 4 (k0_dev19_eq c))) $$ [$Hrec $Hx14 $HpS14 $HO $HtS14 $HtR14]
  iintro ⟨HeS14, HO⟩
  iapply (rs_send m K c 1 5 19 (dev_eq c 5 (k0_dev20_eq c))) $$ [$Hrec $Hx15 $HpS15 $HO $HtS15 $HtR15]
  iintro ⟨HeS15, HO⟩
  iapply (rs_send m K c 1 6 20 (dev_eq c 6 (k0_dev21_eq c))) $$ [$Hrec $Hx16 $HpS16 $HO $HtS16 $HtR16]
  iintro ⟨HeS16, HO⟩
  iapply (copy_step m c) $$ [$HxO $Hob0 $Hob1]
  iintro ⟨HxO, Hob0, Hob1⟩
  iapply (wait_step m K c 1 0 0 21 (ownPay_rsR m c 0 0) (xSrc c 0 0) (rSlot 0 (slotOf 0)) rfl) $$ [$Hrec $Hlev $HcR00 $HO $HaR00]
  iintro ⟨HO, HaR00, ⟨%fr00, Hrs00⟩⟩
  iapply (acc_step c 0 (slotOf 0) (fun _ _ => rfl)) $$ [$Hob0 $Hrs00]
  iintro ⟨Hob0, Hrs00⟩
  iapply (wait_step m K c 1 0 1 21 (ownPay_rsR m c 0 1) (xSrc c 0 1) (rSlot 0 (slotOf 1)) rfl) $$ [$Hrec $Hlev $HcR01 $HO $HaR01]
  iintro ⟨HO, HaR01, ⟨%fr01, Hrs01⟩⟩
  iapply (acc_step c 0 (slotOf 1) (fun _ _ => rfl)) $$ [$Hob0 $Hrs01]
  iintro ⟨Hob0, Hrs01⟩
  iapply (wait_step m K c 1 0 2 21 (ownPay_rsR m c 0 2) (xSrc c 0 2) (rSlot 0 (slotOf 2)) rfl) $$ [$Hrec $Hlev $HcR02 $HO $HaR02]
  iintro ⟨HO, HaR02, ⟨%fr02, Hrs02⟩⟩
  iapply (acc_step c 0 (slotOf 2) (fun _ _ => rfl)) $$ [$Hob0 $Hrs02]
  iintro ⟨Hob0, Hrs02⟩
  iapply (wait_step m K c 1 0 3 21 (ownPay_rsR m c 0 3) (xSrc c 0 3) (rSlot 0 (slotOf 3)) rfl) $$ [$Hrec $Hlev $HcR03 $HO $HaR03]
  iintro ⟨HO, HaR03, ⟨%fr03, Hrs03⟩⟩
  iapply (acc_step c 0 (slotOf 3) (fun _ _ => rfl)) $$ [$Hob0 $Hrs03]
  iintro ⟨Hob0, Hrs03⟩
  iapply (wait_step m K c 1 0 4 21 (ownPay_rsR m c 0 4) (xSrc c 0 4) (rSlot 0 (slotOf 4)) rfl) $$ [$Hrec $Hlev $HcR04 $HO $HaR04]
  iintro ⟨HO, HaR04, ⟨%fr04, Hrs04⟩⟩
  iapply (acc_step c 0 (slotOf 4) (fun _ _ => rfl)) $$ [$Hob0 $Hrs04]
  iintro ⟨Hob0, Hrs04⟩
  iapply (wait_step m K c 1 0 5 21 (ownPay_rsR m c 0 5) (xSrc c 0 5) (rSlot 0 (slotOf 5)) rfl) $$ [$Hrec $Hlev $HcR05 $HO $HaR05]
  iintro ⟨HO, HaR05, ⟨%fr05, Hrs05⟩⟩
  iapply (acc_step c 0 (slotOf 5) (fun _ _ => rfl)) $$ [$Hob0 $Hrs05]
  iintro ⟨Hob0, Hrs05⟩
  iapply (wait_step m K c 1 0 6 21 (ownPay_rsR m c 0 6) (xSrc c 0 6) (rSlot 0 (slotOf 6)) rfl) $$ [$Hrec $Hlev $HcR06 $HO $HaR06]
  iintro ⟨HO, HaR06, ⟨%fr06, Hrs06⟩⟩
  iapply (acc_step c 0 (slotOf 6) (fun _ _ => rfl)) $$ [$Hob0 $Hrs06]
  iintro ⟨Hob0, Hrs06⟩
  ihave Hq := ((share_split (oRows c 0) c _).1.trans (Entails.of_eq (bigSepL_allJ _))) $$ Hob0
  dsimp only [sep7]
  icases Hq with ⟨Hq00, Hq01, Hq02, Hq03, Hq04, Hq05, Hq06⟩
  iapply (ag_send m K c 0 0 21 (dev_eq c 0 (k0_dev22_eq c))) $$ [$Hrec Hq00 $HpO00 $HO $HuS00 $HuR00]
  · iexact Hq00
  iintro ⟨HeA00, HO⟩
  iapply (ag_send m K c 0 1 22 (dev_eq c 1 (k0_dev23_eq c))) $$ [$Hrec Hq01 $HpO01 $HO $HuS01 $HuR01]
  · iexact Hq01
  iintro ⟨HeA01, HO⟩
  iapply (ag_send m K c 0 2 23 (dev_eq c 2 (k0_dev24_eq c))) $$ [$Hrec Hq02 $HpO02 $HO $HuS02 $HuR02]
  · iexact Hq02
  iintro ⟨HeA02, HO⟩
  iapply (ag_send m K c 0 3 24 (dev_eq c 3 (k0_dev25_eq c))) $$ [$Hrec Hq03 $HpO03 $HO $HuS03 $HuR03]
  · iexact Hq03
  iintro ⟨HeA03, HO⟩
  iapply (ag_send m K c 0 4 25 (dev_eq c 4 (k0_dev26_eq c))) $$ [$Hrec Hq04 $HpO04 $HO $HuS04 $HuR04]
  · iexact Hq04
  iintro ⟨HeA04, HO⟩
  iapply (ag_send m K c 0 5 26 (dev_eq c 5 (k0_dev27_eq c))) $$ [$Hrec Hq05 $HpO05 $HO $HuS05 $HuR05]
  · iexact Hq05
  iintro ⟨HeA05, HO⟩
  iapply (ag_send m K c 0 6 27 (dev_eq c 6 (k0_dev28_eq c))) $$ [$Hrec Hq06 $HpO06 $HO $HuS06 $HuR06]
  · iexact Hq06
  iintro ⟨HeA06, HO⟩
  iapply (wait_step m K c 1 1 0 28 (ownPay_rsR m c 1 0) (xSrc c 1 0) (rSlot 1 (slotOf 0)) rfl) $$ [$Hrec $Hlev $HcR10 $HO $HaR10]
  iintro ⟨HO, HaR10, ⟨%fr10, Hrs10⟩⟩
  iapply (acc_step c 1 (slotOf 0) (fun _ _ => rfl)) $$ [$Hob1 $Hrs10]
  iintro ⟨Hob1, Hrs10⟩
  iapply (wait_step m K c 1 1 1 28 (ownPay_rsR m c 1 1) (xSrc c 1 1) (rSlot 1 (slotOf 1)) rfl) $$ [$Hrec $Hlev $HcR11 $HO $HaR11]
  iintro ⟨HO, HaR11, ⟨%fr11, Hrs11⟩⟩
  iapply (acc_step c 1 (slotOf 1) (fun _ _ => rfl)) $$ [$Hob1 $Hrs11]
  iintro ⟨Hob1, Hrs11⟩
  iapply (wait_step m K c 1 1 2 28 (ownPay_rsR m c 1 2) (xSrc c 1 2) (rSlot 1 (slotOf 2)) rfl) $$ [$Hrec $Hlev $HcR12 $HO $HaR12]
  iintro ⟨HO, HaR12, ⟨%fr12, Hrs12⟩⟩
  iapply (acc_step c 1 (slotOf 2) (fun _ _ => rfl)) $$ [$Hob1 $Hrs12]
  iintro ⟨Hob1, Hrs12⟩
  iapply (wait_step m K c 1 1 3 28 (ownPay_rsR m c 1 3) (xSrc c 1 3) (rSlot 1 (slotOf 3)) rfl) $$ [$Hrec $Hlev $HcR13 $HO $HaR13]
  iintro ⟨HO, HaR13, ⟨%fr13, Hrs13⟩⟩
  iapply (acc_step c 1 (slotOf 3) (fun _ _ => rfl)) $$ [$Hob1 $Hrs13]
  iintro ⟨Hob1, Hrs13⟩
  iapply (wait_step m K c 1 1 4 28 (ownPay_rsR m c 1 4) (xSrc c 1 4) (rSlot 1 (slotOf 4)) rfl) $$ [$Hrec $Hlev $HcR14 $HO $HaR14]
  iintro ⟨HO, HaR14, ⟨%fr14, Hrs14⟩⟩
  iapply (acc_step c 1 (slotOf 4) (fun _ _ => rfl)) $$ [$Hob1 $Hrs14]
  iintro ⟨Hob1, Hrs14⟩
  iapply (wait_step m K c 1 1 5 28 (ownPay_rsR m c 1 5) (xSrc c 1 5) (rSlot 1 (slotOf 5)) rfl) $$ [$Hrec $Hlev $HcR15 $HO $HaR15]
  iintro ⟨HO, HaR15, ⟨%fr15, Hrs15⟩⟩
  iapply (acc_step c 1 (slotOf 5) (fun _ _ => rfl)) $$ [$Hob1 $Hrs15]
  iintro ⟨Hob1, Hrs15⟩
  iapply (wait_step m K c 1 1 6 28 (ownPay_rsR m c 1 6) (xSrc c 1 6) (rSlot 1 (slotOf 6)) rfl) $$ [$Hrec $Hlev $HcR16 $HO $HaR16]
  iintro ⟨HO, HaR16, ⟨%fr16, Hrs16⟩⟩
  iapply (acc_step c 1 (slotOf 6) (fun _ _ => rfl)) $$ [$Hob1 $Hrs16]
  iintro ⟨Hob1, Hrs16⟩
  ihave Hq := ((share_split (oRows c 1) c _).1.trans (Entails.of_eq (bigSepL_allJ _))) $$ Hob1
  dsimp only [sep7]
  icases Hq with ⟨Hq10, Hq11, Hq12, Hq13, Hq14, Hq15, Hq16⟩
  iapply (ag_send m K c 1 0 28 (dev_eq c 0 (k0_dev29_eq c))) $$ [$Hrec Hq10 $HpO10 $HO $HuS10 $HuR10]
  · iexact Hq10
  iintro ⟨HeA10, HO⟩
  iapply (ag_send m K c 1 1 29 (dev_eq c 1 (k0_dev30_eq c))) $$ [$Hrec Hq11 $HpO11 $HO $HuS11 $HuR11]
  · iexact Hq11
  iintro ⟨HeA11, HO⟩
  iapply (ag_send m K c 1 2 30 (dev_eq c 2 (k0_dev31_eq c))) $$ [$Hrec Hq12 $HpO12 $HO $HuS12 $HuR12]
  · iexact Hq12
  iintro ⟨HeA12, HO⟩
  iapply (ag_send m K c 1 3 31 (dev_eq c 3 (k0_dev32_eq c))) $$ [$Hrec Hq13 $HpO13 $HO $HuS13 $HuR13]
  · iexact Hq13
  iintro ⟨HeA13, HO⟩
  iapply (ag_send m K c 1 4 32 (dev_eq c 4 (k0_dev33_eq c))) $$ [$Hrec Hq14 $HpO14 $HO $HuS14 $HuR14]
  · iexact Hq14
  iintro ⟨HeA14, HO⟩
  iapply (ag_send m K c 1 5 33 (dev_eq c 5 (k0_dev34_eq c))) $$ [$Hrec Hq15 $HpO15 $HO $HuS15 $HuR15]
  · iexact Hq15
  iintro ⟨HeA15, HO⟩
  iapply (ag_send m K c 1 6 34 (dev_eq c 6 (k0_dev35_eq c))) $$ [$Hrec Hq16 $HpO16 $HO $HuS16 $HuR16]
  · iexact Hq16
  iintro ⟨HeA16, HO⟩
  iapply (wait_step m K c 3 0 0 35 (ownPay_agR m c 0 0) (oRows c 0) (oRows c 0) rfl) $$ [$Hrec $Hlev $HdR00 $HO $HbR00]
  iintro ⟨HO, HbR00, Hgb00⟩
  iapply (wait_step m K c 3 0 1 35 (ownPay_agR m c 0 1) (oRows c 0) (oRows c 0) rfl) $$ [$Hrec $Hlev $HdR01 $HO $HbR01]
  iintro ⟨HO, HbR01, Hgb01⟩
  iapply (wait_step m K c 3 0 2 35 (ownPay_agR m c 0 2) (oRows c 0) (oRows c 0) rfl) $$ [$Hrec $Hlev $HdR02 $HO $HbR02]
  iintro ⟨HO, HbR02, Hgb02⟩
  iapply (wait_step m K c 3 0 3 35 (ownPay_agR m c 0 3) (oRows c 0) (oRows c 0) rfl) $$ [$Hrec $Hlev $HdR03 $HO $HbR03]
  iintro ⟨HO, HbR03, Hgb03⟩
  iapply (wait_step m K c 3 0 4 35 (ownPay_agR m c 0 4) (oRows c 0) (oRows c 0) rfl) $$ [$Hrec $Hlev $HdR04 $HO $HbR04]
  iintro ⟨HO, HbR04, Hgb04⟩
  iapply (wait_step m K c 3 0 5 35 (ownPay_agR m c 0 5) (oRows c 0) (oRows c 0) rfl) $$ [$Hrec $Hlev $HdR05 $HO $HbR05]
  iintro ⟨HO, HbR05, Hgb05⟩
  iapply (wait_step m K c 3 0 6 35 (ownPay_agR m c 0 6) (oRows c 0) (oRows c 0) rfl) $$ [$Hrec $Hlev $HdR06 $HO $HbR06]
  iintro ⟨HO, HbR06, Hgb06⟩
  iapply (wait_step m K c 3 1 0 35 (ownPay_agR m c 1 0) (oRows c 1) (oRows c 1) rfl) $$ [$Hrec $Hlev $HdR10 $HO $HbR10]
  iintro ⟨HO, HbR10, Hgb10⟩
  iapply (wait_step m K c 3 1 1 35 (ownPay_agR m c 1 1) (oRows c 1) (oRows c 1) rfl) $$ [$Hrec $Hlev $HdR11 $HO $HbR11]
  iintro ⟨HO, HbR11, Hgb11⟩
  iapply (wait_step m K c 3 1 2 35 (ownPay_agR m c 1 2) (oRows c 1) (oRows c 1) rfl) $$ [$Hrec $Hlev $HdR12 $HO $HbR12]
  iintro ⟨HO, HbR12, Hgb12⟩
  iapply (wait_step m K c 3 1 3 35 (ownPay_agR m c 1 3) (oRows c 1) (oRows c 1) rfl) $$ [$Hrec $Hlev $HdR13 $HO $HbR13]
  iintro ⟨HO, HbR13, Hgb13⟩
  iapply (wait_step m K c 3 1 4 35 (ownPay_agR m c 1 4) (oRows c 1) (oRows c 1) rfl) $$ [$Hrec $Hlev $HdR14 $HO $HbR14]
  iintro ⟨HO, HbR14, Hgb14⟩
  iapply (wait_step m K c 3 1 5 35 (ownPay_agR m c 1 5) (oRows c 1) (oRows c 1) rfl) $$ [$Hrec $Hlev $HdR15 $HO $HbR15]
  iintro ⟨HO, HbR15, Hgb15⟩
  iapply (wait_step m K c 3 1 6 35 (ownPay_agR m c 1 6) (oRows c 1) (oRows c 1) rfl) $$ [$Hrec $Hlev $HdR16 $HO $HbR16]
  iintro ⟨HO, HbR16, Hgb16⟩
  iapply (wait_step m K c 0 0 0 35 (ownPay_rsS m c 0 0) (rSlot 0 (slotOf 0)) (xSrc c 0 0) rfl) $$ [$Hrec $Hlev $HeS00 $HO $HaS00]
  iintro ⟨HO, HaS00, Hx00⟩
  iapply (wait_step m K c 0 0 1 35 (ownPay_rsS m c 0 1) (rSlot 0 (slotOf 1)) (xSrc c 0 1) rfl) $$ [$Hrec $Hlev $HeS01 $HO $HaS01]
  iintro ⟨HO, HaS01, Hx01⟩
  iapply (wait_step m K c 0 0 2 35 (ownPay_rsS m c 0 2) (rSlot 0 (slotOf 2)) (xSrc c 0 2) rfl) $$ [$Hrec $Hlev $HeS02 $HO $HaS02]
  iintro ⟨HO, HaS02, Hx02⟩
  iapply (wait_step m K c 0 0 3 35 (ownPay_rsS m c 0 3) (rSlot 0 (slotOf 3)) (xSrc c 0 3) rfl) $$ [$Hrec $Hlev $HeS03 $HO $HaS03]
  iintro ⟨HO, HaS03, Hx03⟩
  iapply (wait_step m K c 0 0 4 35 (ownPay_rsS m c 0 4) (rSlot 0 (slotOf 4)) (xSrc c 0 4) rfl) $$ [$Hrec $Hlev $HeS04 $HO $HaS04]
  iintro ⟨HO, HaS04, Hx04⟩
  iapply (wait_step m K c 0 0 5 35 (ownPay_rsS m c 0 5) (rSlot 0 (slotOf 5)) (xSrc c 0 5) rfl) $$ [$Hrec $Hlev $HeS05 $HO $HaS05]
  iintro ⟨HO, HaS05, Hx05⟩
  iapply (wait_step m K c 0 0 6 35 (ownPay_rsS m c 0 6) (rSlot 0 (slotOf 6)) (xSrc c 0 6) rfl) $$ [$Hrec $Hlev $HeS06 $HO $HaS06]
  iintro ⟨HO, HaS06, Hx06⟩
  iapply (wait_step m K c 0 1 0 35 (ownPay_rsS m c 1 0) (rSlot 1 (slotOf 0)) (xSrc c 1 0) rfl) $$ [$Hrec $Hlev $HeS10 $HO $HaS10]
  iintro ⟨HO, HaS10, Hx10⟩
  iapply (wait_step m K c 0 1 1 35 (ownPay_rsS m c 1 1) (rSlot 1 (slotOf 1)) (xSrc c 1 1) rfl) $$ [$Hrec $Hlev $HeS11 $HO $HaS11]
  iintro ⟨HO, HaS11, Hx11⟩
  iapply (wait_step m K c 0 1 2 35 (ownPay_rsS m c 1 2) (rSlot 1 (slotOf 2)) (xSrc c 1 2) rfl) $$ [$Hrec $Hlev $HeS12 $HO $HaS12]
  iintro ⟨HO, HaS12, Hx12⟩
  iapply (wait_step m K c 0 1 3 35 (ownPay_rsS m c 1 3) (rSlot 1 (slotOf 3)) (xSrc c 1 3) rfl) $$ [$Hrec $Hlev $HeS13 $HO $HaS13]
  iintro ⟨HO, HaS13, Hx13⟩
  iapply (wait_step m K c 0 1 4 35 (ownPay_rsS m c 1 4) (rSlot 1 (slotOf 4)) (xSrc c 1 4) rfl) $$ [$Hrec $Hlev $HeS14 $HO $HaS14]
  iintro ⟨HO, HaS14, Hx14⟩
  iapply (wait_step m K c 0 1 5 35 (ownPay_rsS m c 1 5) (rSlot 1 (slotOf 5)) (xSrc c 1 5) rfl) $$ [$Hrec $Hlev $HeS15 $HO $HaS15]
  iintro ⟨HO, HaS15, Hx15⟩
  iapply (wait_step m K c 0 1 6 35 (ownPay_rsS m c 1 6) (rSlot 1 (slotOf 6)) (xSrc c 1 6) rfl) $$ [$Hrec $Hlev $HeS16 $HO $HaS16]
  iintro ⟨HO, HaS16, Hx16⟩
  iapply (wait_step m K c 2 0 0 35 (ownPay_agS m c 0 0) (oRows c 0) (oRows c 0) rfl) $$ [$Hrec $Hlev $HeA00 $HO $HbS00]
  iintro ⟨HO, HbS00, Hq00⟩
  iapply (wait_step m K c 2 0 1 35 (ownPay_agS m c 0 1) (oRows c 0) (oRows c 0) rfl) $$ [$Hrec $Hlev $HeA01 $HO $HbS01]
  iintro ⟨HO, HbS01, Hq01⟩
  iapply (wait_step m K c 2 0 2 35 (ownPay_agS m c 0 2) (oRows c 0) (oRows c 0) rfl) $$ [$Hrec $Hlev $HeA02 $HO $HbS02]
  iintro ⟨HO, HbS02, Hq02⟩
  iapply (wait_step m K c 2 0 3 35 (ownPay_agS m c 0 3) (oRows c 0) (oRows c 0) rfl) $$ [$Hrec $Hlev $HeA03 $HO $HbS03]
  iintro ⟨HO, HbS03, Hq03⟩
  iapply (wait_step m K c 2 0 4 35 (ownPay_agS m c 0 4) (oRows c 0) (oRows c 0) rfl) $$ [$Hrec $Hlev $HeA04 $HO $HbS04]
  iintro ⟨HO, HbS04, Hq04⟩
  iapply (wait_step m K c 2 0 5 35 (ownPay_agS m c 0 5) (oRows c 0) (oRows c 0) rfl) $$ [$Hrec $Hlev $HeA05 $HO $HbS05]
  iintro ⟨HO, HbS05, Hq05⟩
  iapply (wait_step m K c 2 0 6 35 (ownPay_agS m c 0 6) (oRows c 0) (oRows c 0) rfl) $$ [$Hrec $Hlev $HeA06 $HO $HbS06]
  iintro ⟨HO, HbS06, Hq06⟩
  iapply (wait_step m K c 2 1 0 35 (ownPay_agS m c 1 0) (oRows c 1) (oRows c 1) rfl) $$ [$Hrec $Hlev $HeA10 $HO $HbS10]
  iintro ⟨HO, HbS10, Hq10⟩
  iapply (wait_step m K c 2 1 1 35 (ownPay_agS m c 1 1) (oRows c 1) (oRows c 1) rfl) $$ [$Hrec $Hlev $HeA11 $HO $HbS11]
  iintro ⟨HO, HbS11, Hq11⟩
  iapply (wait_step m K c 2 1 2 35 (ownPay_agS m c 1 2) (oRows c 1) (oRows c 1) rfl) $$ [$Hrec $Hlev $HeA12 $HO $HbS12]
  iintro ⟨HO, HbS12, Hq12⟩
  iapply (wait_step m K c 2 1 3 35 (ownPay_agS m c 1 3) (oRows c 1) (oRows c 1) rfl) $$ [$Hrec $Hlev $HeA13 $HO $HbS13]
  iintro ⟨HO, HbS13, Hq13⟩
  iapply (wait_step m K c 2 1 4 35 (ownPay_agS m c 1 4) (oRows c 1) (oRows c 1) rfl) $$ [$Hrec $Hlev $HeA14 $HO $HbS14]
  iintro ⟨HO, HbS14, Hq14⟩
  iapply (wait_step m K c 2 1 5 35 (ownPay_agS m c 1 5) (oRows c 1) (oRows c 1) rfl) $$ [$Hrec $Hlev $HeA15 $HO $HbS15]
  iintro ⟨HO, HbS15, Hq15⟩
  iapply (wait_step m K c 2 1 6 35 (ownPay_agS m c 1 6) (oRows c 1) (oRows c 1) rfl) $$ [$Hrec $Hlev $HeA16 $HO $HbS16]
  iintro ⟨HO, HbS16, Hq16⟩
  imod (close_all m K c) $$ [$Hrec HaS00 HaS01 HaS02 HaS03 HaS04 HaS05 HaS06 HaS10 HaS11 HaS12 HaS13 HaS14 HaS15 HaS16 HaR00 HaR01 HaR02 HaR03 HaR04 HaR05 HaR06 HaR10 HaR11 HaR12 HaR13 HaR14 HaR15 HaR16 HbS00 HbS01 HbS02 HbS03 HbS04 HbS05 HbS06 HbS10 HbS11 HbS12 HbS13 HbS14 HbS15 HbS16 HbR00 HbR01 HbR02 HbR03 HbR04 HbR05 HbR06 HbR10 HbR11 HbR12 HbR13 HbR14 HbR15 HbR16] with Hz
  · rw [bigSep_univ_eq_bigSepL ownL ownL_univ ownL_nodup, bigSepL_ownL]; simp only [bigSepL_allKJ]; dsimp only [sep14]; iframe
  rw [owedFrom_end, wp_ret]; imodintro
  iapply Hk
  iapply (post_of m ρ c _)
  iframe HO
  unfold Φ₁
  iframe Hz
  isplitl [Hsu0 Hsu1 Hrs00 Hrs01 Hrs02 Hrs03 Hrs04 Hrs05 Hrs06 Hrs10 Hrs11 Hrs12 Hrs13 Hrs14 Hrs15 Hrs16]
  · iapply (join_scr_ex m c)
    rw [bigSepL_allKJ]; dsimp only [sep14]
    isplitl [Hsu0 Hsu1]
    · isplitl [Hsu0]; · iexists _; iexact Hsu0
      iexists _; iexact Hsu1
    isplitl [Hrs06]; · iexists _; iexact Hrs06
    isplitl [Hrs05]; · iexists _; iexact Hrs05
    isplitl [Hrs04]; · iexists _; iexact Hrs04
    isplitl [Hrs03]; · iexists _; iexact Hrs03
    isplitl [Hrs02]; · iexists _; iexact Hrs02
    isplitl [Hrs01]; · iexists _; iexact Hrs01
    isplitl [Hrs00]; · iexists _; iexact Hrs00
    isplitl [Hrs16]; · iexists _; iexact Hrs16
    isplitl [Hrs15]; · iexists _; iexact Hrs15
    isplitl [Hrs14]; · iexists _; iexact Hrs14
    isplitl [Hrs13]; · iexists _; iexact Hrs13
    isplitl [Hrs12]; · iexists _; iexact Hrs12
    isplitl [Hrs11]; · iexists _; iexact Hrs11
    iexists _; iexact Hrs10
  isplitl [HxO Hx00 Hx01 Hx02 Hx03 Hx04 Hx05 Hx06 Hx10 Hx11 Hx12 Hx13 Hx14 Hx15 Hx16]
  · iapply (join_x m c)
    rw [bigSepL_allKJ]; dsimp only [sep14]
    iframe
  · iapply (join_out_ex m c)
    rw [bigSepL_allKJ]; dsimp only [sep14]
    isplitl [Hq00 Hq01 Hq02 Hq03 Hq04 Hq05 Hq06 Hq10 Hq11 Hq12 Hq13 Hq14 Hq15 Hq16]
    · isplitl [Hq00 Hq01 Hq02 Hq03 Hq04 Hq05 Hq06]
      · iapply (share_join_ex m c 0); rw [bigSepL_allJ]; dsimp only [sep7]
        iframe
      · iapply (share_join_ex m c 1); rw [bigSepL_allJ]; dsimp only [sep7]
        iframe
    isplitl [Hgb06]; · iexact Hgb06
    isplitl [Hgb05]; · iexact Hgb05
    isplitl [Hgb04]; · iexact Hgb04
    isplitl [Hgb03]; · iexact Hgb03
    isplitl [Hgb02]; · iexact Hgb02
    isplitl [Hgb01]; · iexact Hgb01
    isplitl [Hgb00]; · iexact Hgb00
    isplitl [Hgb16]; · iexact Hgb16
    isplitl [Hgb15]; · iexact Hgb15
    isplitl [Hgb14]; · iexact Hgb14
    isplitl [Hgb13]; · iexact Hgb13
    isplitl [Hgb12]; · iexact Hgb12
    isplitl [Hgb11]; · iexact Hgb11
    iexact Hgb10

end Cert.Kernel.Proto

end
-- ==== Proof.K.Obligation.lean ====
import proofs.«900587_g7700000000000588_dist_rs_then_ag_i_m512_n512_v7x_i8_f32_1_alg».proof.Proof.K.Body

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

open Idealize.ShloMosaic.Tactic

theorem bigSep_W (Φ : Fin cfg0.W → sProp 𝕄) : bigSep Finset.univ Φ = iprop(Φ (0 : Fin 2) ∗ Φ (1 : Fin 2)) := bigSep_W0 Φ

set_option maxRecDepth 40000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 40000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4)
    (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

end Cert.Kernel.Proto

end
-- ==== Proof.ClaimsK.lean ====
import proofs.«900587_g7700000000000588_dist_rs_then_ag_i_m512_n512_v7x_i8_f32_1_alg».proof.Defs
import proofs.«900587_g7700000000000588_dist_rs_then_ag_i_m512_n512_v7x_i8_f32_1_alg».proof.Proof.Gen.Kernel
import proofs.«900587_g7700000000000588_dist_rs_then_ag_i_m512_n512_v7x_i8_f32_1_alg».proof.Proof.Gen.Pre_finite_inputs_Kernel
import proofs.«900587_g7700000000000588_dist_rs_then_ag_i_m512_n512_v7x_i8_f32_1_alg».proof.Proof.K.Launch
import proofs.«900587_g7700000000000588_dist_rs_then_ag_i_m512_n512_v7x_i8_f32_1_alg».proof.Proof.K.Obligation

noncomputable section

namespace Cert.Proof.K

open Idealize.ShloMosaic Idealize.ShloMosaic.TcCoe Idealize.SL.Sem

theorem frame_k : Cert.frame_Kernel := fun m ρ _ =>
  (θ_run Cert.Kernel.defs _ _).mono (fun _ h c => (h c).2)
    (Cert.Kernel.Proto.run_values (F := Bits) m ρ (fun c => Cert.Kernel.Proto.body_obligation m ρ c))

end Cert.Proof.K

end
-- ==== Proof.lean ====
import proofs.«900587_g7700000000000588_dist_rs_then_ag_i_m512_n512_v7x_i8_f32_1_alg».proof.Defs
import proofs.«900587_g7700000000000588_dist_rs_then_ag_i_m512_n512_v7x_i8_f32_1_alg».proof.Proof.Gen.Kernel
import proofs.«900587_g7700000000000588_dist_rs_then_ag_i_m512_n512_v7x_i8_f32_1_alg».proof.Proof.Gen.KernelIdeal
import proofs.«900587_g7700000000000588_dist_rs_then_ag_i_m512_n512_v7x_i8_f32_1_alg».proof.Proof.Gen.ReferenceIdeal
import proofs.«900587_g7700000000000588_dist_rs_then_ag_i_m512_n512_v7x_i8_f32_1_alg».proof.Proof.Gen.Pre_finite_inputs_Kernel
import proofs.«900587_g7700000000000588_dist_rs_then_ag_i_m512_n512_v7x_i8_f32_1_alg».proof.Proof.Gen.Pre_finite_inputs_ReferenceIdeal
import proofs.«900587_g7700000000000588_dist_rs_then_ag_i_m512_n512_v7x_i8_f32_1_alg».proof.Proof.RefValue
import proofs.«900587_g7700000000000588_dist_rs_then_ag_i_m512_n512_v7x_i8_f32_1_alg».proof.Proof.Claims
import proofs.«900587_g7700000000000588_dist_rs_then_ag_i_m512_n512_v7x_i8_f32_1_alg».proof.Proof.ClaimsK

noncomputable section

namespace Cert.Proof

/-- Every device's result block ends as the sum of the eight row blocks, the reference's value: over the extended reals the order of the additions does not matter. -/
theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Cert.Proof.K.frame_k, Cert.Proof.KI.frame_ki, Cert.ReferenceIdeal.RefValue.frame_ri,
    Cert.Proof.KI.preserves, Cert.Proof.KI.algebraic⟩

end Cert.Proof

end
